-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x1 : Shape := ⟨2, ![200000, 1]⟩
abbrev S2x5000000 : Shape := ⟨2, ![2, 5000000]⟩
abbrev S200000 : Shape := ⟨1, ![200000]⟩
abbrev S1x16 : Shape := ⟨2, ![1, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S_ : Shape := ⟨0, ![]⟩

class Facts : Prop where
  bcast_S_S200000x1 : S_.BroadcastsInDim S200000x1 (![] : Fin 0 → Fin S200000x1.rank)
  reducesTo_S200000x1_S_d0_1 : S200000x1.ReducesTo [0, 1] S_
  h_S_ : 0 < S_.numel
  bcast_S_S1x16 : S_.BroadcastsInDim S1x16 (![] : Fin 0 → Fin S1x16.rank)
  reducesTo_S1x16_S_d0_1 : S1x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_arg23 : FVec F S1 .f32) (main_v98 : IVec S_ 1) (main_v101 : IVec S16x1 1) (main_c_39 : IVec S_ 1) : IVec S_ 1 :=
  let main_v102 : IVec S_ 1 := (fun x v => Host.reduce IntOp.andi x v reducesTo_S16x1_S_d0_1 h_S_) main_v101 main_c_39
  let main_v103 : IVec S_ 1 := andi main_v98 main_v102
  let main_v104 : FVec F S1 .f32 := Host.absf main_arg23
  let main_cst_40 : FVec F S_ .f32 := constant S_ .f32 0x7F800000#32
  let main_v105 : FVec F S1 .f32 := broadcastInDim S1 ![] bcast_S_S1 main_cst_40
  let main_v106 : IVec S1 1 := cmpf .olt main_v104 main_v105
  let main_c_41 : IVec S_ 1 := constantI S_ 1 1#1
  let main_v107 : IVec S_ 1 := (fun x v => Host.reduce IntOp.andi x v reducesTo_S1_S_d0 h_S_) main_v106 main_c_41
  let main_v108 : IVec S_ 1 := andi main_v103 main_v107
  main_v108

def fn_part5 {F : FTy → Type} [FloatOps F] (main_arg20 : FVec F S16x16 .f32) (main_arg21 : FVec F S16 .f32) (main_arg22 : FVec F S16x1 .f32) (main_arg23 : FVec F S1 .f32) (main_v83 : IVec S_ 1) (main_v84 : FVec F S16 .f32) (main_cst_32 : FVec F S_ .f32) : IVec S_ 1 :=
  let main_v85 : FVec F S16 .f32 := broadcastInDim S16 ![] bcast_S_S16 main_cst_32
  let main_v86 : IVec S16 1 := cmpf .olt main_v84 main_v85
  let main_c_33 : IVec S_ 1 := constantI S_ 1 1#1
  let main_v87 : IVec S_ 1 := (fun x v => Host.reduce IntOp.andi x v reducesTo_S16_S_d0 h_S_) main_v86 main_c_33
  let main_v88 : IVec S_ 1 := andi main_v83 main_v87
  let main_v89 : FVec F S16x16 .f32 := Host.absf main_arg20
  let main_cst_34 : FVec F S_ .f32 := constant S_ .f32 0x7F800000#32
  let main_v90 : FVec F S16x16 .f32 := broadcastInDim S16x16 ![] bcast_S_S16x16 main_cst_34
  let main_v91 : IVec S16x16 1 := cmpf .olt main_v89 main_v90
  let main_c_35 : IVec S_ 1 := constantI S_ 1 1#1
  let main_v92 : IVec S_ 1 := (fun x v => Host.reduce IntOp.andi x v reducesTo_S16x16_S_d0_1 h_S_) main_v91 main_c_35
  let main_v93 : IVec S_ 1 := andi main_v88 main_v92
  let main_v94 : FVec F S16 .f32 := Host.absf main_arg21
  let main_cst_36 : FVec F S_ .f32 := constant S_ .f32 0x7F800000#32
  let main_v95 : FVec F S16 .f32 := broadcastInDim S16 ![] bcast_S_S16 main_cst_36
  let main_v96 : IVec S16 1 := cmpf .olt main_v94 main_v95
  let main_c_37 : IVec S_ 1 := constantI S_ 1 1#1
  let main_v97 : IVec S_ 1 := (fun x v => Host.reduce IntOp.andi x v reducesTo_S16_S_d0 h_S_) main_v96 main_c_37
  let main_v98 : IVec S_ 1 := andi main_v93 main_v97
  let main_v99 : FVec F S16x1 .f32 := Host.absf main_arg22
  let main_cst_38 : FVec F S_ .f32 := constant S_ .f32 0x7F800000#32
  let main_v100 : FVec F S16x1 .f32 := broadcastInDim S16x1 ![] bcast_S_S16x1 main_cst_38
  let main_v101 : IVec S16x1 1 := cmpf .olt main_v99 main_v100
  let main_c_39 : IVec S_ 1 := constantI S_ 1 1#1
  fn_part6 (F := F) main_arg23 main_v98 main_v101 main_c_39

def fn_part4 {F : FTy → Type} [FloatOps F] (main_arg16 : FVec F S16x16 .f32) (main_arg17 : FVec F S16 .f32) (main_arg18 : FVec F S16x16 .f32) (main_arg19 : FVec F S16 .f32) (main_arg20 : FVec F S16x16 .f32) (main_arg21 : FVec F S16 .f32) (main_arg22 : FVec F S16x1 .f32) (main_arg23 : FVec F S1 .f32) (main_v63 : IVec S_ 1) (main_v67 : IVec S_ 1) : IVec S_ 1 :=
  let main_v68 : IVec S_ 1 := andi main_v63 main_v67
  let main_v69 : FVec F S16x16 .f32 := Host.absf main_arg16
  let main_cst_26 : FVec F S_ .f32 := constant S_ .f32 0x7F800000#32
  let main_v70 : FVec F S16x16 .f32 := broadcastInDim S16x16 ![] bcast_S_S16x16 main_cst_26
  let main_v71 : IVec S16x16 1 := cmpf .olt main_v69 main_v70
  let main_c_27 : IVec S_ 1 := constantI S_ 1 1#1
  let main_v72 : IVec S_ 1 := (fun x v => Host.reduce IntOp.andi x v reducesTo_S16x16_S_d0_1 h_S_) main_v71 main_c_27
  let main_v73 : IVec S_ 1 := andi main_v68 main_v72
  let main_v74 : FVec F S16 .f32 := Host.absf main_arg17
  let main_cst_28 : FVec F S_ .f32 := constant S_ .f32 0x7F800000#32
  let main_v75 : FVec F S16 .f32 := broadcastInDim S16 ![] bcast_S_S16 main_cst_28
  let main_v76 : IVec S16 1 := cmpf .olt main_v74 main_v75
  let main_c_29 : IVec S_ 1 := constantI S_ 1 1#1
  let main_v77 : IVec S_ 1 := (fun x v => Host.reduce IntOp.andi x v reducesTo_S16_S_d0 h_S_) main_v76 main_c_29
  let main_v78 : IVec S_ 1 := andi main_v73 main_v77
  let main_v79 : FVec F S16x16 .f32 := Host.absf main_arg18
  let main_cst_30 : FVec F S_ .f32 := constant S_ .f32 0x7F800000#32
  let main_v80 : FVec F S16x16 .f32 := broadcastInDim S16x16 ![] bcast_S_S16x16 main_cst_30
  let main_v81 : IVec S16x16 1 := cmpf .olt main_v79 main_v80
  let main_c_31 : IVec S_ 1 := constantI S_ 1 1#1
  let main_v82 : IVec S_ 1 := (fun x v => Host.reduce IntOp.andi x v reducesTo_S16x16_S_d0_1 h_S_) main_v81 main_c_31
  let main_v83 : IVec S_ 1 := andi main_v78 main_v82
  let main_v84 : FVec F S16 .f32 := Host.absf main_arg19
  let main_cst_32 : FVec F S_ .f32 := constant S_ .f32 0x7F800000#32
  fn_part5 (F := F) main_arg20 main_arg21 main_arg22 main_arg23 main_v83 main_v84 main_cst_32

def fn_part3 {F : FTy → Type} [FloatOps F] (main_arg13 : FVec F S16x16 .f32) (main_arg14 : FVec F S16 .f32) (main_arg15 : FVec F S16x16 .f32) (main_arg16 : FVec F S16x16 .f32) (main_arg17 : FVec F S16 .f32) (main_arg18 : FVec F S16x16 .f32) (main_arg19 : FVec F S16 .f32) (main_arg20 : FVec F S16x16 .f32) (main_arg21 : FVec F S16 .f32) (main_arg22 : FVec F S16x1 .f32) (main_arg23 : FVec F S1 .f32) (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  let main_v54 : FVec F S16x16 .f32 := Host.absf main_arg13
  let main_cst_20 : FVec F S_ .f32 := constant S_ .f32 0x7F800000#32
  let main_v55 : FVec F S16x16 .f32 := broadcastInDim S16x16 ![] bcast_S_S16x16 main_cst_20
  let main_v56 : IVec S16x16 1 := cmpf .olt main_v54 main_v55
  let main_c_21 : IVec S_ 1 := constantI S_ 1 1#1
  let main_v57 : IVec S_ 1 := (fun x v => Host.reduce IntOp.andi x v reducesTo_S16x16_S_d0_1 h_S_) main_v56 main_c_21
  let main_v58 : IVec S_ 1 := andi main_v53 main_v57
  let main_v59 : FVec F S16 .f32 := Host.absf main_arg14
  let main_cst_22 : FVec F S_ .f32 := constant S_ .f32 0x7F800000#32
  let main_v60 : FVec F S16 .f32 := broadcastInDim S16 ![] bcast_S_S16 main_cst_22
  let main_v61 : IVec S16 1 := cmpf .olt main_v59 main_v60
  let main_c_23 : IVec S_ 1 := constantI S_ 1 1#1
  let main_v62 : IVec S_ 1 := (fun x v => Host.reduce IntOp.andi x v reducesTo_S16_S_d0 h_S_) main_v61 main_c_23
  let main_v63 : IVec S_ 1 := andi main_v58 main_v62
  let main_v64 : FVec F S16x16 .f32 := Host.absf main_arg15
  let main_cst_24 : FVec F S_ .f32 := constant S_ .f32 0x7F800000#32
  let main_v65 : FVec F S16x16 .f32 := broadcastInDim S16x16 ![] bcast_S_S16x16 main_cst_24
  let main_v66 : IVec S16x16 1 := cmpf .olt main_v64 main_v65
  let main_c_25 : IVec S_ 1 := constantI S_ 1 1#1
  let main_v67 : IVec S_ 1 := (fun x v => Host.reduce IntOp.andi x v reducesTo_S16x16_S_d0_1 h_S_) main_v66 main_c_25
  fn_part4 (F := F) main_arg16 main_arg17 main_arg18 main_arg19 main_arg20 main_arg21 main_arg22 main_arg23 main_v63 main_v67

def fn_part2 {F : FTy → Type} [FloatOps F] (main_arg9 : FVec F S16 .f32) (main_arg10 : FVec F S16x16 .f32) (main_arg11 : FVec F S16x16 .f32) (main_arg12 : FVec F S16 .f32) (main_arg13 : FVec F S16x16 .f32) (main_arg14 : FVec F S16 .f32) (main_arg15 : FVec F S16x16 .f32) (main_arg16 : FVec F S16x16 .f32) (main_arg17 : FVec F S16 .f32) (main_arg18 : FVec F S16x16 .f32) (main_arg19 : FVec F S16 .f32) (main_arg20 : FVec F S16x16 .f32) (main_arg21 : FVec F S16 .f32) (main_arg22 : FVec F S16x1 .f32) (main_arg23 : FVec F S1 .f32) (main_v33 : IVec S_ 1) : IVec S_ 1 :=
  let main_v34 : FVec F S16 .f32 := Host.absf main_arg9
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  let main_v39 : FVec F S16x16 .f32 := Host.absf main_arg10
  let main_cst_14 : FVec F S_ .f32 := constant S_ .f32 0x7F800000#32
  let main_v40 : FVec F S16x16 .f32 := broadcastInDim S16x16 ![] bcast_S_S16x16 main_cst_14
  let main_v41 : IVec S16x16 1 := cmpf .olt main_v39 main_v40
  let main_c_15 : IVec S_ 1 := constantI S_ 1 1#1
  let main_v42 : IVec S_ 1 := (fun x v => Host.reduce IntOp.andi x v reducesTo_S16x16_S_d0_1 h_S_) main_v41 main_c_15
  let main_v43 : IVec S_ 1 := andi main_v38 main_v42
  let main_v44 : FVec F S16x16 .f32 := Host.absf main_arg11
  let main_cst_16 : FVec F S_ .f32 := constant S_ .f32 0x7F800000#32
  let main_v45 : FVec F S16x16 .f32 := broadcastInDim S16x16 ![] bcast_S_S16x16 main_cst_16
  let main_v46 : IVec S16x16 1 := cmpf .olt main_v44 main_v45
  let main_c_17 : IVec S_ 1 := constantI S_ 1 1#1
  let main_v47 : IVec S_ 1 := (fun x v => Host.reduce IntOp.andi x v reducesTo_S16x16_S_d0_1 h_S_) main_v46 main_c_17
  let main_v48 : IVec S_ 1 := andi main_v43 main_v47
  let main_v49 : FVec F S16 .f32 := Host.absf main_arg12
  let main_cst_18 : FVec F S_ .f32 := constant S_ .f32 0x7F800000#32
  let main_v50 : FVec F S16 .f32 := broadcastInDim S16 ![] bcast_S_S16 main_cst_18
  fn_part3 (F := F) main_arg13 main_arg14 main_arg15 main_arg16 main_arg17 main_arg18 main_arg19 main_arg20 main_arg21 main_arg22 main_arg23 main_v48 main_v49 main_v50

def fn_part1 {F : FTy → Type} [FloatOps F] (main_arg6 : FVec F S16x16 .f32) (main_arg7 : FVec F S16 .f32) (main_arg8 : FVec F S16x16 .f32) (main_arg9 : FVec F S16 .f32) (main_arg10 : FVec F S16x16 .f32) (main_arg11 : FVec F S16x16 .f32) (main_arg12 : FVec F S16 .f32) (main_arg13 : FVec F S16x16 .f32) (main_arg14 : FVec F S16 .f32) (main_arg15 : FVec F S16x16 .f32) (main_arg16 : FVec F S16x16 .f32) (main_arg17 : FVec F S16 .f32) (main_arg18 : FVec F S16x16 .f32) (main_arg19 : FVec F S16 .f32) (main_arg20 : FVec F S16x16 .f32) (main_arg21 : FVec F S16 .f32) (main_arg22 : FVec F S16x1 .f32) (main_arg23 : FVec F S1 .f32) (main_v13 : IVec S_ 1) (main_v16 : IVec S1x16 1) : IVec S_ 1 :=
  let main_c_5 : IVec S_ 1 := constantI S_ 1 1#1
  let main_v17 : IVec S_ 1 := (fun x v => Host.reduce IntOp.andi x v reducesTo_S1x16_S_d0_1 h_S_) main_v16 main_c_5
  let main_v18 : IVec S_ 1 := andi main_v13 main_v17
  let main_v19 : FVec F S16x16 .f32 := Host.absf main_arg6
  let main_cst_6 : FVec F S_ .f32 := constant S_ .f32 0x7F800000#32
  let main_v20 : FVec F S16x16 .f32 := broadcastInDim S16x16 ![] bcast_S_S16x16 main_cst_6
  let main_v21 : IVec S16x16 1 := cmpf .olt main_v19 main_v20
  let main_c_7 : IVec S_ 1 := constantI S_ 1 1#1
  let main_v22 : IVec S_ 1 := (fun x v => Host.reduce IntOp.andi x v reducesTo_S16x16_S_d0_1 h_S_) main_v21 main_c_7
  let main_v23 : IVec S_ 1 := andi main_v18 main_v22
  let main_v24 : FVec F S16 .f32 := Host.absf main_arg7
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S16x16 .f32 := Host.absf main_arg8
  let main_cst_10 : FVec F S_ .f32 := constant S_ .f32 0x7F800000#32
  let main_v30 : FVec F S16x16 .f32 := broadcastInDim S16x16 ![] bcast_S_S16x16 main_cst_10
  let main_v31 : IVec S16x16 1 := cmpf .olt main_v29 main_v30
  let main_c_11 : IVec S_ 1 := constantI S_ 1 1#1
  let main_v32 : IVec S_ 1 := (fun x v => Host.reduce IntOp.andi x v reducesTo_S16x16_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_v33

def fn {F : FTy → Type} [FloatOps F] (main_arg0 : FVec F S200000x1 .f32) (main_arg1 : IVec S2x5000000 32) (main_arg2 : IVec S200000 32) (main_arg3 : FVec F S1x16 .f32) (main_arg4 : FVec F S16 .f32) (main_arg5 : FVec F S1x16 .f32) (main_arg6 : FVec F S16x16 .f32) (main_arg7 : FVec F S16 .f32) (main_arg8 : FVec F S16x16 .f32) (main_arg9 : FVec F S16 .f32) (main_arg10 : FVec F S16x16 .f32) (main_arg11 : FVec F S16x16 .f32) (main_arg12 : FVec F S16 .f32) (main_arg13 : FVec F S16x16 .f32) (main_arg14 : FVec F S16 .f32) (main_arg15 : FVec F S16x16 .f32) (main_arg16 : FVec F S16x16 .f32) (main_arg17 : FVec F S16 .f32) (main_arg18 : FVec F S16x16 .f32) (main_arg19 : FVec F S16 .f32) (main_arg20 : FVec F S16x16 .f32) (main_arg21 : FVec F S16 .f32) (main_arg22 : FVec F S16x1 .f32) (main_arg23 : FVec F S1 .f32) : IVec S_ 1 :=
  let main_v0 : FVec F S200000x1 .f32 := Host.absf main_arg0
  let main_cst : FVec F S_ .f32 := constant S_ .f32 0x7F800000#32
  let main_v1 : FVec F S200000x1 .f32 := broadcastInDim S200000x1 ![] bcast_S_S200000x1 main_cst
  let main_v2 : IVec S200000x1 1 := cmpf .olt main_v0 main_v1
  let main_c : IVec S_ 1 := constantI S_ 1 1#1
  let main_v3 : IVec S_ 1 := (fun x v => Host.reduce IntOp.andi x v reducesTo_S200000x1_S_d0_1 h_S_) main_v2 main_c
  let main_v4 : FVec F S1x16 .f32 := Host.absf main_arg3
  let main_cst_0 : FVec F S_ .f32 := constant S_ .f32 0x7F800000#32
  let main_v5 : FVec F S1x16 .f32 := broadcastInDim S1x16 ![] bcast_S_S1x16 main_cst_0
  let main_v6 : IVec S1x16 1 := cmpf .olt main_v4 main_v5
  let main_c_1 : IVec S_ 1 := constantI S_ 1 1#1
  let main_v7 : IVec S_ 1 := (fun x v => Host.reduce IntOp.andi x v reducesTo_S1x16_S_d0_1 h_S_) main_v6 main_c_1
  let main_v8 : IVec S_ 1 := andi main_v3 main_v7
  let main_v9 : FVec F S16 .f32 := Host.absf main_arg4
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S1x16 .f32 := Host.absf main_arg5
  let main_cst_4 : FVec F S_ .f32 := constant S_ .f32 0x7F800000#32
  let main_v15 : FVec F S1x16 .f32 := broadcastInDim S1x16 ![] bcast_S_S1x16 main_cst_4
  let main_v16 : IVec S1x16 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S200000x1 : Shape := ⟨2, ![200000, 1]⟩
abbrev S2x5000000 : Shape := ⟨2, ![2, 5000000]⟩
abbrev S200000 : Shape := ⟨1, ![200000]⟩
abbrev S1x16 : Shape := ⟨2, ![1, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S1x5000000 : Shape := ⟨2, ![1, 5000000]⟩
abbrev S5000000 : Shape := ⟨1, ![5000000]⟩
abbrev S_ : Shape := ⟨0, ![]⟩
abbrev S5000000x1 : Shape := ⟨2, ![5000000, 1]⟩
abbrev S200000x16 : Shape := ⟨2, ![200000, 16]⟩
abbrev S5000x1 : Shape := ⟨2, ![5000, 1]⟩
abbrev S5000x16 : Shape := ⟨2, ![5000, 16]⟩
abbrev S5000000x16 : Shape := ⟨2, ![5000000, 16]⟩
abbrev S2x1024x16 : Shape := ⟨3, ![2, 1024, 16]⟩
abbrev S1000x16 : Shape := ⟨2, ![1000, 16]⟩
abbrev S1000x1 : Shape := ⟨2, ![1000, 1]⟩
abbrev S1x1024x16 : Shape := ⟨3, ![1, 1024, 16]⟩
abbrev S1024x16 : Shape := ⟨2, ![1024, 16]⟩
abbrev S1000x1024 : Shape := ⟨2, ![1000, 1024]⟩
abbrev S1024x1 : Shape := ⟨2, ![1024, 1]⟩
abbrev S1x1 : Shape := ⟨2, ![1, 1]⟩

abbrev nBuf : Space → Nat
  | .hbm => 94
  | .vmem => 62
  | .smem => 0
  | _ => 0

abbrev bufTy : (tb : Table) → Fin (tcTables nBuf tb) → BufTy
  | .hbm, ⟨0, _⟩ => ⟨S200000x1, .f32⟩
  | .hbm, ⟨1, _⟩ => ⟨S2x5000000, .i32⟩
  | .hbm, ⟨2, _⟩ => ⟨S200000, .i32⟩
  | .hbm, ⟨3, _⟩ => ⟨S1x16, .f32⟩
  | .hbm, ⟨4, _⟩ => ⟨S16, .f32⟩
  | .hbm, ⟨5, _⟩ => ⟨S1x16, .f32⟩
  | .hbm, ⟨6, _⟩ => ⟨S16x16, .f32⟩
  | .hbm, ⟨7, _⟩ => ⟨S16, .f32⟩
  | .hbm, ⟨8, _⟩ => ⟨S16x16, .f32⟩
  | .hbm, ⟨9, _⟩ => ⟨S16, .f32⟩
  | .hbm, ⟨10, _⟩ => ⟨S16x16, .f32⟩
  | .hbm, ⟨11, _⟩ => ⟨S16x16, .f32⟩
  | .hbm, ⟨12, _⟩ => ⟨S16, .f32⟩
  | .hbm, ⟨13, _⟩ => ⟨S16x16, .f32⟩
  | .hbm, ⟨14, _⟩ => ⟨S16, .f32⟩
  | .hbm, ⟨15, _⟩ => ⟨S16x16, .f32⟩
  | .hbm, ⟨16, _⟩ => ⟨S16x16, .f32⟩
  | .hbm, ⟨17, _⟩ => ⟨S16, .f32⟩
  | .hbm, ⟨18, _⟩ => ⟨S16x16, .f32⟩
  | .hbm, ⟨19, _⟩ => ⟨S16, .f32⟩
  | .hbm, ⟨20, _⟩ => ⟨S16x16, .f32⟩
  | .hbm, ⟨21, _⟩ => ⟨S16, .f32⟩
  | .hbm, ⟨22, _⟩ => ⟨S16x1, .f32⟩
  | .hbm, ⟨23, _⟩ => ⟨S1, .f32⟩
  | .hbm, ⟨24, _⟩ => ⟨S1x5000000, .i32⟩
  | .hbm, ⟨25, _⟩ => ⟨S5000000, .i32⟩
  | .hbm, ⟨26, _⟩ => ⟨S1x5000000, .i32⟩
  | .hbm, ⟨27, _⟩ => ⟨S5000000, .i32⟩
  | .hbm, ⟨28, _⟩ => ⟨S_, .f32⟩
  | .hbm, ⟨29, _⟩ => ⟨S5000000, .f32⟩
  | .hbm, ⟨30, _⟩ => ⟨S_, .f32⟩
  | .hbm, ⟨31, _⟩ => ⟨S200000, .f32⟩
  | .hbm, ⟨32, _⟩ => ⟨S5000000x1, .i32⟩
  | .hbm, ⟨33, _⟩ => ⟨S200000, .f32⟩
  | .hbm, ⟨34, _⟩ => ⟨S_, .f32⟩
  | .hbm, ⟨35, _⟩ => ⟨S200000, .f32⟩
  | .hbm, ⟨36, _⟩ => ⟨S200000, .f32⟩
  | .hbm, ⟨37, _⟩ => ⟨S200000x1, .f32⟩
  | .hbm, ⟨38, _⟩ => ⟨S_, .i32⟩
  | .hbm, ⟨39, _⟩ => ⟨S5000000, .i32⟩
  | .hbm, ⟨40, _⟩ => ⟨S5000000, .i1⟩
  | .hbm, ⟨41, _⟩ => ⟨S_, .i32⟩
  | .hbm, ⟨42, _⟩ => ⟨S5000000, .i32⟩
  | .hbm, ⟨43, _⟩ => ⟨S5000000, .i32⟩
  | .hbm, ⟨44, _⟩ => ⟨S5000000, .i32⟩
  | .hbm, ⟨45, _⟩ => ⟨S5000000x1, .i32⟩
  | .hbm, ⟨46, _⟩ => ⟨S5000000x1, .f32⟩
  | .hbm, ⟨47, _⟩ => ⟨S_, .f32⟩
  | .hbm, ⟨48, _⟩ => ⟨S200000x1, .f32⟩
  | .hbm, ⟨49, _⟩ => ⟨S5000000x1, .i32⟩
  | .hbm, ⟨50, _⟩ => ⟨S200000x1, .f32⟩
  | .hbm, ⟨51, _⟩ => ⟨S200000x16, .f32⟩
  | .hbm, ⟨52, _⟩ => ⟨S_, .i32⟩
  | .hbm, ⟨53, _⟩ => ⟨S5000000, .i32⟩
  | .hbm, ⟨54, _⟩ => ⟨S5000000, .i1⟩
  | .hbm, ⟨55, _⟩ => ⟨S_, .i32⟩
  | .hbm, ⟨56, _⟩ => ⟨S5000000, .i32⟩
  | .hbm, ⟨57, _⟩ => ⟨S5000000, .i32⟩
  | .hbm, ⟨58, _⟩ => ⟨S5000000, .i32⟩
  | .hbm, ⟨59, _⟩ => ⟨S5000000x1, .i32⟩
  | .hbm, ⟨60, _⟩ => ⟨S5000000x16, .f32⟩
  | .hbm, ⟨61, _⟩ => ⟨S_, .f32⟩
  | .hbm, ⟨62, _⟩ => ⟨S200000x16, .f32⟩
  | .hbm, ⟨63, _⟩ => ⟨S5000000x1, .i32⟩
  | .hbm, ⟨64, _⟩ => ⟨S200000x16, .f32⟩
  | .hbm, ⟨65, _⟩ => ⟨S200000x16, .f32⟩
  | .hbm, ⟨66, _⟩ => ⟨S_, .i32⟩
  | .hbm, ⟨67, _⟩ => ⟨S5000000, .i32⟩
  | .hbm, ⟨68, _⟩ => ⟨S5000000, .i1⟩
  | .hbm, ⟨69, _⟩ => ⟨S_, .i32⟩
  | .hbm, ⟨70, _⟩ => ⟨S5000000, .i32⟩
  | .hbm, ⟨71, _⟩ => ⟨S5000000, .i32⟩
  | .hbm, ⟨72, _⟩ => ⟨S5000000, .i32⟩
  | .hbm, ⟨73, _⟩ => ⟨S5000000x1, .i32⟩
  | .hbm, ⟨74, _⟩ => ⟨S5000000x16, .f32⟩
  | .hbm, ⟨75, _⟩ => ⟨S_, .f32⟩
  | .hbm, ⟨76, _⟩ => ⟨S200000x16, .f32⟩
  | .hbm, ⟨77, _⟩ => ⟨S5000000x1, .i32⟩
  | .hbm, ⟨78, _⟩ => ⟨S200000x16, .f32⟩
  | .hbm, ⟨79, _⟩ => ⟨S200000x16, .f32⟩
  | .hbm, ⟨80, _⟩ => ⟨S200000x1, .i32⟩
  | .hbm, ⟨81, _⟩ => ⟨S2x1024x16, .f32⟩
  | .hbm, ⟨82, _⟩ => ⟨S1x1024x16, .f32⟩
  | .hbm, ⟨83, _⟩ => ⟨S1024x16, .f32⟩
  | .hbm, ⟨84, _⟩ => ⟨S1x1024x16, .f32⟩
  | .hbm, ⟨85, _⟩ => ⟨S1024x16, .f32⟩
  | .hbm, ⟨86, _⟩ => ⟨S1024x16, .f32⟩
  | .hbm, ⟨87, _⟩ => ⟨S2x1024x16, .f32⟩
  | .hbm, ⟨88, _⟩ => ⟨S1x1024x16, .f32⟩
  | .hbm, ⟨89, _⟩ => ⟨S1024x16, .f32⟩
  | .hbm, ⟨90, _⟩ => ⟨S1x1024x16, .f32⟩
  | .hbm, ⟨91, _⟩ => ⟨S1024x16, .f32⟩
  | .hbm, ⟨92, _⟩ => ⟨S1024x16, .f32⟩
  | .hbm, ⟨93, _⟩ => ⟨S1024x1, .f32⟩
  | .local _ .vmem, ⟨0, _⟩ => ⟨S5000x1, .f32⟩
  | .local _ .vmem, ⟨1, _⟩ => ⟨S5000x1, .f32⟩
  | .local _ .vmem, ⟨2, _⟩ => ⟨S5000x1, .f32⟩
  | .local _ .vmem, ⟨3, _⟩ => ⟨S5000x1, .f32⟩
  | .local _ .vmem, ⟨4, _⟩ => ⟨S5000x1, .f32⟩
  | .local _ .vmem, ⟨5, _⟩ => ⟨S5000x1, .f32⟩
  | .local _ .vmem, ⟨6, _⟩ => ⟨S1x16, .f32⟩
  | .local _ .vmem, ⟨7, _⟩ => ⟨S16, .f32⟩
  | .local _ .vmem, ⟨8, _⟩ => ⟨S1x16, .f32⟩
  | .local _ .vmem, ⟨9, _⟩ => ⟨S16x16, .f32⟩
  | .local _ .vmem, ⟨10, _⟩ => ⟨S16, .f32⟩
  | .local _ .vmem, ⟨11, _⟩ => ⟨S5000x16, .f32⟩
  | .local _ .vmem, ⟨12, _⟩ => ⟨S5000x16, .f32⟩
  | .local _ .vmem, ⟨13, _⟩ => ⟨S5000x16, .f32⟩
  | .local _ .vmem, ⟨14, _⟩ => ⟨S5000x16, .f32⟩
  | .local _ .vmem, ⟨15, _⟩ => ⟨S5000x1, .f32⟩
  | .local _ .vmem, ⟨16, _⟩ => ⟨S5000x1, .f32⟩
  | .local _ .vmem, ⟨17, _⟩ => ⟨S5000x16, .f32⟩
  | .local _ .vmem, ⟨18, _⟩ => ⟨S5000x16, .f32⟩
  | .local _ .vmem, ⟨19, _⟩ => ⟨S16x16, .f32⟩
  | .local _ .vmem, ⟨20, _⟩ => ⟨S16, .f32⟩
  | .local _ .vmem, ⟨21, _⟩ => ⟨S16x16, .f32⟩
  | .local _ .vmem, ⟨22, _⟩ => ⟨S16x16, .f32⟩
  | .local _ .vmem, ⟨23, _⟩ => ⟨S16, .f32⟩
  | .local _ .vmem, ⟨24, _⟩ => ⟨S5000x16, .f32⟩
  | .local _ .vmem, ⟨25, _⟩ => ⟨S5000x16, .f32⟩
  | .local _ .vmem, ⟨26, _⟩ => ⟨S5000x16, .f32⟩
  | .local _ .vmem, ⟨27, _⟩ => ⟨S5000x16, .f32⟩
  | .local _ .vmem, ⟨28, _⟩ => ⟨S5000x1, .f32⟩
  | .local _ .vmem, ⟨29, _⟩ => ⟨S5000x1, .f32⟩
  | .local _ .vmem, ⟨30, _⟩ => ⟨S5000x16, .f32⟩
  | .local _ .vmem, ⟨31, _⟩ => ⟨S5000x16, .f32⟩
  | .local _ .vmem, ⟨32, _⟩ => ⟨S16x16, .f32⟩
  | .local _ .vmem, ⟨33, _⟩ => ⟨S16, .f32⟩
  | .local _ .vmem, ⟨34, _⟩ => ⟨S16x16, .f32⟩
  | .local _ .vmem, ⟨35, _⟩ => ⟨S16x16, .f32⟩
  | .local _ .vmem, ⟨36, _⟩ => ⟨S16, .f32⟩
  | .local _ .vmem, ⟨37, _⟩ => ⟨S5000x16, .f32⟩
  | .local _ .vmem, ⟨38, _⟩ => ⟨S5000x16, .f32⟩
  | .local _ .vmem, ⟨39, _⟩ => ⟨S1000x16, .f32⟩
  | .local _ .vmem, ⟨40, _⟩ => ⟨S1000x16, .f32⟩
  | .local _ .vmem, ⟨41, _⟩ => ⟨S1000x1, .i32⟩
  | .local _ .vmem, ⟨42, _⟩ => ⟨S1000x1, .i32⟩
  | .local _ .vmem, ⟨43, _⟩ => ⟨S1x1024x16, .f32⟩
  | .local _ .vmem, ⟨44, _⟩ => ⟨S1x1024x16, .f32⟩
  | .local _ .vmem, ⟨45, _⟩ => ⟨S1024x16, .f32⟩
  | .local _ .vmem, ⟨46, _⟩ => ⟨S1000x16, .f32⟩
  | .local _ .vmem, ⟨47, _⟩ => ⟨S1000x16, .f32⟩
  | .local _ .vmem, ⟨48, _⟩ => ⟨S1000x1, .i32⟩
  | .local _ .vmem, ⟨49, _⟩ => ⟨S1000x1, .i32⟩
  | .local _ .vmem, ⟨50, _⟩ => ⟨S1024x16, .f32⟩
  | .local _ .vmem, ⟨51, _⟩ => ⟨S1x1024x16, .f32⟩
  | .local _ .vmem, ⟨52, _⟩ => ⟨S1x1024x16, .f32⟩
  | .local _ .vmem, ⟨53, _⟩ => ⟨S1024x16, .f32⟩
  | .local _ .vmem, ⟨54, _⟩ => ⟨S1024x16, .f32⟩
  | .local _ .vmem, ⟨55, _⟩ => ⟨S16x16, .f32⟩
  | .local _ .vmem, ⟨56, _⟩ => ⟨S16, .f32⟩
  | .local _ .vmem, ⟨57, _⟩ => ⟨S16x16, .f32⟩
  | .local _ .vmem, ⟨58, _⟩ => ⟨S16, .f32⟩
  | .local _ .vmem, ⟨59, _⟩ => ⟨S16x1, .f32⟩
  | .local _ .vmem, ⟨60, _⟩ => ⟨S1, .f32⟩
  | .local _ .vmem, ⟨61, _⟩ => ⟨S1024x1, .f32⟩
  | _, _ => ⟨S200000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_cst : Ref sig .tc := ⟨.hbm, 28, rfl⟩
abbrev main_v4 : Ref sig .tc := ⟨.hbm, 29, rfl⟩
abbrev main_cst_0 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_cst_1 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_c : Ref sig .tc := ⟨.hbm, 38, rfl⟩
abbrev main_v11 : Ref sig .tc := ⟨.hbm, 39, rfl⟩
abbrev main_v12 : Ref sig .tc := ⟨.hbm, 40, rfl⟩
abbrev main_c_2 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_cst_3 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_c_4 : Ref sig .tc := ⟨.hbm, 52, rfl⟩
abbrev main_v22 : Ref sig .tc := ⟨.hbm, 53, rfl⟩
abbrev main_v23 : Ref sig .tc := ⟨.hbm, 54, rfl⟩
abbrev main_c_5 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_cst_6 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_c_7 : Ref sig .tc := ⟨.hbm, 66, rfl⟩
abbrev main_v33 : Ref sig .tc := ⟨.hbm, 67, rfl⟩
abbrev main_v34 : Ref sig .tc := ⟨.hbm, 68, rfl⟩
abbrev main_c_8 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_cst_9 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg8_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg2_1 : Ref sig .tc := ⟨.vmem, 31, rfl⟩
abbrev cc2_stg3_0 : Ref sig .tc := ⟨.vmem, 32, rfl⟩
abbrev cc2_stg4_0 : Ref sig .tc := ⟨.vmem, 33, rfl⟩
abbrev cc2_stg5_0 : Ref sig .tc := ⟨.vmem, 34, rfl⟩
abbrev cc2_stg6_0 : Ref sig .tc := ⟨.vmem, 35, rfl⟩
abbrev cc2_stg7_0 : Ref sig .tc := ⟨.vmem, 36, rfl⟩
abbrev cc2_stg8_0 : Ref sig .tc := ⟨.vmem, 37, rfl⟩
abbrev cc2_stg8_1 : Ref sig .tc := ⟨.vmem, 38, rfl⟩
abbrev cc3_stg0_0 : Ref sig .tc := ⟨.vmem, 39, rfl⟩
abbrev cc3_stg0_1 : Ref sig .tc := ⟨.vmem, 40, rfl⟩
abbrev cc3_stg1_0 : Ref sig .tc := ⟨.vmem, 41, rfl⟩
abbrev cc3_stg1_1 : Ref sig .tc := ⟨.vmem, 42, rfl⟩
abbrev cc3_stg2_0 : Ref sig .tc := ⟨.vmem, 43, rfl⟩
abbrev cc3_stg2_1 : Ref sig .tc := ⟨.vmem, 44, rfl⟩
abbrev cc3_scratch0 : Ref sig .tc := ⟨.vmem, 45, rfl⟩
abbrev cc4_stg0_0 : Ref sig .tc := ⟨.vmem, 46, rfl⟩
abbrev cc4_stg0_1 : Ref sig .tc := ⟨.vmem, 47, rfl⟩
abbrev cc4_stg1_0 : Ref sig .tc := ⟨.vmem, 48, rfl⟩
abbrev cc4_stg1_1 : Ref sig .tc := ⟨.vmem, 49, rfl⟩
abbrev cc4_stg2_0 : Ref sig .tc := ⟨.vmem, 50, rfl⟩
abbrev cc4_stg3_0 : Ref sig .tc := ⟨.vmem, 51, rfl⟩
abbrev cc4_stg3_1 : Ref sig .tc := ⟨.vmem, 52, rfl⟩
abbrev cc4_scratch0 : Ref sig .tc := ⟨.vmem, 53, rfl⟩
abbrev cc5_stg0_0 : Ref sig .tc := ⟨.vmem, 54, rfl⟩
abbrev cc5_stg1_0 : Ref sig .tc := ⟨.vmem, 55, rfl⟩
abbrev cc5_stg2_0 : Ref sig .tc := ⟨.vmem, 56, rfl⟩
abbrev cc5_stg3_0 : Ref sig .tc := ⟨.vmem, 57, rfl⟩
abbrev cc5_stg4_0 : Ref sig .tc := ⟨.vmem, 58, rfl⟩
abbrev cc5_stg5_0 : Ref sig .tc := ⟨.vmem, 59, rfl⟩
abbrev cc5_stg6_0 : Ref sig .tc := ⟨.vmem, 60, rfl⟩
abbrev cc5_stg7_0 : Ref sig .tc := ⟨.vmem, 61, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem8_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem2_1 : DmaSem sig := 31
abbrev cc2_sem3_0 : DmaSem sig := 32
abbrev cc2_sem4_0 : DmaSem sig := 33
abbrev cc2_sem5_0 : DmaSem sig := 34
abbrev cc2_sem6_0 : DmaSem sig := 35
abbrev cc2_sem7_0 : DmaSem sig := 36
abbrev cc2_sem8_0 : DmaSem sig := 37
abbrev cc2_sem8_1 : DmaSem sig := 38
abbrev cc3_sem0_0 : DmaSem sig := 39
abbrev cc3_sem0_1 : DmaSem sig := 40
abbrev cc3_sem1_0 : DmaSem sig := 41
abbrev cc3_sem1_1 : DmaSem sig := 42
abbrev cc3_sem2_0 : DmaSem sig := 43
abbrev cc3_sem2_1 : DmaSem sig := 44
abbrev cc4_sem0_0 : DmaSem sig := 45
abbrev cc4_sem0_1 : DmaSem sig := 46
abbrev cc4_sem1_0 : DmaSem sig := 47
abbrev cc4_sem1_1 : DmaSem sig := 48
abbrev cc4_sem2_0 : DmaSem sig := 49
abbrev cc4_sem3_0 : DmaSem sig := 50
abbrev cc4_sem3_1 : DmaSem sig := 51
abbrev cc5_sem0_0 : DmaSem sig := 52
abbrev cc5_sem1_0 : DmaSem sig := 53
abbrev cc5_sem2_0 : DmaSem sig := 54
abbrev cc5_sem3_0 : DmaSem sig := 55
abbrev cc5_sem4_0 : DmaSem sig := 56
abbrev cc5_sem5_0 : DmaSem sig := 57
abbrev cc5_sem6_0 : DmaSem sig := 58
abbrev cc5_sem7_0 : DmaSem sig := 59

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S5000x16 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S16x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S16x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S16x16 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S16 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x16 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![40], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S16x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S16 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S16x16 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S16x16 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S16 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S5000x16 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨2, ![2, 100], ![false, false]⟩

def k3_cond2 (i : grid3.Coords) : BitVec 1 :=
  let arg1 : BitVec 32 := BitVec.ofNat 32 (i 1).val
  let c99_i32 : BitVec 32 := 99#32
  let v21 : BitVec 1 := Scalar.cmpi .eq arg1 c99_i32
  let v22 : BitVec 32 := Scalar.extui v21
  let c0_i32_9 : BitVec 32 := 0#32
  let v23 : BitVec 1 := Scalar.cmpi .ne v22 c0_i32_9
  v23

def cc3_transform_0 (i : grid3.Coords) : Fin 2 → Nat :=
  let arg0 : BitVec 32 := BitVec.ofNat 32 (i 0).val
  let arg1 : BitVec 32 := BitVec.ofNat 32 (i 1).val
  let c100_i32 : BitVec 32 := 100#32
  let v0 : BitVec 32 := Scalar.muli arg0 c100_i32
  let v1 : BitVec 32 := Scalar.addi v0 arg1
  let c0_i32 : BitVec 32 := 0#32
  let c0_i32_0 : BitVec 32 := 0#32
  ![v1.toNat, c0_i32.toNat]

def cc3_transform_1 (i : grid3.Coords) : Fin 2 → Nat :=
  let arg0 : BitVec 32 := BitVec.ofNat 32 (i 0).val
  let arg1 : BitVec 32 := BitVec.ofNat 32 (i 1).val
  let c100_i32 : BitVec 32 := 100#32
  let v0 : BitVec 32 := Scalar.muli arg0 c100_i32
  let v1 : BitVec 32 := Scalar.addi v0 arg1
  let c0_i32 : BitVec 32 := 0#32
  let c0_i32_0 : BitVec 32 := 0#32
  ![v1.toNat, c0_i32.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1000x1 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1x1024x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev grid4 : Pipeline.Grid := ⟨2, ![2, 100], ![false, false]⟩

def k4_cond2 (i : grid4.Coords) : BitVec 1 :=
  let arg1 : BitVec 32 := BitVec.ofNat 32 (i 1).val
  let c99_i32 : BitVec 32 := 99#32
  let v26 : BitVec 1 := Scalar.cmpi .eq arg1 c99_i32
  let v27 : BitVec 32 := Scalar.extui v26
  let c0_i32_12 : BitVec 32 := 0#32
  let v28 : BitVec 1 := Scalar.cmpi .ne v27 c0_i32_12
  v28

def cc4_transform_0 (i : grid4.Coords) : Fin 2 → Nat :=
  let arg0 : BitVec 32 := BitVec.ofNat 32 (i 0).val
  let arg1 : BitVec 32 := BitVec.ofNat 32 (i 1).val
  let c100_i32 : BitVec 32 := 100#32
  let v0 : BitVec 32 := Scalar.muli arg0 c100_i32
  let v1 : BitVec 32 := Scalar.addi v0 arg1
  let c0_i32 : BitVec 32 := 0#32
  let c0_i32_0 : BitVec 32 := 0#32
  ![v1.toNat, c0_i32.toNat]

def cc4_transform_1 (i : grid4.Coords) : Fin 2 → Nat :=
  let arg0 : BitVec 32 := BitVec.ofNat 32 (i 0).val
  let arg1 : BitVec 32 := BitVec.ofNat 32 (i 1).val
  let c100_i32 : BitVec 32 := 100#32
  let v0 : BitVec 32 := Scalar.muli arg0 c100_i32
  let v1 : BitVec 32 := Scalar.addi v0 arg1
  let c0_i32 : BitVec 32 := 0#32
  let c0_i32_0 : BitVec 32 := 0#32
  ![v1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S1000x16 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1000x1 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 1 → Memref sig .tc .vmem S1024x16 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, false]

abbrev stage4_3 : Fin 2 → Memref sig .tc .vmem S1x1024x16 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 1 → Memref sig .tc .vmem S1024x16 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S16x16 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S16 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S16x16 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S16 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S16x1 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1024x1 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

class Facts₀ : Prop where
  slices_S2x5000000_S1x5000000_0_0 : S2x5000000.Slices ![0, 0] S1x5000000
  shapeCasts_S1x5000000_S5000000 : S1x5000000.ShapeCasts S5000000
  slices_S2x5000000_S1x5000000_1_0 : S2x5000000.Slices ![1, 0] S1x5000000
  bcast_S_S5000000 : S_.BroadcastsInDim S5000000 (![] : Fin 0 → Fin S5000000.rank)
  bcast_S_S200000 : S_.BroadcastsInDim S200000 (![] : Fin 0 → Fin S200000.rank)
  bcast_S5000000_S5000000x1_0 : S5000000.BroadcastsInDim S5000000x1 (![0] : Fin 1 → Fin S5000000x1.rank)
  bcast_S200000_S200000x1_0 : S200000.BroadcastsInDim S200000x1 (![0] : Fin 1 → Fin S200000x1.rank)
  bcast_S_S200000x1 : S_.BroadcastsInDim S200000x1 (![] : Fin 0 → Fin S200000x1.rank)
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  bitsLt_bf16_f32 : FTy.bits .bf16 < FTy.bits .f32
  inb_S1x16_S1x16_0_0 : ∀ a, (![0, 0] : Fin 2 → Nat) a + S1x16.size a ≤ S1x16.size a
  h_S1x16 : 0 < S1x16.numel
  inb_S16_S16_0 : ∀ a, (![0] : Fin 1 → Nat) a + S16.size a ≤ S16.size a
  h_S16 : 0 < S16.numel
  shapeCasts_S16_S1x16 : S16.ShapeCasts S1x16
  broadcasts_S1x16_S5000x16 : S1x16.Broadcasts S5000x16
  inb_S16x16_S16x16_0_0 : ∀ a, (![0, 0] : Fin 2 → Nat) a + S16x16.size a ≤ S16x16.size a
  h_S16x16 : 0 < S16x16.numel
  inb_S5000x16_S5000x16_0_0 : ∀ a, (![0, 0] : Fin 2 → Nat) a + S5000x16.size a ≤ S5000x16.size a
  h_S5000x16 : 0 < S5000x16.numel
  bcast_S_S200000x16 : S_.BroadcastsInDim S200000x16 (![] : Fin 0 → Fin S200000x16.rank)
  shapeCasts_S5000x16_S5000x16 : S5000x16.ShapeCasts S5000x16
  broadcasts_S5000x1_S5000x16 : S5000x1.Broadcasts S5000x16
  shapeCasts_S200000_S200000x1 : S200000.ShapeCasts S200000x1
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S1000x16_S1000x16_0_0 : ∀ a, (![0, 0] : Fin 2 → Nat) a + S1000x16.size a ≤ S1000x16.size a
  h_S1000x16 : 0 < S1000x16.numel
  shapeCasts_S1000x16_S1000x16 : S1000x16.ShapeCasts S1000x16
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  iota_S1000x1024_d1_w32 : S1000x1024.Iotas .tc 32 [1]
  broadcasts_S1000x1_S1000x1024 : S1000x1.Broadcasts S1000x1024
  natLt_1_32 : 1 < 32
  inb_S1x1024x16_S1x1024x16_0_0_0 : ∀ a, (![0, 0, 0] : Fin 3 → Nat) a + S1x1024x16.size a ≤ S1x1024x16.size a
  h_S1x1024x16 : 0 < S1x1024x16.numel
  shapeCasts_S1x1024x16_S1024x16 : S1x1024x16.ShapeCasts S1024x16
  shapeCasts_S1024x16_S1x1024x16 : S1024x16.ShapeCasts S1x1024x16
  slices_S2x1024x16_S1x1024x16_0_0_0 : S2x1024x16.Slices ![0, 0, 0] S1x1024x16
  slices_S2x1024x16_S1x1024x16_1_0_0 : S2x1024x16.Slices ![1, 0, 0] S1x1024x16
  broadcasts_S1x16_S1024x16 : S1x16.Broadcasts S1024x16
  inb_S16x1_S16x1_0_0 : ∀ a, (![0, 0] : Fin 2 → Nat) a + S16x1.size a ≤ S16x1.size a
  h_S16x1 : 0 < S16x1.numel
  inb_S1_S1_0 : ∀ a, (![0] : Fin 1 → Nat) a + S1.size a ≤ S1.size a
  h_S1 : 0 < S1.numel
  shapeCasts_S1_S1x1 : S1.ShapeCasts S1x1
  broadcasts_S1x1_S1024x1 : S1x1.Broadcasts S1024x1
  inb_S1024x1_S1024x1_0_0 : ∀ a, (![0, 0] : Fin 2 → Nat) a + S1024x1.size a ≤ S1024x1.size a
  h_S1024x1 : 0 < S1024x1.numel
  scatter_S200000_S5000000x1_S5000000_n_0_0_1_wf : ScatterDims.WF S200000 S5000000x1 S5000000 [] [0] [0] 1
  gather_S200000x1_S5000000x1_S5000000x1_1_0_n_n_0_1_11_wf : GatherDims.WF S200000x1 S5000000x1 S5000000x1 [1] [0] [] [0] [] 1 ![1, 1]
  scatter_S200000x1_S5000000x1_S5000000x1_1_0_0_1_wf : ScatterDims.WF S200000x1 S5000000x1 S5000000x1 [1] [0] [0] 1
  dot_S5000x1_S1x16_S5000x16_1_0_0_1_n_n_wf : DotDims.WF S5000x1 S1x16 S5000x16 [1] [0] [0] [1] [] []
  dot_S5000x16_S16x16_S5000x16_1_0_0_1_n_n_wf : DotDims.WF S5000x16 S16x16 S5000x16 [1] [0] [0] [1] [] []
  gather_S200000x16_S5000000x1_S5000000x16_1_0_n_n_0_1_116_wf : GatherDims.WF S200000x16 S5000000x1 S5000000x16 [1] [0] [] [0] [] 1 ![1, 16]
  scatter_S200000x16_S5000000x1_S5000000x16_1_0_0_1_wf : ScatterDims.WF S200000x16 S5000000x1 S5000000x16 [1] [0] [0] 1
  dot_S1000x1024_S1000x16_S1024x16_0_0_1_1_n_n_wf : DotDims.WF S1000x1024 S1000x16 S1024x16 [0] [0] [1] [1] [] []
  dot_S1000x1024_S1024x16_S1000x16_1_0_0_1_n_n_wf : DotDims.WF S1000x1024 S1024x16 S1000x16 [1] [0] [0] [1] [] []
  dot_S1024x16_S16x16_S1024x16_1_0_0_1_n_n_wf : DotDims.WF S1024x16 S16x16 S1024x16 [1] [0] [0] [1] [] []
  dot_S1024x16_S16x1_S1024x1_1_0_0_1_n_n_wf : DotDims.WF S1024x16 S16x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x1.size a ≤ S200000x1.size a
  hwx0_0 : ∀ i : grid0.Coords, EltTy.bits .f32 = 32 ∨ (Rect.block (s := S200000x1) S5000x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S200000x1.size a
  hwx0_1 : ∀ i : grid0.Coords, EltTy.bits .f32 = 32 ∨ (Rect.block (s := S200000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S200000x1.size a
  hwx0_2 : ∀ i : grid0.Coords, EltTy.bits .f32 = 32 ∨ (Rect.block (s := S200000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16.size a ≤ S1x16.size a
  hwx0_3 : ∀ i : grid0.Coords, EltTy.bits .f32 = 32 ∨ (Rect.block (s := S1x16) S1x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16.size a ≤ S16.size a
  hwx0_4 : ∀ i : grid0.Coords, EltTy.bits .f32 = 32 ∨ (Rect.block (s := S16) S16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x16.size a ≤ S1x16.size a
  hwx0_5 : ∀ i : grid0.Coords, EltTy.bits .f32 = 32 ∨ (Rect.block (s := S1x16) S1x16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16x16.size a ≤ S16x16.size a
  hwx0_6 : ∀ i : grid0.Coords, EltTy.bits .f32 = 32 ∨ (Rect.block (s := S16x16) S16x16.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S16.size a ≤ S16.size a
  hwx0_7 : ∀ i : grid0.Coords, EltTy.bits .f32 = 32 ∨ (Rect.block (s := S16) S16.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x16.size a ≤ S200000x16.size a
  hwx0_8 : ∀ i : grid0.Coords, EltTy.bits .f32 = 32 ∨ (Rect.block (s := S200000x16) S5000x16.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S200000x16.size a
  hwx1_0 : ∀ i : grid1.Coords, EltTy.bits .f32 = 32 ∨ (Rect.block (s := S200000x16) S5000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S200000x1.size a
  hwx1_1 : ∀ i : grid1.Coords, EltTy.bits .f32 = 32 ∨ (Rect.block (s := S200000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x16.size a ≤ S200000x16.size a
  hwx1_2 : ∀ i : grid1.Coords, EltTy.bits .f32 = 32 ∨ (Rect.block (s := S200000x16) S5000x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x16.size a ≤ S16x16.size a
  hwx1_3 : ∀ i : grid1.Coords, EltTy.bits .f32 = 32 ∨ (Rect.block (s := S16x16) S16x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16.size a ≤ S16.size a
  hwx1_4 : ∀ i : grid1.Coords, EltTy.bits .f32 = 32 ∨ (Rect.block (s := S16) S16.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S16x16.size a ≤ S16x16.size a
  hwx1_5 : ∀ i : grid1.Coords, EltTy.bits .f32 = 32 ∨ (Rect.block (s := S16x16) S16x16.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S16x16.size a ≤ S16x16.size a
  hwx1_6 : ∀ i : grid1.Coords, EltTy.bits .f32 = 32 ∨ (Rect.block (s := S16x16) S16x16.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S16.size a ≤ S16.size a
  hwx1_7 : ∀ i : grid1.Coords, EltTy.bits .f32 = 32 ∨ (Rect.block (s := S16) S16.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x16.size a ≤ S200000x16.size a
  hwx1_8 : ∀ i : grid1.Coords, EltTy.bits .f32 = 32 ∨ (Rect.block (s := S200000x16) S5000x16.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S200000x16.size a
  hwx2_0 : ∀ i : grid2.Coords, EltTy.bits .f32 = 32 ∨ (Rect.block (s := S200000x16) S5000x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S200000x1.size a
  hwx2_1 : ∀ i : grid2.Coords, EltTy.bits .f32 = 32 ∨ (Rect.block (s := S200000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x16.size a ≤ S200000x16.size a
  hwx2_2 : ∀ i : grid2.Coords, EltTy.bits .f32 = 32 ∨ (Rect.block (s := S200000x16) S5000x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S16x16.size a ≤ S16x16.size a
  hwx2_3 : ∀ i : grid2.Coords, EltTy.bits .f32 = 32 ∨ (Rect.block (s := S16x16) S16x16.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S16.size a ≤ S16.size a
  hwx2_4 : ∀ i : grid2.Coords, EltTy.bits .f32 = 32 ∨ (Rect.block (s := S16) S16.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S16x16.size a ≤ S16x16.size a
  hwx2_5 : ∀ i : grid2.Coords, EltTy.bits .f32 = 32 ∨ (Rect.block (s := S16x16) S16x16.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S16x16.size a ≤ S16x16.size a
  hwx2_6 : ∀ i : grid2.Coords, EltTy.bits .f32 = 32 ∨ (Rect.block (s := S16x16) S16x16.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S16.size a ≤ S16.size a
  hwx2_7 : ∀ i : grid2.Coords, EltTy.bits .f32 = 32 ∨ (Rect.block (s := S16) S16.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S5000x16.size a ≤ S200000x16.size a
  hwx2_8 : ∀ i : grid2.Coords, EltTy.bits .f32 = 32 ∨ (Rect.block (s := S200000x16) S5000x16.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x16.size a ≤ S200000x16.size a
  hwx3_0 : ∀ i : grid3.Coords, EltTy.bits .f32 = 32 ∨ (Rect.block (s := S200000x16) S1000x16.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1000x1.size a ≤ S200000x1.size a
  hwx3_1 : ∀ i : grid3.Coords, EltTy.bits .i32 = 32 ∨ (Rect.block (s := S200000x1) S1000x1.size (cc3_transform_1 i) (hinb3_1 i)).WholeWords (EltTy.packing .i32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x1024x16.size a ≤ S2x1024x16.size a
  hwx3_2 : ∀ i : grid3.Coords, EltTy.bits .f32 = 32 ∨ (Rect.block (s := S2x1024x16) S1x1024x16.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x16.size a ≤ S200000x16.size a
  hwx4_0 : ∀ i : grid4.Coords, EltTy.bits .f32 = 32 ∨ (Rect.block (s := S200000x16) S1000x16.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1000x1.size a ≤ S200000x1.size a
  hwx4_1 : ∀ i : grid4.Coords, EltTy.bits .i32 = 32 ∨ (Rect.block (s := S200000x1) S1000x1.size (cc4_transform_1 i) (hinb4_1 i)).WholeWords (EltTy.packing .i32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1024x16.size a ≤ S1024x16.size a
  hwx4_2 : ∀ i : grid4.Coords, EltTy.bits .f32 = 32 ∨ (Rect.block (s := S1024x16) S1024x16.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1x1024x16.size a ≤ S2x1024x16.size a
  hwx4_3 : ∀ i : grid4.Coords, EltTy.bits .f32 = 32 ∨ (Rect.block (s := S2x1024x16) S1x1024x16.size (cc4_transform_3 i) (hinb4_3 i)).WholeWords (EltTy.packing .f32)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S1024x16.size a ≤ S1024x16.size a
  hwx5_0 : ∀ i : grid5.Coords, EltTy.bits .f32 = 32 ∨ (Rect.block (s := S1024x16) S1024x16.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S16x16.size a ≤ S16x16.size a
  hwx5_1 : ∀ i : grid5.Coords, EltTy.bits .f32 = 32 ∨ (Rect.block (s := S16x16) S16x16.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S16.size a ≤ S16.size a
  hwx5_2 : ∀ i : grid5.Coords, EltTy.bits .f32 = 32 ∨ (Rect.block (s := S16) S16.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S16x16.size a ≤ S16x16.size a
  hwx5_3 : ∀ i : grid5.Coords, EltTy.bits .f32 = 32 ∨ (Rect.block (s := S16x16) S16x16.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S16.size a ≤ S16.size a
  hwx5_4 : ∀ i : grid5.Coords, EltTy.bits .f32 = 32 ∨ (Rect.block (s := S16) S16.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S16x1.size a ≤ S16x1.size a
  hwx5_5 : ∀ i : grid5.Coords, EltTy.bits .f32 = 32 ∨ (Rect.block (s := S16x1) S16x1.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1.size a ≤ S1.size a
  hwx5_6 : ∀ i : grid5.Coords, EltTy.bits .f32 = 32 ∨ (Rect.block (s := S1) S1.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1024x1.size a ≤ S1024x1.size a
  hwx5_7 : ∀ i : grid5.Coords, EltTy.bits .f32 = 32 ∨ (Rect.block (s := S1024x1) S1024x1.size (cc5_transform_7 i) (hinb5_7 i)).WholeWords (EltTy.packing .f32)

variable [Facts₀]

def scatter_S200000_S5000000x1_S5000000_n_0_0_1 : ScatterDims S200000 S5000000x1 S5000000 where
  updateWindowDims := []
  insertedWindowDims := [0]
  scatterDimsToOperandDims := [0]
  indexVectorDim := 1
  wf := scatter_S200000_S5000000x1_S5000000_n_0_0_1_wf
def gather_S200000x1_S5000000x1_S5000000x1_1_0_n_n_0_1_11 : GatherDims S200000x1 S5000000x1 S5000000x1 where
  offsetDims := [1]
  collapsedSliceDims := [0]
  operandBatchingDims := []
  startIndicesBatchingDims := []
  startIndexMap := [0]
  indexVectorDim := 1
  sliceSizes := ![1, 1]
  wf := gather_S200000x1_S5000000x1_S5000000x1_1_0_n_n_0_1_11_wf
def scatter_S200000x1_S5000000x1_S5000000x1_1_0_0_1 : ScatterDims S200000x1 S5000000x1 S5000000x1 where
  updateWindowDims := [1]
  insertedWindowDims := [0]
  scatterDimsToOperandDims := [0]
  indexVectorDim := 1
  wf := scatter_S200000x1_S5000000x1_S5000000x1_1_0_0_1_wf
def dot_S5000x1_S1x16_S5000x16_1_0_0_1_n_n : DotDims S5000x1 S1x16 S5000x16 where
  lhsContracting := [1]
  rhsContracting := [0]
  lhsNonContracting := [0]
  rhsNonContracting := [1]
  lhsBatch := []
  rhsBatch := []
  wf := dot_S5000x1_S1x16_S5000x16_1_0_0_1_n_n_wf
def dot_S5000x16_S16x16_S5000x16_1_0_0_1_n_n : DotDims S5000x16 S16x16 S5000x16 where
  lhsContracting := [1]
  rhsContracting := [0]
  lhsNonContracting := [0]
  rhsNonContracting := [1]
  lhsBatch := []
  rhsBatch := []
  wf := dot_S5000x16_S16x16_S5000x16_1_0_0_1_n_n_wf
def gather_S200000x16_S5000000x1_S5000000x16_1_0_n_n_0_1_116 : GatherDims S200000x16 S5000000x1 S5000000x16 where
  offsetDims := [1]
  collapsedSliceDims := [0]
  operandBatchingDims := []
  startIndicesBatchingDims := []
  startIndexMap := [0]
  indexVectorDim := 1
  sliceSizes := ![1, 16]
  wf := gather_S200000x16_S5000000x1_S5000000x16_1_0_n_n_0_1_116_wf
def scatter_S200000x16_S5000000x1_S5000000x16_1_0_0_1 : ScatterDims S200000x16 S5000000x1 S5000000x16 where
  updateWindowDims := [1]
  insertedWindowDims := [0]
  scatterDimsToOperandDims := [0]
  indexVectorDim := 1
  wf := scatter_S200000x16_S5000000x1_S5000000x16_1_0_0_1_wf
def dot_S1000x1024_S1000x16_S1024x16_0_0_1_1_n_n : DotDims S1000x1024 S1000x16 S1024x16 where
  lhsContracting := [0]
  rhsContracting := [0]
  lhsNonContracting := [1]
  rhsNonContracting := [1]
  lhsBatch := []
  rhsBatch := []
  wf := dot_S1000x1024_S1000x16_S1024x16_0_0_1_1_n_n_wf
def dot_S1000x1024_S1024x16_S1000x16_1_0_0_1_n_n : DotDims S1000x1024 S1024x16 S1000x16 where
  lhsContracting := [1]
  rhsContracting := [0]
  lhsNonContracting := [0]
  rhsNonContracting := [1]
  lhsBatch := []
  rhsBatch := []
  wf := dot_S1000x1024_S1024x16_S1000x16_1_0_0_1_n_n_wf
def dot_S1024x16_S16x16_S1024x16_1_0_0_1_n_n : DotDims S1024x16 S16x16 S1024x16 where
  lhsContracting := [1]
  rhsContracting := [0]
  lhsNonContracting := [0]
  rhsNonContracting := [1]
  lhsBatch := []
  rhsBatch := []
  wf := dot_S1024x16_S16x16_S1024x16_1_0_0_1_n_n_wf
def dot_S1024x16_S16x1_S1024x1_1_0_0_1_n_n : DotDims S1024x16 S16x1 S1024x1 where
  lhsContracting := [1]
  rhsContracting := [0]
  lhsNonContracting := [0]
  rhsNonContracting := [1]
  lhsBatch := []
  rhsBatch := []
  wf := dot_S1024x16_S16x1_S1024x1_1_0_0_1_n_n_wf

abbrev win0_0 : Pipeline.Window sig grid0 :=
  Pipeline.Window.ofSpec (Memref.whole main_v20) S5000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S16x16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S16.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v21) S5000x16.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v31) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S5000x16.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S16x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S16x16.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg11) S16x16.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg12) S16.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v32) S5000x16.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v42) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v10) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v32) S5000x16.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg13) S16x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg14) S16.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg15) S16x16.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg16) S16x16.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg17) S16.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v43) S5000x16.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v43) S1000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S1000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v45) S1x1024x16.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

abbrev win4_0 : Pipeline.Window sig grid4 :=
  Pipeline.Window.ofSpec (Memref.whole main_v43) S1000x16.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v44) S1000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v50) S1024x16.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v51) S1x1024x16.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun _ => false | 3 => fun i => !(k4_cond2 i == 1#1) | ⟨_ + 4, h⟩ => absurd h (Nat.not_lt.2 (Nat.le_add_left _ _))

abbrev win5_0 : Pipeline.Window sig grid5 :=
  Pipeline.Window.ofSpec (Memref.whole main_v56) S1024x16.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_arg18) S16x16.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_arg19) S16.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg20) S16x16.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg21) S16.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_arg22) S16x1.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_arg23) S1.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v57) S1024x1.size cc5_transform_7 reads5_7 true true 1 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

class Facts : Prop extends Facts₀ where

variable [Facts]
-- ==== ReferenceIdeal.lean ====
abbrev S200000x1 : Shape := ⟨2, ![200000, 1]⟩
abbrev S2x5000000 : Shape := ⟨2, ![2, 5000000]⟩
abbrev S200000 : Shape := ⟨1, ![200000]⟩
abbrev S1x16 : Shape := ⟨2, ![1, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S1x5000000 : Shape := ⟨2, ![1, 5000000]⟩
abbrev S5000000 : Shape := ⟨1, ![5000000]⟩
abbrev S_ : Shape := ⟨0, ![]⟩
abbrev S5000000x1 : Shape := ⟨2, ![5000000, 1]⟩
abbrev S200000x16 : Shape := ⟨2, ![200000, 16]⟩
abbrev S5000000x16 : Shape := ⟨2, ![5000000, 16]⟩
abbrev S1024x16 : Shape := ⟨2, ![1024, 16]⟩
abbrev S1024x1 : Shape := ⟨2, ![1024, 1]⟩
abbrev S1x1 : Shape := ⟨2, ![1, 1]⟩

abbrev nBuf : Space → Nat
  | .hbm => 182
  | .vmem => 0
  | .smem => 0
  | _ => 0

abbrev hbmTy0_0 (i : Nat) : BufTy := match i % 128 with
  | 0 => ⟨S200000x1, .f32⟩
  | 1 => ⟨S2x5000000, .i32⟩
  | 2 => ⟨S200000, .i32⟩
  | 3 => ⟨S1x16, .f32⟩
  | 4 => ⟨S16, .f32⟩
  | 5 => ⟨S1x16, .f32⟩
  | 6 => ⟨S16x16, .f32⟩
  | 7 => ⟨S16, .f32⟩
  | 8 => ⟨S16x16, .f32⟩
  | 9 => ⟨S16, .f32⟩
  | 10 => ⟨S16x16, .f32⟩
  | 11 => ⟨S16x16, .f32⟩
  | 12 => ⟨S16, .f32⟩
  | 13 => ⟨S16x16, .f32⟩
  | 14 => ⟨S16, .f32⟩
  | 15 => ⟨S16x16, .f32⟩
  | 16 => ⟨S16x16, .f32⟩
  | 17 => ⟨S16, .f32⟩
  | 18 => ⟨S16x16, .f32⟩
  | 19 => ⟨S16, .f32⟩
  | 20 => ⟨S16x16, .f32⟩
  | 21 => ⟨S16, .f32⟩
  | 22 => ⟨S16x1, .f32⟩
  | 23 => ⟨S1, .f32⟩
  | 24 => ⟨S1x5000000, .i32⟩
  | 25 => ⟨S5000000, .i32⟩
  | 26 => ⟨S1x5000000, .i32⟩
  | 27 => ⟨S5000000, .i32⟩
  | 28 => ⟨S_, .i32⟩
  | 29 => ⟨S5000000, .i32⟩
  | 30 => ⟨S5000000, .i1⟩
  | 31 => ⟨S_, .i32⟩
  | 32 => ⟨S5000000, .i32⟩
  | 33 => ⟨S5000000, .i32⟩
  | 34 => ⟨S5000000, .i32⟩
  | 35 => ⟨S5000000x1, .i32⟩
  | 36 => ⟨S5000000x1, .f32⟩
  | 37 => ⟨S_, .f32⟩
  | 38 => ⟨S200000x1, .f32⟩
  | 39 => ⟨S5000000x1, .i32⟩
  | 40 => ⟨S200000x1, .f32⟩
  | 41 => ⟨S_, .f32⟩
  | 42 => ⟨S5000000, .f32⟩
  | 43 => ⟨S_, .f32⟩
  | 44 => ⟨S200000, .f32⟩
  | 45 => ⟨S5000000x1, .i32⟩
  | 46 => ⟨S200000, .f32⟩
  | 47 => ⟨S_, .f32⟩
  | 48 => ⟨S200000, .f32⟩
  | 49 => ⟨S200000, .f32⟩
  | 50 => ⟨S200000x1, .f32⟩
  | 51 => ⟨S200000x1, .f32⟩
  | 52 => ⟨S200000x16, .f32⟩
  | 53 => ⟨S1x16, .f32⟩
  | 54 => ⟨S200000x16, .f32⟩
  | 55 => ⟨S200000x16, .f32⟩
  | 56 => ⟨S200000x16, .f32⟩
  | 57 => ⟨S200000x16, .f32⟩
  | 58 => ⟨S_, .f32⟩
  | 59 => ⟨S200000x16, .f32⟩
  | 60 => ⟨S200000x16, .f32⟩
  | 61 => ⟨S200000x16, .f32⟩
  | 62 => ⟨S1x16, .f32⟩
  | 63 => ⟨S200000x16, .f32⟩
  | 64 => ⟨S200000x16, .f32⟩
  | 65 => ⟨S_, .i32⟩
  | 66 => ⟨S5000000, .i32⟩
  | 67 => ⟨S5000000, .i1⟩
  | 68 => ⟨S_, .i32⟩
  | 69 => ⟨S5000000, .i32⟩
  | 70 => ⟨S5000000, .i32⟩
  | 71 => ⟨S5000000, .i32⟩
  | 72 => ⟨S5000000x1, .i32⟩
  | 73 => ⟨S5000000x16, .f32⟩
  | 74 => ⟨S_, .f32⟩
  | 75 => ⟨S200000x16, .f32⟩
  | 76 => ⟨S5000000x1, .i32⟩
  | 77 => ⟨S200000x16, .f32⟩
  | 78 => ⟨S_, .f32⟩
  | 79 => ⟨S5000000, .f32⟩
  | 80 => ⟨S_, .f32⟩
  | 81 => ⟨S200000, .f32⟩
  | 82 => ⟨S5000000x1, .i32⟩
  | 83 => ⟨S200000, .f32⟩
  | 84 => ⟨S_, .f32⟩
  | 85 => ⟨S200000, .f32⟩
  | 86 => ⟨S200000, .f32⟩
  | 87 => ⟨S200000x1, .f32⟩
  | 88 => ⟨S200000x16, .f32⟩
  | 89 => ⟨S200000x16, .f32⟩
  | 90 => ⟨S200000x16, .f32⟩
  | 91 => ⟨S1x16, .f32⟩
  | 92 => ⟨S200000x16, .f32⟩
  | 93 => ⟨S200000x16, .f32⟩
  | 94 => ⟨S200000x16, .f32⟩
  | 95 => ⟨S200000x16, .f32⟩
  | 96 => ⟨S_, .f32⟩
  | 97 => ⟨S200000x16, .f32⟩
  | 98 => ⟨S200000x16, .f32⟩
  | 99 => ⟨S200000x16, .f32⟩
  | 100 => ⟨S1x16, .f32⟩
  | 101 => ⟨S200000x16, .f32⟩
  | 102 => ⟨S200000x16, .f32⟩
  | 103 => ⟨S_, .i32⟩
  | 104 => ⟨S5000000, .i32⟩
  | 105 => ⟨S5000000, .i1⟩
  | 106 => ⟨S_, .i32⟩
  | 107 => ⟨S5000000, .i32⟩
  | 108 => ⟨S5000000, .i32⟩
  | 109 => ⟨S5000000, .i32⟩
  | 110 => ⟨S5000000x1, .i32⟩
  | 111 => ⟨S5000000x16, .f32⟩
  | 112 => ⟨S_, .f32⟩
  | 113 => ⟨S200000x16, .f32⟩
  | 114 => ⟨S5000000x1, .i32⟩
  | 115 => ⟨S200000x16, .f32⟩
  | 116 => ⟨S_, .f32⟩
  | 117 => ⟨S5000000, .f32⟩
  | 118 => ⟨S_, .f32⟩
  | 119 => ⟨S200000, .f32⟩
  | 120 => ⟨S5000000x1, .i32⟩
  | 121 => ⟨S200000, .f32⟩
  | 122 => ⟨S_, .f32⟩
  | 123 => ⟨S200000, .f32⟩
  | 124 => ⟨S200000, .f32⟩
  | 125 => ⟨S200000x1, .f32⟩
  | 126 => ⟨S200000x16, .f32⟩
  | 127 => ⟨S200000x16, .f32⟩
  | _ => ⟨S200000x1, .f32⟩

abbrev hbmTy0_1 (i : Nat) : BufTy := match i % 128 with
  | 0 => ⟨S200000x16, .f32⟩
  | 1 => ⟨S1x16, .f32⟩
  | 2 => ⟨S200000x16, .f32⟩
  | 3 => ⟨S200000x16, .f32⟩
  | 4 => ⟨S200000x16, .f32⟩
  | 5 => ⟨S200000x16, .f32⟩
  | 6 => ⟨S_, .f32⟩
  | 7 => ⟨S200000x16, .f32⟩
  | 8 => ⟨S200000x16, .f32⟩
  | 9 => ⟨S200000x16, .f32⟩
  | 10 => ⟨S1x16, .f32⟩
  | 11 => ⟨S200000x16, .f32⟩
  | 12 => ⟨S200000x16, .f32⟩
  | 13 => ⟨S_, .f32⟩
  | 14 => ⟨S200000x16, .f32⟩
  | 15 => ⟨S200000x16, .f32⟩
  | 16 => ⟨S200000x16, .f32⟩
  | 17 => ⟨S_, .f32⟩
  | 18 => ⟨S1024x16, .f32⟩
  | 19 => ⟨S200000x1, .i32⟩
  | 20 => ⟨S1024x16, .f32⟩
  | 21 => ⟨S_, .i32⟩
  | 22 => ⟨S200000, .i32⟩
  | 23 => ⟨S200000, .i1⟩
  | 24 => ⟨S_, .i32⟩
  | 25 => ⟨S200000, .i32⟩
  | 26 => ⟨S200000, .i32⟩
  | 27 => ⟨S200000, .i32⟩
  | 28 => ⟨S200000x1, .i32⟩
  | 29 => ⟨S200000x16, .f32⟩
  | 30 => ⟨S200000x16, .f32⟩
  | 31 => ⟨S200000x16, .f32⟩
  | 32 => ⟨S_, .f32⟩
  | 33 => ⟨S1024x16, .f32⟩
  | 34 => ⟨S200000x1, .i32⟩
  | 35 => ⟨S1024x16, .f32⟩
  | 36 => ⟨S1024x16, .f32⟩
  | 37 => ⟨S1x16, .f32⟩
  | 38 => ⟨S1024x16, .f32⟩
  | 39 => ⟨S1024x16, .f32⟩
  | 40 => ⟨S_, .f32⟩
  | 41 => ⟨S1024x16, .f32⟩
  | 42 => ⟨S1024x16, .f32⟩
  | 43 => ⟨S1024x16, .f32⟩
  | 44 => ⟨S1x16, .f32⟩
  | 45 => ⟨S1024x16, .f32⟩
  | 46 => ⟨S1024x16, .f32⟩
  | 47 => ⟨S_, .f32⟩
  | 48 => ⟨S1024x16, .f32⟩
  | 49 => ⟨S1024x16, .f32⟩
  | 50 => ⟨S1024x1, .f32⟩
  | 51 => ⟨S1x1, .f32⟩
  | 52 => ⟨S1024x1, .f32⟩
  | 53 => ⟨S1024x1, .f32⟩
  | _ => ⟨S200000x1, .f32⟩

abbrev hbmTy (i : Nat) : BufTy := match i / 128 with
  | 0 => hbmTy0_0 i
  | 1 => hbmTy0_1 i
  | _ => ⟨S200000x1, .f32⟩

abbrev bufTy : (tb : Table) → Fin (tcTables nBuf tb) → BufTy
  | .hbm, ⟨i, _⟩ => hbmTy i
  | _, _ => ⟨S200000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_c : Ref sig .tc := ⟨.hbm, 28, rfl⟩
abbrev main_v4 : Ref sig .tc := ⟨.hbm, 29, rfl⟩
abbrev main_v5 : Ref sig .tc := ⟨.hbm, 30, rfl⟩
abbrev main_c_0 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_cst : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_cst_1 : Ref sig .tc := ⟨.hbm, 41, rfl⟩
abbrev main_v14 : Ref sig .tc := ⟨.hbm, 42, rfl⟩
abbrev main_cst_2 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_cst_3 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_call0_cst : Ref sig .tc := ⟨.hbm, 58, rfl⟩
abbrev main_call0_v0 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_c_4 : Ref sig .tc := ⟨.hbm, 65, rfl⟩
abbrev main_v33 : Ref sig .tc := ⟨.hbm, 66, rfl⟩
abbrev main_v34 : Ref sig .tc := ⟨.hbm, 67, rfl⟩
abbrev main_c_5 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_cst_6 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_cst_7 : Ref sig .tc := ⟨.hbm, 78, rfl⟩
abbrev main_v43 : Ref sig .tc := ⟨.hbm, 79, rfl⟩
abbrev main_cst_8 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_cst_9 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_call1_cst : Ref sig .tc := ⟨.hbm, 96, rfl⟩
abbrev main_call1_v0 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_c_10 : Ref sig .tc := ⟨.hbm, 103, rfl⟩
abbrev main_v63 : Ref sig .tc := ⟨.hbm, 104, rfl⟩
abbrev main_v64 : Ref sig .tc := ⟨.hbm, 105, rfl⟩
abbrev main_c_11 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_cst_12 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_cst_13 : Ref sig .tc := ⟨.hbm, 116, rfl⟩
abbrev main_v73 : Ref sig .tc := ⟨.hbm, 117, rfl⟩
abbrev main_cst_14 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_cst_15 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_call2_cst : Ref sig .tc := ⟨.hbm, 134, rfl⟩
abbrev main_call2_v0 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_cst_16 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_cst_17 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_c_18 : Ref sig .tc := ⟨.hbm, 149, rfl⟩
abbrev main_v99 : Ref sig .tc := ⟨.hbm, 150, rfl⟩
abbrev main_v100 : Ref sig .tc := ⟨.hbm, 151, rfl⟩
abbrev main_c_19 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_cst_20 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_call3_cst : Ref sig .tc := ⟨.hbm, 168, rfl⟩
abbrev main_call3_v0 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_call4_cst : Ref sig .tc := ⟨.hbm, 175, rfl⟩
abbrev main_call4_v0 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩

abbrev nD : Nat := 1
abbrev τ : Topo := Topo.v7x

variable {F : FTy → Type} [FloatOps F]

class Facts₀ : Prop where
  slices_S2x5000000_S1x5000000_0_0 : S2x5000000.Slices ![0, 0] S1x5000000
  shapeCasts_S1x5000000_S5000000 : S1x5000000.ShapeCasts S5000000
  slices_S2x5000000_S1x5000000_1_0 : S2x5000000.Slices ![1, 0] S1x5000000
  bcast_S_S5000000 : S_.BroadcastsInDim S5000000 (![] : Fin 0 → Fin S5000000.rank)
  bcast_S5000000_S5000000x1_0 : S5000000.BroadcastsInDim S5000000x1 (![0] : Fin 1 → Fin S5000000x1.rank)
  bcast_S_S200000x1 : S_.BroadcastsInDim S200000x1 (![] : Fin 0 → Fin S200000x1.rank)
  bcast_S_S200000 : S_.BroadcastsInDim S200000 (![] : Fin 0 → Fin S200000.rank)
  bcast_S200000_S200000x1_0 : S200000.BroadcastsInDim S200000x1 (![0] : Fin 1 → Fin S200000x1.rank)
  bcast_S16_S1x16_1 : S16.BroadcastsInDim S1x16 (![1] : Fin 1 → Fin S1x16.rank)
  bcast_S1x16_S200000x16_0_1 : S1x16.BroadcastsInDim S200000x16 (![0, 1] : Fin 2 → Fin S200000x16.rank)
  bcast_S_S200000x16 : S_.BroadcastsInDim S200000x16 (![] : Fin 0 → Fin S200000x16.rank)
  bcast_S200000x1_S200000x16_0_1 : S200000x1.BroadcastsInDim S200000x16 (![0, 1] : Fin 2 → Fin S200000x16.rank)
  bcast_S_S1024x16 : S_.BroadcastsInDim S1024x16 (![] : Fin 0 → Fin S1024x16.rank)
  bcast_S1x16_S1024x16_0_1 : S1x16.BroadcastsInDim S1024x16 (![0, 1] : Fin 2 → Fin S1024x16.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  gather_S200000x1_S5000000x1_S5000000x1_1_0_n_n_0_1_11_wf : GatherDims.WF S200000x1 S5000000x1 S5000000x1 [1] [0] [] [0] [] 1 ![1, 1]
  scatter_S200000x1_S5000000x1_S5000000x1_1_0_0_1_wf : ScatterDims.WF S200000x1 S5000000x1 S5000000x1 [1] [0] [0] 1
  scatter_S200000_S5000000x1_S5000000_n_0_0_1_wf : ScatterDims.WF S200000 S5000000x1 S5000000 [] [0] [0] 1
  dot_S200000x1_S1x16_S200000x16_1_0_0_1_n_n_wf : DotDims.WF S200000x1 S1x16 S200000x16 [1] [0] [0] [1] [] []
  dot_S200000x16_S16x16_S200000x16_1_0_0_1_n_n_wf : DotDims.WF S200000x16 S16x16 S200000x16 [1] [0] [0] [1] [] []
  gather_S200000x16_S5000000x1_S5000000x16_1_0_n_n_0_1_116_wf : GatherDims.WF S200000x16 S5000000x1 S5000000x16 [1] [0] [] [0] [] 1 ![1, 16]
  scatter_S200000x16_S5000000x1_S5000000x16_1_0_0_1_wf : ScatterDims.WF S200000x16 S5000000x1 S5000000x16 [1] [0] [0] 1
  scatter_S1024x16_S200000x1_S200000x16_1_0_0_1_wf : ScatterDims.WF S1024x16 S200000x1 S200000x16 [1] [0] [0] 1
  gather_S1024x16_S200000x1_S200000x16_1_0_n_n_0_1_116_wf : GatherDims.WF S1024x16 S200000x1 S200000x16 [1] [0] [] [0] [] 1 ![1, 16]
  dot_S1024x16_S16x16_S1024x16_1_0_0_1_n_n_wf : DotDims.WF S1024x16 S16x16 S1024x16 [1] [0] [0] [1] [] []
  dot_S1024x16_S16x1_S1024x1_1_0_0_1_n_n_wf : DotDims.WF S1024x16 S16x1 S1024x1 [1] [0] [0] [1] [] []

variable [Facts₀]

def gather_S200000x1_S5000000x1_S5000000x1_1_0_n_n_0_1_11 : GatherDims S200000x1 S5000000x1 S5000000x1 where
  offsetDims := [1]
  collapsedSliceDims := [0]
  operandBatchingDims := []
  startIndicesBatchingDims := []
  startIndexMap := [0]
  indexVectorDim := 1
  sliceSizes := ![1, 1]
  wf := gather_S200000x1_S5000000x1_S5000000x1_1_0_n_n_0_1_11_wf
def scatter_S200000x1_S5000000x1_S5000000x1_1_0_0_1 : ScatterDims S200000x1 S5000000x1 S5000000x1 where
  updateWindowDims := [1]
  insertedWindowDims := [0]
  scatterDimsToOperandDims := [0]
  indexVectorDim := 1
  wf := scatter_S200000x1_S5000000x1_S5000000x1_1_0_0_1_wf
def scatter_S200000_S5000000x1_S5000000_n_0_0_1 : ScatterDims S200000 S5000000x1 S5000000 where
  updateWindowDims := []
  insertedWindowDims := [0]
  scatterDimsToOperandDims := [0]
  indexVectorDim := 1
  wf := scatter_S200000_S5000000x1_S5000000_n_0_0_1_wf
def dot_S200000x1_S1x16_S200000x16_1_0_0_1_n_n : DotDims S200000x1 S1x16 S200000x16 where
  lhsContracting := [1]
  rhsContracting := [0]
  lhsNonContracting := [0]
  rhsNonContracting := [1]
  lhsBatch := []
  rhsBatch := []
  wf := dot_S200000x1_S1x16_S200000x16_1_0_0_1_n_n_wf
def dot_S200000x16_S16x16_S200000x16_1_0_0_1_n_n : DotDims S200000x16 S16x16 S200000x16 where
  lhsContracting := [1]
  rhsContracting := [0]
  lhsNonContracting := [0]
  rhsNonContracting := [1]
  lhsBatch := []
  rhsBatch := []
  wf := dot_S200000x16_S16x16_S200000x16_1_0_0_1_n_n_wf
def gather_S200000x16_S5000000x1_S5000000x16_1_0_n_n_0_1_116 : GatherDims S200000x16 S5000000x1 S5000000x16 where
  offsetDims := [1]
  collapsedSliceDims := [0]
  operandBatchingDims := []
  startIndicesBatchingDims := []
  startIndexMap := [0]
  indexVectorDim := 1
  sliceSizes := ![1, 16]
  wf := gather_S200000x16_S5000000x1_S5000000x16_1_0_n_n_0_1_116_wf
def scatter_S200000x16_S5000000x1_S5000000x16_1_0_0_1 : ScatterDims S200000x16 S5000000x1 S5000000x16 where
  updateWindowDims := [1]
  insertedWindowDims := [0]
  scatterDimsToOperandDims := [0]
  indexVectorDim := 1
  wf := scatter_S200000x16_S5000000x1_S5000000x16_1_0_0_1_wf
def scatter_S1024x16_S200000x1_S200000x16_1_0_0_1 : ScatterDims S1024x16 S200000x1 S200000x16 where
  updateWindowDims := [1]
  insertedWindowDims := [0]
  scatterDimsToOperandDims := [0]
  indexVectorDim := 1
  wf := scatter_S1024x16_S200000x1_S200000x16_1_0_0_1_wf
def gather_S1024x16_S200000x1_S200000x16_1_0_n_n_0_1_116 : GatherDims S1024x16 S200000x1 S200000x16 where
  offsetDims := [1]
  collapsedSliceDims := [0]
  operandBatchingDims := []
  startIndicesBatchingDims := []
  startIndexMap := [0]
  indexVectorDim := 1
  sliceSizes := ![1, 16]
  wf := gather_S1024x16_S200000x1_S200000x16_1_0_n_n_0_1_116_wf
def dot_S1024x16_S16x16_S1024x16_1_0_0_1_n_n : DotDims S1024x16 S16x16 S1024x16 where
  lhsContracting := [1]
  rhsContracting := [0]
  lhsNonContracting := [0]
  rhsNonContracting := [1]
  lhsBatch := []
  rhsBatch := []
  wf := dot_S1024x16_S16x16_S1024x16_1_0_0_1_n_n_wf
def dot_S1024x16_S16x1_S1024x1_1_0_0_1_n_n : DotDims S1024x16 S16x1 S1024x1 where
  lhsContracting := [1]
  rhsContracting := [0]
  lhsNonContracting := [0]
  rhsNonContracting := [1]
  lhsBatch := []
  rhsBatch := []
  wf := dot_S1024x16_S16x1_S1024x1_1_0_0_1_n_n_wf

class Facts : Prop extends Facts₀ where

variable [Facts]
-- ==== Proof.Kernel.HostWrites.lean ====
import proofs.«430393_j3504693313561_3_alg».proof.Proof.Kernel.Launch

noncomputable section

namespace Cert.Kernel.Gen

open Idealize.ShloMosaic Idealize.ShloMosaic.TcCoe

variable {F : FTy → Type} [FloatOps F]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem hostOps4_fresh : (hostOps4 : List (HloOp τ sig (Elt F))).Forall fun op => op.fresh = ∅ := by
  simp only [List.Forall]; repeat' constructor
theorem hostOps5_fresh : (hostOps5 : List (HloOp τ sig (Elt F))).Forall fun op => op.fresh = ∅ := by
  simp only [List.Forall]; repeat' constructor

abbrev hostOps0_W : List (Ref sig .tc) := [main_v0, main_v1, main_v2, main_v3, main_cst, main_v4, main_cst_0, main_v5, main_v6, main_v7, main_cst_1, main_v8, main_v9, main_v10, main_c, main_v11, main_v12, main_c_2, main_v13, main_v14, main_v15, main_v16, main_v17, main_cst_3, main_v18, main_v19, main_v20]
abbrev hostOps1_W : List (Ref sig .tc) := [main_c_4, main_v22, main_v23, main_c_5, main_v24, main_v25, main_v26, main_v27, main_v28, main_cst_6, main_v29, main_v30, main_v31]
abbrev hostOps2_W : List (Ref sig .tc) := [main_c_7, main_v33, main_v34, main_c_8, main_v35, main_v36, main_v37, main_v38, main_v39, main_cst_9, main_v40, main_v41, main_v42]
abbrev hostOps3_W : List (Ref sig .tc) := [main_v44]
abbrev hostOps4_W : List (Ref sig .tc) := [main_v46, main_v47, main_v48, main_v49, main_v50]
abbrev hostOps5_W : List (Ref sig .tc) := [main_v52, main_v53, main_v54, main_v55, main_v56]

abbrev WritesIn (ops : List (HloOp τ sig (Elt F))) (W : List (Ref sig .tc)) : Prop :=
  ops.Forall fun op => op.writes ⊆ (W.map (Proc.devRef (τ := τ) .tc)).toFinset

-- Each operation of a stretch writes one reference, and that reference is on the stretch's list.
theorem hostOps_writes : WritesIn (F := F) hostOps0 hostOps0_W ∧ WritesIn (F := F) hostOps1 hostOps1_W ∧
    WritesIn (F := F) hostOps2 hostOps2_W ∧ WritesIn (F := F) hostOps3 hostOps3_W ∧
    WritesIn (F := F) hostOps4 hostOps4_W ∧ WritesIn (F := F) hostOps5 hostOps5_W := by
  refine ⟨?_, ?_, ?_, ?_, ?_, ?_⟩ <;>
  · simp only [WritesIn, List.Forall]
    repeat' apply And.intro
    all_goals
      simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
      exact List.mem_map_of_mem (by decide)

end Cert.Kernel.Gen

end
-- ==== Proof.Kernel.R0.lean ====
import proofs.«430393_j3504693313561_3_alg».proof.Proof.Kernel.Launch
import proofs.«430393_j3504693313561_3_alg».proof.Proof.Gen.Kernel.Skeleton
import proofs.«430393_j3504693313561_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S5000x1 := Rect.unit (s := S5000x1) ![0, 0] S5000x1.size inb_S5000x1_S5000x1_0_0
abbrev r0_1 : Rect S1x16 := Rect.unit (s := S1x16) ![0, 0] S1x16.size inb_S1x16_S1x16_0_0
abbrev r0_2 : Rect S16 := Rect.unit (s := S16) ![0] S16.size inb_S16_S16_0
abbrev r0_3 : Rect S16x16 := Rect.unit (s := S16x16) ![0, 0] S16x16.size inb_S16x16_S16x16_0_0
abbrev r0_4 : Rect S5000x16 := Rect.unit (s := S5000x16) ![0, 0] S5000x16.size inb_S5000x16_S5000x16_0_0

noncomputable def out0_8 (x0 : Vec F S5000x1 .f32) (x1 : Vec F S5000x1 .f32) (x2 : Vec F S5000x1 .f32) (x3 : Vec F S1x16 .f32)
    (x4 : Vec F S16 .f32) (x5 : Vec F S1x16 .f32) (x6 : Vec F S16x16 .f32) (x7 : Vec F S16 .f32) : Vec F S5000x16 .f32 :=
  View.canon [⟨r0_4, k0_pay1 (View.ld x0 r0_0) (View.ld x1 r0_0) (View.ld x2 r0_0) (View.ld x3 r0_1) (View.ld x5 r0_1)
    (View.ld x4 r0_2) (View.ld x6 r0_3) (View.ld x7 r0_2)⟩]

theorem sound_kernel0 (c : Dev nD) (E : Set ℕ) (i : grid0.Coords) (arg0 : Memref sig .tc .vmem S5000x1 .f32) (harg0 : arg0.IsWhole) (arg1 : Memref sig .tc .vmem S5000x1 .f32) (harg1 : arg1.IsWhole) (arg2 : Memref sig .tc .vmem S5000x1 .f32) (harg2 : arg2.IsWhole) (arg3 : Memref sig .tc .vmem S1x16 .f32) (harg3 : arg3.IsWhole) (arg4 : Memref sig .tc .vmem S16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S16 .f32) (harg7 : arg7.IsWhole) (arg8 : Memref sig .tc .vmem S5000x16 .f32) (harg8 : arg8.IsWhole)
    (x0 : Vec F S5000x1 .f32) (x1 : Vec F S5000x1 .f32) (x2 : Vec F S5000x1 .f32) (x3 : Vec F S1x16 .f32) (x4 : Vec F S16 .f32) (x5 : Vec F S1x16 .f32) (x6 : Vec F S16x16 .f32) (x7 : Vec F S16 .f32) (K : PUnit → sProp 𝕄) :
    iprop(owns c arg0 fullShare x0 ∗ owns c arg1 fullShare x1 ∗ owns c arg2 fullShare x2 ∗ owns c arg3 fullShare x3 ∗ owns c arg4 fullShare x4 ∗ owns c arg5 fullShare x5 ∗ owns c arg6 fullShare x6 ∗ owns c arg7 fullShare x7 ∗ (∃ d, owns c arg8 fullShare d)
        ∗ (iprop(owns c arg0 fullShare x0 ∗ owns c arg1 fullShare x1 ∗ owns c arg2 fullShare x2 ∗ owns c arg3 fullShare x3 ∗ owns c arg4 fullShare x4 ∗ owns c arg5 fullShare x5 ∗ owns c arg6 fullShare x6 ∗ owns c arg7 fullShare x7 ∗ owns c arg8 fullShare (out0_8 x0 x1 x2 x3 x4 x5 x6 x7)) -∗ K ⟨⟩))
      ⊢ wp frame (wpE (defs₀ (F := F)) Variants.none c none) E (cc0_kernel i arg0 harg0 arg1 harg1 arg2 harg2 arg3 harg3 arg4 harg4 arg5 harg5 arg6 harg6 arg7 harg7 arg8 harg8) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]; · iexists _; iframe; ipureintro; rfl
  isplitl [H1]; · iexists _; iframe; ipureintro; rfl
  isplitl [H2]; · iexists _; iframe; ipureintro; rfl
  isplitl [H3]; · iexists _; iframe; ipureintro; rfl
  isplitl [H4]; · iexists _; iframe; ipureintro; rfl
  isplitl [H5]; · iexists _; iframe; ipureintro; rfl
  isplitl [H6]; · iexists _; iframe; ipureintro; rfl
  isplitl [H7]; · iexists _; iframe; ipureintro; rfl
  iexists _; iframe; ipureintro
  exact View.read_writes_eq_canon _ _ _ (View.cover_of_tiled _ S5000x16.size (by rfl))

noncomputable def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => out0_8 (iblk0 V c 0 t) (iblk0 V c 1 t) (iblk0 V c 2 t) (iblk0 V c 3 t) (iblk0 V c 4 t) (iblk0 V c 5 t) (iblk0 V c 6 t) (iblk0 V c 7 t)
  Φ _ := Pipeline.ΦA spec0 c
  q _ := fullShare
  owed _ := 0

theorem A_eq0 (c : Dev nD) (w : Fin cfg0.W) : (dat0 V c).A w = V c (Pipeline.arrRef spec0 w) := rfl

theorem q_eq0 (c : Dev nD) (w : Fin cfg0.W) : (dat0 V c).q w = fullShare := rfl

theorem owed_eq0 (c : Dev nD) (t : Fin (cfg0.N + 1)) : (dat0 V c).owed t = 0 := rfl

theorem after0_8 (c : Dev nD) (t : Fin cfg0.N) : (dat0 V c).after 8 t = out0_8 (iblk0 V c 0 t) (iblk0 V c 1 t) (iblk0 V c 2 t) (iblk0 V c 3 t) (iblk0 V c 4 t) (iblk0 V c 5 t) (iblk0 V c 6 t) (iblk0 V c 7 t) := by dsimp only [dat0]

theorem hin0 (c : Dev nD) : Pipeline.ΦA spec0 c ⊢ (dat0 V c).Φ 0 := BI.Entails.refl _

theorem hout0 (c : Dev nD) : (dat0 V c).Φ (Fin.last cfg0.N) ⊢ Pipeline.ΦA spec0 c := BI.Entails.refl _

-- The body writes to no input window.
theorem before0_in (c : Dev nD) (w : Fin 9) (hw : w ≠ 8) (t : Fin cfg0.N) (d) :
    (dat0 V c).before w t d = (dat0 V c).after w t := by
  fin_cases w <;> first
    | exact absurd rfl hw
    | exact ((dat0 V c).before_in_eq_fetched _ rfl (fun _ => rfl) (fun _ _ _ => rfl) (fun _ => rfl) t d).trans rfl

-- The body's triple, with the rest of the state framed around it.
theorem body_obligation0 (c : Dev nD) : BodyObligation (dat0 (F := F) V c) (defs₀ (F := F)) Variants.none () Set.univ := fun t => by
  rw [bigSep_W0, bigSep_W0]
  change _ ⊢ wp _ _ _ (bodyAt0 t) _
  unfold bodyAt0
  refine BIClass.entails_trans ?_ (sound_kernel0 c Set.univ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) _)
  simp (disch := decide) only [before0_in, show ∀ w i, cfg0.idle w i = false from fun _ _ => rfl,
    show (dat0 V c).owesAt () t.succ = (dat0 V c).owesAt () t.castSucc from rfl]
  dsimp only [dat0]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iframe H0 H1 H2 H3 H4 H5 H6 H7
  isplitl [H8]; · iexists _; iexact H8
  iintro ⟨H0, H1, H2, H3, H4, H5, H6, H7, H8⟩
  iframe

theorem recorded_eq0 (c : Dev nD) (t : Fin (cfg0.N + 1)) : (dat0 V c).recorded t = Set.univ := rfl

end Cert.Kernel.Gen
end
-- ==== Proof.Kernel.R1.lean ====
import proofs.«430393_j3504693313561_3_alg».proof.Proof.Kernel.Launch
import proofs.«430393_j3504693313561_3_alg».proof.Proof.Gen.Kernel.Skeleton
import proofs.«430393_j3504693313561_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.TableIdle
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S5000x16 := Rect.unit (s := S5000x16) ![0, 0] S5000x16.size inb_S5000x16_S5000x16_0_0
abbrev r1_1 : Rect S5000x1 := Rect.unit (s := S5000x1) ![0, 0] S5000x1.size inb_S5000x1_S5000x1_0_0
abbrev r1_2 : Rect S16x16 := Rect.unit (s := S16x16) ![0, 0] S16x16.size inb_S16x16_S16x16_0_0
abbrev r1_3 : Rect S16 := Rect.unit (s := S16) ![0] S16.size inb_S16_S16_0

noncomputable def out1_8 (x0 : Vec F S5000x16 .f32) (x1 : Vec F S5000x1 .f32) (x2 : Vec F S5000x16 .f32) (x3 : Vec F S16x16 .f32)
    (x4 : Vec F S16 .f32) (x5 : Vec F S16x16 .f32) (x6 : Vec F S16x16 .f32) (x7 : Vec F S16 .f32) : Vec F S5000x16 .f32 :=
  View.canon [⟨r1_0, k1_pay1 (View.ld x0 r1_0) (View.ld x1 r1_1) (View.ld x2 r1_0) (View.ld x3 r1_2) (View.ld x5 r1_2) (View.ld x4 r1_3) (View.ld x6 r1_2) (View.ld x7 r1_3)⟩]

theorem cover1_8 (p0 : Vec F S5000x16 .f32) (y : S5000x16.Idx) :
    ∃ pc ∈ ([⟨r1_0, p0⟩] : List (View.Piece (Elt F) S5000x16 .f32)), y ∈ pc.1.set :=
  View.cover_of_tiled [⟨r1_0, p0⟩] S5000x16.size (by rfl) y

set_option maxHeartbeats 1000000 in
-- Eight whole-buffer loads leave the inputs as they were; the one whole-buffer store covers the output.
theorem sound_kernel1 (c : Dev nD) (E : Set ℕ) (i : grid1.Coords)
    {a0 a2 a8 : Memref sig .tc .vmem S5000x16 .f32} {a1 : Memref sig .tc .vmem S5000x1 .f32}
    {a3 a5 a6 : Memref sig .tc .vmem S16x16 .f32} {a4 a7 : Memref sig .tc .vmem S16 .f32}
    (h0 : a0.IsWhole) (h1 : a1.IsWhole) (h2 : a2.IsWhole) (h3 : a3.IsWhole) (h4 : a4.IsWhole) (h5 : a5.IsWhole)
    (h6 : a6.IsWhole) (h7 : a7.IsWhole) (h8 : a8.IsWhole)
    (x0 x2 : Vec F S5000x16 .f32) (x1 : Vec F S5000x1 .f32) (x3 x5 x6 : Vec F S16x16 .f32) (x4 x7 : Vec F S16 .f32) (K : PUnit → sProp (MT nD τ sig Unit (Elt F) ℕ (UR sig nD τ) ℕ)) :
    iprop(owns c a0 fullShare x0 ∗ owns c a1 fullShare x1 ∗ owns c a2 fullShare x2 ∗ owns c a3 fullShare x3 ∗ owns c a4 fullShare x4 ∗ owns c a5 fullShare x5 ∗ owns c a6 fullShare x6 ∗ owns c a7 fullShare x7 ∗ (∃ d, owns c a8 fullShare d)
        ∗ (iprop(owns c a0 fullShare x0 ∗ owns c a1 fullShare x1 ∗ owns c a2 fullShare x2 ∗ owns c a3 fullShare x3 ∗ owns c a4 fullShare x4 ∗ owns c a5 fullShare x5 ∗ owns c a6 fullShare x6 ∗ owns c a7 fullShare x7 ∗ owns c a8 fullShare (out1_8 x0 x1 x2 x3 x4 x5 x6 x7)) -∗ K ⟨⟩))
      ⊢ wp frame (wpE (defs₀ (F := F)) Variants.none c none) E (cc1_kernel i a0 h0 a1 h1 a2 h2 a3 h3 a4 h4 a5 h5 a6 h6 a7 h7 a8 h8) K := by
  rw [cc1_kernel_eq_skeleton]; unfold cc1_kernel_skel
  iterate 8 rw [owns_eq_rep]
  unfold owns
  iintro ⟨H0, H1, H2, H3, H4, H5, H6, H7, ⟨%d, %f, -, H8⟩, Hk⟩
  sl_exec
  sl_step
  iapply Hk
  iframe H0 H1 H2 H3 H4 H5 H6 H7
  iexists _; iframe H8
  ipureintro
  simp only [View.readAt_eq_ld, View.read_rep]
  exact View.read_writes_eq_canon _ _ _ (cover1_8 _)

noncomputable def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t) (iblk1 V c 5 t) (iblk1 V c 6 t) (iblk1 V c 7 t)
  Φ _ := Pipeline.ΦA spec1 c
  q _ := fullShare
  owed _ := 0

theorem A_eq1 (c : Dev nD) (w : Fin cfg1.W) : (dat1 V c).A w = V c (Pipeline.arrRef spec1 w) := rfl

theorem q_eq1 (c : Dev nD) (w : Fin cfg1.W) : (dat1 V c).q w = fullShare := rfl

theorem owed_eq1 (c : Dev nD) (t : Fin (cfg1.N + 1)) : (dat1 V c).owed t = 0 := rfl

theorem hin1 (c : Dev nD) : Pipeline.ΦA spec1 c ⊢ (dat1 V c).Φ 0 := BI.Entails.refl _

theorem hout1 (c : Dev nD) : (dat1 V c).Φ (Fin.last cfg1.N) ⊢ Pipeline.ΦA spec1 c := BI.Entails.refl _

theorem after1_8 (c : Dev nD) (t : Fin cfg1.N) :
    (dat1 V c).after 8 t = out1_8 (iblk1 V c 0 t) (iblk1 V c 1 t) (iblk1 V c 2 t) (iblk1 V c 3 t) (iblk1 V c 4 t) (iblk1 V c 5 t) (iblk1 V c 6 t) (iblk1 V c 7 t) := by dsimp only [dat1]

-- An input window the body does not write holds its block at every point.
theorem before1 (c : Dev nD) (t : Fin cfg1.N) :
    (∀ d, (dat1 V c).before 0 t d = iblk1 V c 0 t) ∧ (∀ d, (dat1 V c).before 1 t d = iblk1 V c 1 t) ∧
    (∀ d, (dat1 V c).before 2 t d = iblk1 V c 2 t) ∧ (∀ d, (dat1 V c).before 3 t d = iblk1 V c 3 t) ∧
    (∀ d, (dat1 V c).before 4 t d = iblk1 V c 4 t) ∧ (∀ d, (dat1 V c).before 5 t d = iblk1 V c 5 t) ∧
    (∀ d, (dat1 V c).before 6 t d = iblk1 V c 6 t) ∧ ∀ d, (dat1 V c).before 7 t d = iblk1 V c 7 t := by
  refine ⟨?_, ?_, ?_, ?_, ?_, ?_, ?_, ?_⟩ <;>
    exact (dat1 V c).before_in_eq_fetched _ rfl (fun _ => rfl) (fun _ _ _ => rfl) (fun _ => rfl) t

-- The inputs hold their blocks, so the kernel's triple applies; the rest of the state passes through unread.
theorem body_obligation1 (c : Dev nD) : BodyObligation (dat1 (F := F) V c) (defs₀ (F := F)) Variants.none () Set.univ := fun t => by
  rw [bigSep_W1, bigSep_W1]
  simp only [before1 V c t]
  dsimp only [dat1, Dat.owesAt, Dat.bound]
  iintro ⟨HΦ, Ho, ⟨%_, H0⟩, ⟨%_, H1⟩, ⟨%_, H2⟩, ⟨%_, H3⟩, ⟨%_, H4⟩, ⟨%_, H5⟩, ⟨%_, H6⟩, ⟨%_, H7⟩, ⟨%_, H8⟩⟩
  iapply sound_kernel1 c Set.univ (grid1.coords t) (hstage1_0 _) (hstage1_1 _) (hstage1_2 _) (hstage1_3 _) (hstage1_4 _) (hstage1_5 _) (hstage1_6 _) (hstage1_7 _) (hstage1_8 _) (iblk1 V c 0 t) (iblk1 V c 2 t) (iblk1 V c 1 t) (iblk1 V c 3 t) (iblk1 V c 5 t) (iblk1 V c 6 t) (iblk1 V c 4 t) (iblk1 V c 7 t)
  iframe H0 H1 H2 H3 H4 H5 H6 H7
  isplitl [H8]; · iexists _; iexact H8
  iintro H
  iframe

theorem recorded_eq1 (c : Dev nD) (t : Fin (cfg1.N + 1)) : (dat1 V c).recorded t = Set.univ := rfl

end Cert.Kernel.Gen
end
-- ==== Proof.Kernel.R2.lean ====
import proofs.«430393_j3504693313561_3_alg».proof.Proof.Kernel.R1

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

noncomputable def out2_8 (x0 : Vec F S5000x16 .f32) (x1 : Vec F S5000x1 .f32) (x2 : Vec F S5000x16 .f32) (x3 : Vec F S16x16 .f32)
    (x4 : Vec F S16 .f32) (x5 : Vec F S16x16 .f32) (x6 : Vec F S16x16 .f32) (x7 : Vec F S16 .f32) : Vec F S5000x16 .f32 :=
  View.canon [⟨r1_0, k2_pay1 (View.ld x0 r1_0) (View.ld x1 r1_1) (View.ld x2 r1_0) (View.ld x3 r1_2) (View.ld x5 r1_2) (View.ld x4 r1_3) (View.ld x6 r1_2) (View.ld x7 r1_3)⟩]

-- Both regions store the same payload.
theorem out2_8_eq : out2_8 (F := F) = out1_8 := rfl

noncomputable def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out2_8 (iblk2 V c 0 t) (iblk2 V c 1 t) (iblk2 V c 2 t) (iblk2 V c 3 t) (iblk2 V c 4 t) (iblk2 V c 5 t) (iblk2 V c 6 t) (iblk2 V c 7 t)
  Φ _ := Pipeline.ΦA spec2 c
  q _ := fullShare
  owed _ := 0

theorem A_eq2 (c : Dev nD) (w : Fin cfg2.W) : (dat2 V c).A w = V c (Pipeline.arrRef spec2 w) := rfl

theorem q_eq2 (c : Dev nD) (w : Fin cfg2.W) : (dat2 V c).q w = fullShare := rfl

theorem owed_eq2 (c : Dev nD) (t : Fin (cfg2.N + 1)) : (dat2 V c).owed t = 0 := rfl

theorem hin2 (c : Dev nD) : Pipeline.ΦA spec2 c ⊢ (dat2 V c).Φ 0 := BI.Entails.refl _

theorem hout2 (c : Dev nD) : (dat2 V c).Φ (Fin.last cfg2.N) ⊢ Pipeline.ΦA spec2 c := BI.Entails.refl _

theorem after2_8 (c : Dev nD) (t : Fin cfg2.N) :
    (dat2 V c).after 8 t = out2_8 (iblk2 V c 0 t) (iblk2 V c 1 t) (iblk2 V c 2 t) (iblk2 V c 3 t) (iblk2 V c 4 t) (iblk2 V c 5 t) (iblk2 V c 6 t) (iblk2 V c 7 t) := by dsimp only [dat2]

-- An input window the body does not write holds its block at every point.
theorem before2 (c : Dev nD) (t : Fin cfg2.N) :
    (∀ d, (dat2 V c).before 0 t d = iblk2 V c 0 t) ∧ (∀ d, (dat2 V c).before 1 t d = iblk2 V c 1 t) ∧
    (∀ d, (dat2 V c).before 2 t d = iblk2 V c 2 t) ∧ (∀ d, (dat2 V c).before 3 t d = iblk2 V c 3 t) ∧
    (∀ d, (dat2 V c).before 4 t d = iblk2 V c 4 t) ∧ (∀ d, (dat2 V c).before 5 t d = iblk2 V c 5 t) ∧
    (∀ d, (dat2 V c).before 6 t d = iblk2 V c 6 t) ∧ ∀ d, (dat2 V c).before 7 t d = iblk2 V c 7 t := by
  refine ⟨?_, ?_, ?_, ?_, ?_, ?_, ?_, ?_⟩ <;>
    exact (dat2 V c).before_in_eq_fetched _ rfl (fun _ => rfl) (fun _ _ _ => rfl) (fun _ => rfl) t

-- Region 2 runs region 1's kernel on its own windows, so region 1's triple applies.
theorem body_obligation2 (c : Dev nD) : BodyObligation (dat2 (F := F) V c) (defs₀ (F := F)) Variants.none () Set.univ := fun t => by
  rw [bigSep_W2, bigSep_W2]
  simp only [before2 V c t]
  dsimp only [dat2, Dat.owesAt, Dat.bound]
  rw [out2_8_eq]
  iintro ⟨HΦ, Ho, ⟨%_, H0⟩, ⟨%_, H1⟩, ⟨%_, H2⟩, ⟨%_, H3⟩, ⟨%_, H4⟩, ⟨%_, H5⟩, ⟨%_, H6⟩, ⟨%_, H7⟩, ⟨%_, H8⟩⟩
  iapply sound_kernel1 c Set.univ (grid2.coords t) (hstage2_0 _) (hstage2_1 _) (hstage2_2 _) (hstage2_3 _) (hstage2_4 _) (hstage2_5 _) (hstage2_6 _) (hstage2_7 _) (hstage2_8 _) (iblk2 V c 0 t) (iblk2 V c 2 t) (iblk2 V c 1 t) (iblk2 V c 3 t) (iblk2 V c 5 t) (iblk2 V c 6 t) (iblk2 V c 4 t) (iblk2 V c 7 t)
  iframe H0 H1 H2 H3 H4 H5 H6 H7
  isplitl [H8]; · iexists _; iexact H8
  iintro H
  iframe

theorem recorded_eq2 (c : Dev nD) (t : Fin (cfg2.N + 1)) : (dat2 V c).recorded t = Set.univ := rfl

end Cert.Kernel.Gen
end
-- ==== Proof.Kernel.R3.lean ====
import proofs.«430393_j3504693313561_3_alg».proof.Proof.Kernel.Launch
import proofs.«430393_j3504693313561_3_alg».proof.Proof.Gen.Kernel.Skeleton
import proofs.«430393_j3504693313561_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 100 = 0 := by decide +kernel

abbrev cond3_1 (i : grid3.Coords) : Prop := k3_cond2 i = 1#1
theorem hcond3_1 : ∀ t : Fin cfg3.N, cond3_1 (grid3.coords t) ↔ t.val % 100 = 99 := by decide +kernel

theorem idleAt3_2 : ∀ t : Fin cfg3.N, ¬t.val % 100 = 99 → cfg3.idle 2 (grid3.coords t) = true ∧ (cfg3.win 2).flush t = false := by decide +kernel
theorem liveAt3_2 : ∀ t : Fin cfg3.N, t.val % 100 = 99 → cfg3.idle 2 (grid3.coords t) = false := by decide +kernel

abbrev ms3_0 (t : Fin cfg3.N) : Memref sig .tc .vmem S1000x16 .f32 := win3_0.stage (cfg3.slots t 0)
abbrev ms3_1 (t : Fin cfg3.N) : Memref sig .tc .vmem S1000x1 .i32 := win3_1.stage (cfg3.slots t 1)
abbrev ms3_2 (t : Fin cfg3.N) : Memref sig .tc .vmem S1x1024x16 .f32 := win3_2.stage (cfg3.slots t 2)
abbrev scM3 : Memref sig .tc .vmem S1024x16 .f32 := Memref.whole cc3_scratch0
abbrev rest3 (c : Dev nD) : sProp 𝕄 :=
  Pipeline.scopedRestBut (Ix := Unit) (Name := ℕ) (U := UR sig nD τ) (Lvl := ℕ) (Val := Elt F) spec3 c [cc3_scratch0]

theorem PhiA3_eq (c : Dev nD) :
    (Pipeline.ΦA spec3 c : sProp 𝕄)
      = iprop(iprop(iprop((∃ d, owns (c : Thread nD τ) scM3 fullShare d)) ∗ rest3 (F := F) c) ∗ (∃ r, prngReg c r)) := by
  unfold Pipeline.ΦA; rw [scopedRest3_split]; simp only [scM3, owns_whole]; try rfl

abbrev r3_0 : Rect S1000x16 := Rect.unit (s := S1000x16) ![0, 0] S1000x16.size inb_S1000x16_S1000x16_0_0
abbrev r3_1 : Rect S1000x1 := Rect.unit (s := S1000x1) ![0, 0] S1000x1.size inb_S1000x1_S1000x1_0_0
abbrev r3_2 : Rect S1x1024x16 := Rect.unit (s := S1x1024x16) ![0, 0, 0] S1x1024x16.size inb_S1x1024x16_S1x1024x16_0_0_0
abbrev r3_S : Rect S1024x16 := Rect.unit (s := S1024x16) ![0, 0] S1024x16.size inb_S1024x16_S1024x16_0_0

theorem hz3_S : (![0, 0] : Fin S1024x16.rank → Nat) = fun _ => 0 := funext fun a => by fin_cases a <;> rfl
theorem hz3_2 : (![0, 0, 0] : Fin S1x1024x16.rank → Nat) = fun _ => 0 := funext fun a => by fin_cases a <;> rfl

noncomputable def szero3 : Vec F S1024x16 .f32 :=
  View.canon [⟨r3_S, k3_pay1 (F := F)⟩]

noncomputable def sacc3 (x0 : Vec F S1000x16 .f32) (x1 : Vec F S1000x1 .i32) (xs : Vec F S1024x16 .f32) : Vec F S1024x16 .f32 :=
  View.canon [⟨r3_S, k3_pay2 (View.ld x0 r3_0) (View.ld x1 r3_1) (View.ld xs r3_S)⟩]

noncomputable def out3_2 (xs : Vec F S1024x16 .f32) : Vec F S1x1024x16 .f32 :=
  View.canon [⟨r3_2, k3_pay3 (View.ld xs r3_S)⟩]

noncomputable def idle3_2 : Vec F S1x1024x16 .f32 := View.canon []

-- a store through a whole buffer, made last, covers it
theorem cover3_S (p : r3_S.shape.Idx → Elt F .f32) (L : List (View.Piece (Elt F) S1024x16 .f32)) (y : S1024x16.Idx) :
    ∃ pc ∈ ((⟨r3_S, p⟩ : View.Piece (Elt F) S1024x16 .f32) :: L), y ∈ pc.1.set :=
  ⟨_, List.mem_cons_self .., View.mem_set_unit_zero hz3_S inb_S1024x16_S1024x16_0_0 y⟩
theorem cover3_2 (p : r3_2.shape.Idx → Elt F .f32) (L : List (View.Piece (Elt F) S1x1024x16 .f32)) (y : S1x1024x16.Idx) :
    ∃ pc ∈ ((⟨r3_2, p⟩ : View.Piece (Elt F) S1x1024x16 .f32) :: L), y ∈ pc.1.set :=
  ⟨_, List.mem_cons_self .., View.mem_set_unit_zero hz3_2 inb_S1x1024x16_S1x1024x16_0_0_0 y⟩

theorem canon_top3_S (p : r3_S.shape.Idx → Elt F .f32) (L : List (View.Piece (Elt F) S1024x16 .f32)) :
    View.canon ((⟨r3_S, p⟩ : View.Piece (Elt F) S1024x16 .f32) :: L) = View.canon [(⟨r3_S, p⟩ : View.Piece (Elt F) S1024x16 .f32)] :=
  (View.canon_cons_unit_zero hz3_S _ p L).trans (View.canon_unit_zero hz3_S _ p).symm

-- on whole buffers the body resets the scratch where `p0`, accumulates into it, and stores it to the output where `p1`
theorem sound_kernel3 (c : Dev nD) (i : grid3.Coords) (arg2 : Memref sig .tc .vmem S1000x16 .f32) (harg2 : arg2.IsWhole) (arg3 : Memref sig .tc .vmem S1000x1 .i32) (harg3 : arg3.IsWhole) (arg4 : Memref sig .tc .vmem S1x1024x16 .f32) (harg4 : arg4.IsWhole) (arg5 : Memref sig .tc .vmem S1024x16 .f32) (harg5 : arg5.IsWhole)
    {p0 p1 : Prop} [Decidable p0] [Decidable p1] (h0 : cond3_0 i ↔ p0) (h1 : cond3_1 i ↔ p1) (h01 : p0 → ¬p1)
    (x0 : Vec F S1000x16 .f32) (x1 : Vec F S1000x1 .i32) (x2 : Vec F S1x1024x16 .f32) (xs : Vec F S1024x16 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xs
        ∗ (iprop(owns (c : Thread nD τ) arg2 fullShare x0 ∗ owns (c : Thread nD τ) arg3 fullShare x1
            ∗ owns (c : Thread nD τ) arg4 fullShare (if p1 then out3_2 (sacc3 x0 x1 xs) else x2)
            ∗ owns (c : Thread nD τ) arg5 fullShare (sacc3 x0 x1 (if p0 then szero3 else xs))) -∗ K ⟨⟩))
      ⊢ wp frame (wpE (defs₀ (F := F)) Variants.none c none) E (cc3_kernel i arg2 harg2 arg3 harg3 arg4 harg4 arg5 harg5) K := by
  simp only [cc3_kernel_eq_skeleton]; unfold cc3_kernel_skel owns
  iintro ⟨⟨%f0, %hf0, H0⟩, ⟨%f1, %hf1, H1⟩, ⟨%f2, %hf2, H2⟩, ⟨%fs, %hfs, HS⟩, Hk⟩
  subst hf0 hf1 hf2 hfs
  by_cases hp0 : p0 <;> by_cases hp1 : p1
  · exact absurd hp1 (h01 hp0)
  all_goals
    first | rw [if_pos hp0] | rw [if_neg hp0]
    first | rw [if_pos hp1] | rw [if_neg hp1]
    sl_exec (disch := first | exact h0.mpr hp0 | exact mt h0.mp hp0 | exact h1.mpr hp1 | exact mt h1.mp hp1)
    sl_step
    iapply Hk
    isplitl [H0]
    · iexists f0; isplitr; · ipureintro; rfl
      iexact H0
    isplitl [H1]
    · iexists f1; isplitr; · ipureintro; rfl
      iexact H1
    isplitl [H2]
    · iexists _; isplitr
      swap; · iexact H2
      ipureintro
      first
      | (sl_unfold_run_names
         rw [View.readCov_eq_canon_ld _ _ _ (cover3_S _ _)]
         exact View.read_writes_eq_canon _ _ _ (cover3_2 _ _))
      | rfl
    iexists _; isplitr
    swap; · iexact HS
    ipureintro
    first
    | (sl_unfold_run_names
       rw [View.readCov_eq_canon_ld _ _ _ (cover3_S _ _), View.read_writes_eq_canon _ _ _ (cover3_S _ _), canon_top3_S]
       rfl)
    | exact View.read_writes_eq_canon _ _ _ (cover3_S _ _)

noncomputable def outsAt3 (c : Dev nD) : (n : ℕ) → n < cfg3.N → Vec F S1x1024x16 .f32 × Vec F S1024x16 .f32
  | 0, hn => (idle3_2, sacc3 (iblk3 V c 0 ⟨0, hn⟩) (iblk3 V c 1 ⟨0, hn⟩) szero3)
  | n + 1, hn =>
    if (n + 1) % 100 = 0 then
      (idle3_2, sacc3 (iblk3 V c 0 ⟨n + 1, hn⟩) (iblk3 V c 1 ⟨n + 1, hn⟩) szero3)
    else if (n + 1) % 100 = 99 then
      (out3_2 (sacc3 (iblk3 V c 0 ⟨n + 1, hn⟩) (iblk3 V c 1 ⟨n + 1, hn⟩) (outsAt3 c n (Nat.lt_of_succ_lt hn)).2),
        sacc3 (iblk3 V c 0 ⟨n + 1, hn⟩) (iblk3 V c 1 ⟨n + 1, hn⟩) (outsAt3 c n (Nat.lt_of_succ_lt hn)).2)
    else
      (idle3_2, sacc3 (iblk3 V c 0 ⟨n + 1, hn⟩) (iblk3 V c 1 ⟨n + 1, hn⟩) (outsAt3 c n (Nat.lt_of_succ_lt hn)).2)

theorem outsAt3_A (c : Dev nD) (t : Fin cfg3.N) (h0 : t.val % 100 = 0) :
    outsAt3 V c t.val t.isLt = (idle3_2, sacc3 (iblk3 V c 0 t) (iblk3 V c 1 t) szero3) := by
  obtain ⟨n, hn⟩ := t
  cases n with
  | zero => rfl
  | succ n => exact (if_pos h0).trans rfl

theorem outsAt3_B (c : Dev nD) (t : Fin cfg3.N) (h0 : ¬t.val % 100 = 0) (h1 : ¬t.val % 100 = 99) :
    outsAt3 V c t.val t.isLt = (idle3_2, sacc3 (iblk3 V c 0 t) (iblk3 V c 1 t) (outsAt3 V c (t.val - 1) (Nat.lt_of_le_of_lt (Nat.sub_le _ _) t.isLt)).2) := by
  obtain ⟨n, hn⟩ := t
  cases n with
  | zero => exact absurd (Nat.zero_mod _) h0
  | succ n => exact (if_neg h0).trans ((if_neg h1).trans rfl)

theorem outsAt3_C (c : Dev nD) (t : Fin cfg3.N) (h1 : t.val % 100 = 99) :
    outsAt3 V c t.val t.isLt
      = (out3_2 (sacc3 (iblk3 V c 0 t) (iblk3 V c 1 t) (outsAt3 V c (t.val - 1) (Nat.lt_of_le_of_lt (Nat.sub_le _ _) t.isLt)).2),
          sacc3 (iblk3 V c 0 t) (iblk3 V c 1 t) (outsAt3 V c (t.val - 1) (Nat.lt_of_le_of_lt (Nat.sub_le _ _) t.isLt)).2) := by
  obtain ⟨n, hn⟩ := t
  cases n with
  | zero => exact absurd (show (0 : ℕ) % 100 = 99 from h1) (by decide)
  | succ n => exact (if_neg (by have : (n + 1) % 100 = 99 := h1; omega)).trans ((if_pos h1).trans rfl)

-- the three cases as one equation, over the scratch `xs` the point finds
theorem outsAt3_step (c : Dev nD) (t : Fin cfg3.N) (xs : Vec F S1024x16 .f32)
    (hxs : ∀ hz : t.val ≠ 0, xs = (outsAt3 V c (t.val - 1) (by omega)).2) :
    outsAt3 V c t.val t.isLt
      = (if t.val % 100 = 99 then out3_2 (sacc3 (iblk3 V c 0 t) (iblk3 V c 1 t) xs) else idle3_2,
          sacc3 (iblk3 V c 0 t) (iblk3 V c 1 t) (if t.val % 100 = 0 then szero3 else xs)) := by
  by_cases h0 : t.val % 100 = 0
  · rw [outsAt3_A V c t h0, if_pos h0, if_neg (by omega)]
  · obtain rfl := hxs (fun h => h0 (by rw [h]))
    by_cases h1 : t.val % 100 = 99
    · rw [outsAt3_C V c t h1, if_neg h0, if_pos h1]
    · rw [outsAt3_B V c t h0 h1, if_neg h0, if_neg h1]

noncomputable def PhiS3 (c : Dev nD) : (n : ℕ) → n ≤ cfg3.N → sProp 𝕄
  | 0, _ => Pipeline.ΦA spec3 c
  | n + 1, hn => iprop(iprop(owns (c : Thread nD τ) scM3 fullShare ((outsAt3 V c n hn).2) ∗ rest3 (F := F) c) ∗ (∃ r, prngReg c r))

-- before any point the scratch is held at some contents: what the point before left, where there is one
theorem PhiS3_open (c : Dev nD) (n : ℕ) (h : n ≤ cfg3.N) :
    PhiS3 V c n h ⊢ iprop(∃ xs, ⌜∀ hz : n ≠ 0, xs = (outsAt3 V c (n - 1) (by omega)).2⌝
      ∗ iprop(owns (c : Thread nD τ) scM3 fullShare xs ∗ rest3 (F := F) c) ∗ (∃ r, prngReg c r)) := by
  rcases n with _ | n <;> unfold PhiS3
  · rw [PhiA3_eq]
    iintro ⟨⟨⟨%d, HS⟩, HR⟩, Hg⟩
    iexists d; isplitr; · ipureintro; exact fun hz => absurd rfl hz
    iframe
  · iintro ⟨⟨HS, HR⟩, Hg⟩
    iexists (outsAt3 V c n h).2; isplitr; · ipureintro; exact fun _ => rfl
    iframe

noncomputable def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := rfl
theorem q_eq3 (c : Dev nD) (w : Fin cfg3.W) : (dat3 V c).q w = fullShare := rfl
theorem owed_eq3 (c : Dev nD) (t : Fin (cfg3.N + 1)) : (dat3 V c).owed t = 0 := rfl
theorem after3_2 (c : Dev nD) (t : Fin cfg3.N) : (dat3 V c).after 2 t = (outsAt3 V c t.val t.isLt).1 := rfl

theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d

-- the invariant lends the scratch and takes it back at the point's contents; the rest passes through unread
theorem sound_body3 (c : Dev nD) (t : Fin cfg3.N) :
    iprop(PhiS3 V c t.val (Nat.le_of_lt t.isLt) ∗ (dat3 V c).owesAt () t.castSucc
      ∗ (∃ d, owns (c : Thread nD τ) (ms3_0 t) fullShare ((dat3 V c).before 0 t d))
      ∗ (∃ d, owns (c : Thread nD τ) (ms3_1 t) fullShare ((dat3 V c).before 1 t d))
      ∗ (∃ d, owns (c : Thread nD τ) (ms3_2 t) fullShare ((dat3 V c).before 2 t d)))
    ⊢ wp frame (wpE (defs₀ (F := F)) Variants.none c none) Set.univ (bodyAt3 t) (fun _ =>
      iprop(iprop(iprop(owns (c : Thread nD τ) scM3 fullShare (outsAt3 V c t.val t.isLt).2 ∗ rest3 (F := F) c) ∗ (∃ r, prngReg c r))
        ∗ (dat3 V c).owesAt () t.castSucc
        ∗ owns (c : Thread nD τ) (ms3_0 t) fullShare (iblk3 V c 0 t)
        ∗ owns (c : Thread nD τ) (ms3_1 t) fullShare (iblk3 V c 1 t)
        ∗ (dat3 V c).leavesExact 2 t)) := by
  unfold bodyAt3
  simp only [before3_0, before3_1]
  iintro ⟨HΦ, Ho, ⟨%d0, H0⟩, ⟨%d1, H1⟩, ⟨%d2, H2⟩⟩
  ihave HX := (PhiS3_open V c _ _) $$ HΦ
  icases HX with ⟨%xs, %hxs, ⟨HS, HR⟩, Hg⟩
  rw [outsAt3_step V c t xs hxs]
  iapply (sound_kernel3 c (grid3.coords t) _ _ _ _ _ _ _ _ (hcond3_0 t) (hcond3_1 t) (fun h h' => by omega) _ _ ((dat3 V c).before 2 t d2) xs Set.univ _)
  iframe H0 H1 H2 HS
  iintro ⟨H0, H1, H2, HS⟩
  iframe HS HR Hg Ho H0 H1
  by_cases h1 : t.val % 100 = 99
  · rw [show (dat3 V c).leavesExact 2 t = owns (c : Thread nD τ) (ms3_2 t) fullShare ((dat3 V c).after 2 t) from by
      unfold Dat.leavesExact; rw [liveAt3_2 t h1], after3_2, outsAt3_step V c t xs hxs]
    simp only [if_pos h1]; iexact H2
  · rw [Dat.leavesExact_idle _ 2 t (idleAt3_2 t h1).1 (idleAt3_2 t h1).2, if_neg h1]; iexists d2; iexact H2

theorem body_obligation3 (c : Dev nD) : BodyObligation (dat3 (F := F) V c) (defs₀ (F := F)) Variants.none () Set.univ := fun t => by
  rw [bigSep_W3, bigSep_W3]
  exact sound_body3 V c t

theorem recorded_eq3 (c : Dev nD) (t : Fin (cfg3.N + 1)) : (dat3 V c).recorded t = Set.univ := rfl

theorem hin3 (c : Dev nD) : Pipeline.ΦA spec3 c ⊢ (dat3 V c).Φ 0 := Idealize.SL.BI.Entails.refl _

theorem hout3 (c : Dev nD) : (dat3 V c).Φ (Fin.last cfg3.N) ⊢ Pipeline.ΦA spec3 c := by
  refine (PhiS3_open V c _ (Nat.le_of_lt_succ (Fin.last cfg3.N).isLt)).trans ?_
  rw [PhiA3_eq]
  iintro ⟨%xs, -, ⟨HS, HR⟩, Hg⟩
  iframe HR Hg; iexists xs; iexact HS

end Cert.Kernel.Gen

end
-- ==== Proof.Kernel.R4.lean ====
import proofs.«430393_j3504693313561_3_alg».proof.Proof.Kernel.Launch
import proofs.«430393_j3504693313561_3_alg».proof.Proof.Gen.Kernel.Skeleton
import proofs.«430393_j3504693313561_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))
abbrev cond4_0 (i : grid4.Coords) : Prop := (Scalar.cmpi .ne (Scalar.extui (Scalar.cmpi .eq (BitVec.ofNat 32 (i 1).val) 0#32)) 0#32) = 1#1
theorem hcond4_0 : ∀ t : Fin cfg4.N, cond4_0 (grid4.coords t) ↔ t.val % 100 = 0 :=
  (by decide +kernel : ∀ t : Fin grid4.N, cond4_0 (grid4.coords t) ↔ t.val % 100 = 0)

abbrev cond4_1 (i : grid4.Coords) : Prop := k4_cond2 i = 1#1
-- no point is both the first and the last of its run of 100
theorem nocc4 : ∀ t : Fin cfg4.N, cond4_0 (grid4.coords t) → ¬cond4_1 (grid4.coords t) :=
  (by decide +kernel : ∀ t : Fin grid4.N, cond4_0 (grid4.coords t) → ¬cond4_1 (grid4.coords t))

theorem liveAt4_0 : ∀ t : Fin cfg4.N, cfg4.idle 0 (grid4.coords t) = false := fun _ => rfl
theorem liveAt4_1 : ∀ t : Fin cfg4.N, cfg4.idle 1 (grid4.coords t) = false := fun _ => rfl
theorem liveAt4_2 : ∀ t : Fin cfg4.N, cfg4.idle 2 (grid4.coords t) = false := fun _ => rfl
theorem idleAt4_3 : ∀ t : Fin cfg4.N, ¬cond4_1 (grid4.coords t) → cfg4.idle 3 (grid4.coords t) = true := by decide +kernel
theorem noFlush4_3 : ∀ t : Fin cfg4.N, ¬cond4_1 (grid4.coords t) → (cfg4.win 3).flush t = false := by decide +kernel
theorem liveAt4_3 : ∀ t : Fin cfg4.N, cond4_1 (grid4.coords t) → cfg4.idle 3 (grid4.coords t) = false := by decide +kernel

abbrev ms4_0 (t : Fin cfg4.N) : Memref sig .tc .vmem S1000x16 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1000x1 .i32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1024x16 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x1024x16 .f32 := win4_3.stage (cfg4.slots t 3)
abbrev hs4_3 (t : Fin cfg4.N) : (ms4_3 t).IsWhole := hstage4_3 ((cfg4.slots t 3).cast nbuf4_3)
abbrev scM4_0 : Memref sig .tc .vmem S1024x16 .f32 := Memref.whole cc4_scratch0

theorem PhiA4_eq (c : Dev nD) :
    (Pipeline.ΦA spec4 c : sProp 𝕄)
      = iprop(iprop(iprop((∃ d, owns (c : Thread nD τ) scM4_0 fullShare d))
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4_0, owns_whole]; try rfl

theorem zeros4_2 : (![0, 0] : Fin 2 → Nat) = fun _ => 0 := funext fun a => by fin_cases a <;> rfl
theorem zeros4_3 : (![0, 0, 0] : Fin 3 → Nat) = fun _ => 0 := funext fun a => by fin_cases a <;> rfl

-- a write over the whole shape, applied last, determines what is read back
theorem read_whole_store {κ : Kind} {sp : Space} {S : Shape} {e : EltTy} (v : View sig κ sp S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f (⟨Rect.unit off S.size inb, w⟩ :: L)) = w :=
  (View.read_writes_eq_canon v f _ fun y => ⟨_, List.mem_cons_self, (View.mem_set_unit_zero h inb y)⟩).trans (View.canon_cons_unit_zero h inb w L)

set_option maxHeartbeats 1000000 in
-- the body on whole memrefs: the scratch is reset where the first condition holds, updated by the inputs, and copied out where the second holds
theorem kernelRun4 (c : Dev nD) (i : grid4.Coords) (arg2 : Memref sig .tc .vmem S1000x16 .f32) (harg2 : arg2.IsWhole) (arg3 : Memref sig .tc .vmem S1000x1 .i32) (harg3 : arg3.IsWhole) (arg4 : Memref sig .tc .vmem S1024x16 .f32) (harg4 : arg4.IsWhole) (arg5 : Memref sig .tc .vmem S1x1024x16 .f32) (harg5 : arg5.IsWhole) (arg6 : Memref sig .tc .vmem S1024x16 .f32) (harg6 : arg6.IsWhole)
    (hcc : cond4_0 i → ¬cond4_1 i) (x0 : Vec F S1000x16 .f32) (x1 : Vec F S1000x1 .i32) (x2 : Vec F S1024x16 .f32) (xs : Vec F S1024x16 .f32) (x3 : Vec F S1x1024x16 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (if cond4_1 i then k4_pay3 (k4_pay2 x0 x1 x2 (if cond4_0 i then k4_pay1 else xs)) else x3)
            ∗ owns (c : Thread nD τ) arg6 fullShare (k4_pay2 x0 x1 x2 (if cond4_0 i then k4_pay1 else xs))) -∗ K ⟨⟩))
      ⊢ wp frame (wpE (defs₀ (F := F)) Variants.none c none) E (cc4_kernel i arg2 harg2 arg3 harg3 arg4 harg4 arg5 harg5 arg6 harg6) K := by
  by_cases hc0 : cond4_0 i <;> by_cases hc1 : cond4_1 i
  · exact absurd hc1 (hcc hc0)
  all_goals first | rw [if_pos hc0] | rw [if_neg hc0]
  all_goals first | rw [if_pos hc1] | rw [if_neg hc1]
  all_goals
    simp only [cc4_kernel_eq_skeleton]; unfold cc4_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    on_goal 1 => (iexists _; isplitr; swap; iexact H3; ipureintro)
    on_goal 2 => (iexists _; isplitr; swap; iexact HS; ipureintro)
    all_goals first
      | (sl_unfold_words; first | rw [read_whole_store (S := S1x1024x16) _ _ zeros4_3] | rw [read_whole_store (S := S1024x16) _ _ zeros4_2]
         simp only [View.readCov_unit_zero (S := S1024x16) _ zeros4_2, View.readAt_eq_ld, harg2.read_unread, harg3.read_unread, harg4.read_unread, harg6.read_unread,
        View.ld_unit_zero (S := S1000x16) zeros4_2, View.ld_unit_zero (S := S1000x1) zeros4_2, View.ld_unit_zero (S := S1024x16) zeros4_2])
      | exact harg5.read_unread _

noncomputable def acc4 (c : Dev nD) : (n : ℕ) → n < cfg4.N → Vec F S1024x16 .f32
  | 0, hn => k4_pay2 (iblk4 V c 0 ⟨0, hn⟩) (iblk4 V c 1 ⟨0, hn⟩) (iblk4 V c 2 ⟨0, hn⟩) (k4_pay1 (F := F))
  | n + 1, hn => k4_pay2 (iblk4 V c 0 ⟨n + 1, hn⟩) (iblk4 V c 1 ⟨n + 1, hn⟩) (iblk4 V c 2 ⟨n + 1, hn⟩)
      (if (n + 1) % 100 = 0 then (k4_pay1 (F := F)) else acc4 c n (Nat.lt_of_succ_lt hn))

theorem acc4_zero (c : Dev nD) (hn : 0 < cfg4.N) :
    acc4 V c 0 hn = k4_pay2 (iblk4 V c 0 ⟨0, hn⟩) (iblk4 V c 1 ⟨0, hn⟩) (iblk4 V c 2 ⟨0, hn⟩) (k4_pay1 (F := F)) := rfl
theorem acc4_succ (c : Dev nD) (n : ℕ) (hn : n + 1 < cfg4.N) :
    acc4 V c (n + 1) hn = k4_pay2 (iblk4 V c 0 ⟨n + 1, hn⟩) (iblk4 V c 1 ⟨n + 1, hn⟩) (iblk4 V c 2 ⟨n + 1, hn⟩)
      (if (n + 1) % 100 = 0 then (k4_pay1 (F := F)) else acc4 V c n (Nat.lt_of_succ_lt hn)) := rfl

-- one update of what the point before left (anything at the first point) is the accumulator at the point
theorem acc4_step (c : Dev nD) (t : Fin cfg4.N) (xs : Vec F S1024x16 .f32) (hxs : ∀ m h, t.val = m + 1 → xs = acc4 V c m h) :
    k4_pay2 (iblk4 V c 0 t) (iblk4 V c 1 t) (iblk4 V c 2 t) (if cond4_0 (grid4.coords t) then k4_pay1 else xs) = acc4 V c t.val t.isLt := by
  obtain ⟨n, hn⟩ := t
  cases n with
  | zero => rw [if_pos ((hcond4_0 ⟨0, hn⟩).mpr (Nat.zero_mod _))]; rfl
  | succ n =>
    show _ = acc4 V c (n + 1) hn
    rw [acc4_succ]
    by_cases h0 : (n + 1) % 100 = 0
    · rw [if_pos h0, if_pos ((hcond4_0 ⟨n + 1, hn⟩).mpr h0)]
    · rw [if_neg h0, if_neg (fun h => h0 ((hcond4_0 ⟨n + 1, hn⟩).mp h)), hxs n (Nat.lt_of_succ_lt hn) rfl]

noncomputable def outsAt4 (c : Dev nD) (n : ℕ) (hn : n < cfg4.N) : Vec F S1x1024x16 .f32 × Vec F S1024x16 .f32 :=
  (k4_pay3 (acc4 V c n hn), acc4 V c n hn)

-- before position n the scratch holds the accumulator of the point before; before the first, anything
noncomputable def PhiS4 (c : Dev nD) (n : ℕ) : sProp 𝕄 :=
  iprop(iprop(iprop(∃ xs : Vec F S1024x16 .f32, ⌜∀ m h, n = m + 1 → xs = acc4 V c m h⌝ ∗ owns (c : Thread nD τ) scM4_0 fullShare xs)
      ∗ Pipeline.scopedRestBut (Ix := Unit) (Name := ℕ) (U := UR sig nD τ) (Lvl := ℕ) (Val := Elt F) spec4 c [cc4_scratch0]) ∗ (∃ r, prngReg c r))

noncomputable def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => (outsAt4 V c t.val t.isLt).1
  Φ t := PhiS4 V c t.val
  q _ := fullShare
  owed _ := 0

theorem A_eq4 (c : Dev nD) (w : Fin cfg4.W) : (dat4 V c).A w = V c (Pipeline.arrRef spec4 w) := by
  dsimp only [dat4]
theorem q_eq4 (c : Dev nD) (w : Fin cfg4.W) : (dat4 V c).q w = fullShare := by
  dsimp only [dat4]
theorem owed_eq4 (c : Dev nD) (t : Fin (cfg4.N + 1)) : (dat4 V c).owed t = 0 := by
  dsimp only [dat4]
theorem recorded_eq4 (c : Dev nD) (t : Fin (cfg4.N + 1)) : (dat4 V c).recorded t = Set.univ := rfl

theorem PhiS4_castSucc (c : Dev nD) (t : Fin cfg4.N) :
    (dat4 V c).Φ t.castSucc = PhiS4 V c t.val := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = (outsAt4 V c t.val t.isLt).1 := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl) (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl) (fun t => by rw [after4_1]; unfold Dat.blockOf iblk4; rw [A_eq4]; try rfl) t d).trans
    (by unfold Dat.fetched Dat.blockOf iblk4; rw [A_eq4]; try rfl)
theorem before4_2 (c : Dev nD) (t : Fin cfg4.N) (d) : (dat4 V c).before 2 t d = iblk4 V c 2 t :=
  ((dat4 V c).before_in_eq_fetched 2 rfl (fun _ => rfl) (fun _ _ _ => rfl) (fun t => by rw [after4_2]; unfold Dat.blockOf iblk4; rw [A_eq4]; try rfl) t d).trans
    (by unfold Dat.fetched Dat.blockOf iblk4; rw [A_eq4]; try rfl)

-- the output window after the body: its block where the second condition holds, else what it held, handed back
theorem leaves4_3 (c : Dev nD) (t : Fin cfg4.N) (d) :
    owns (c : Thread nD τ) (ms4_3 t) fullShare (if cond4_1 (grid4.coords t) then k4_pay3 (acc4 V c t.val t.isLt) else (dat4 V c).before 3 t d) ⊢ (dat4 V c).leavesExact 3 t := by
  by_cases h1 : cond4_1 (grid4.coords t)
  · rw [if_pos h1, show (dat4 V c).leavesExact 3 t = owns (c : Thread nD τ) (ms4_3 t) fullShare ((dat4 V c).after 3 t) from by
      unfold Dat.leavesExact; rw [liveAt4_3 t h1], after4_3]
    exact Idealize.SL.BI.Entails.refl _
  · rw [if_neg h1, Dat.leavesExact_idle (dat4 V c) 3 t (idleAt4_3 t h1) (noFlush4_3 t h1)]
    iintro H; iexists d; iexact H

noncomputable def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

noncomputable def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl,
    show (dat4 V c).Φ t.succ = PhiS4 V c (t.val + 1) from rfl, PhiS4_castSucc,
    show (dat4 V c).leavesExact 0 t = owns (c : Thread nD τ) (ms4_0 t) fullShare (iblk4 V c 0 t) from by unfold Dat.leavesExact; rw [liveAt4_0 t, after4_0],
    show (dat4 V c).leavesExact 1 t = owns (c : Thread nD τ) (ms4_1 t) fullShare (iblk4 V c 1 t) from by unfold Dat.leavesExact; rw [liveAt4_1 t, after4_1],
    show (dat4 V c).leavesExact 2 t = owns (c : Thread nD τ) (ms4_2 t) fullShare (iblk4 V c 2 t) from by unfold Dat.leavesExact; rw [liveAt4_2 t, after4_2]]
  unfold PhiS4
  iintro ⟨⟨⟨⟨%xs, %hxs, HS⟩, HR⟩, Hg⟩, Ho, ⟨%d0, H0⟩, ⟨%d1, H1⟩, ⟨%d2, H2⟩, ⟨%d3, H3⟩⟩
  have run := fun K => kernelRun4 c (grid4.coords t) (ms4_0 t) (hs4_0 t) (ms4_1 t) (hs4_1 t) (ms4_2 t) (hs4_2 t) (ms4_3 t) (hs4_3 t) scM4_0 (Memref.isWhole_whole _)
    (nocc4 t) (iblk4 V c 0 t) (iblk4 V c 1 t) (iblk4 V c 2 t) xs ((dat4 V c).before 3 t d3) Set.univ K
  rw [acc4_step V c t xs hxs] at run
  iapply (run _)
  isplitl [H0]; · iexact H0
  isplitl [H1]; · iexact H1
  isplitl [H2]; · iexact H2
  isplitl [H3]; · iexact H3
  isplitl [HS]; · iexact HS
  iintro ⟨H0, H1, H2, H3, HS⟩
  isplitl [HS HR Hg]
  · isplitl [HS HR]
    · isplitl [HS]
      · iexists _; isplitr; swap; · iexact HS
        ipureintro; exact fun m h e => by obtain rfl := Nat.add_right_cancel e; rfl
      iexact HR
    iexact Hg
  isplitl [Ho]; · iexact Ho
  isplitl [H0]; · iexact H0
  isplitl [H1]; · iexact H1
  isplitl [H2]; · iexact H2
  iapply (leaves4_3 V c t d3); iexact H3

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := by
  rw [show (dat4 V c).Φ 0 = PhiS4 V c 0 from rfl, PhiA4_eq]; unfold PhiS4
  iintro ⟨⟨⟨%d, HS⟩, HR⟩, Hg⟩
  isplitl [HS HR]
  · isplitl [HS]
    · iexists d; isplitr; · ipureintro; exact fun m h e => by omega
      iexact HS
    iexact HR
  iexact Hg

theorem hout4 (c : Dev nD) : (dat4 V c).Φ (Fin.last cfg4.N) ⊢ Pipeline.ΦA spec4 c := by
  rw [show (dat4 V c).Φ (Fin.last cfg4.N) = PhiS4 V c (Fin.last cfg4.N).val from rfl, PhiA4_eq]; unfold PhiS4
  iintro ⟨⟨⟨%xs, -, HS⟩, HR⟩, Hg⟩
  isplitl [HS HR]
  · isplitl [HS]
    · iexists _; iexact HS
    iexact HR
  iexact Hg

end Cert.Kernel.Gen

end
-- ==== Proof.Kernel.R5.lean ====
import proofs.«430393_j3504693313561_3_alg».proof.Proof.Kernel.Launch
import proofs.«430393_j3504693313561_3_alg».proof.Proof.Gen.Kernel.Skeleton
import proofs.«430393_j3504693313561_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 : Rect S1024x16 := Rect.unit (s := S1024x16) ![0, 0] S1024x16.size inb_S1024x16_S1024x16_0_0
abbrev r5_1 : Rect S16x16 := Rect.unit (s := S16x16) ![0, 0] S16x16.size inb_S16x16_S16x16_0_0
abbrev r5_2 : Rect S16 := Rect.unit (s := S16) ![0] S16.size inb_S16_S16_0
abbrev r5_3 : Rect S16x1 := Rect.unit (s := S16x1) ![0, 0] S16x1.size inb_S16x1_S16x1_0_0
abbrev r5_4 : Rect S1 := Rect.unit (s := S1) ![0] S1.size inb_S1_S1_0
abbrev r5_5 : Rect S1024x1 := Rect.unit (s := S1024x1) ![0, 0] S1024x1.size inb_S1024x1_S1024x1_0_0

noncomputable def out5_7 (x0 : Vec F S1024x16 .f32) (x1 : Vec F S16x16 .f32) (x2 : Vec F S16 .f32) (x3 : Vec F S16x16 .f32) (x4 : Vec F S16 .f32) (x5 : Vec F S16x1 .f32) (x6 : Vec F S1 .f32) : Vec F S1024x1 .f32 :=
  View.canon [⟨r5_5, k5_pay1 (View.ld x0 r5_0) (View.ld x1 r5_1) (View.ld x2 r5_2) (View.ld x3 r5_1) (View.ld x4 r5_2) (View.ld x5 r5_3) (View.ld x6 r5_4)⟩]

theorem sound_kernel5 (c : Dev nD) (E : Set ℕ) (i : grid5.Coords) (arg0 : Memref sig .tc .vmem S1024x16 .f32) (harg0 : arg0.IsWhole) (arg1 : Memref sig .tc .vmem S16x16 .f32) (harg1 : arg1.IsWhole) (arg2 : Memref sig .tc .vmem S16 .f32) (harg2 : arg2.IsWhole) (arg3 : Memref sig .tc .vmem S16x16 .f32) (harg3 : arg3.IsWhole) (arg4 : Memref sig .tc .vmem S16 .f32) (harg4 : arg4.IsWhole) (arg5 : Memref sig .tc .vmem S16x1 .f32) (harg5 : arg5.IsWhole) (arg6 : Memref sig .tc .vmem S1 .f32) (harg6 : arg6.IsWhole) (arg7 : Memref sig .tc .vmem S1024x1 .f32) (harg7 : arg7.IsWhole)
    (x0 : Vec F S1024x16 .f32) (x1 : Vec F S16x16 .f32) (x2 : Vec F S16 .f32) (x3 : Vec F S16x16 .f32) (x4 : Vec F S16 .f32) (x5 : Vec F S16x1 .f32) (x6 : Vec F S1 .f32) (K : PUnit → sProp 𝕄) :
    iprop(owns c arg0 fullShare x0 ∗ owns c arg1 fullShare x1 ∗ owns c arg2 fullShare x2 ∗ owns c arg3 fullShare x3 ∗ owns c arg4 fullShare x4 ∗ owns c arg5 fullShare x5 ∗ owns c arg6 fullShare x6 ∗ (∃ d, owns c arg7 fullShare d)
        ∗ (iprop(owns c arg0 fullShare x0 ∗ owns c arg1 fullShare x1 ∗ owns c arg2 fullShare x2 ∗ owns c arg3 fullShare x3 ∗ owns c arg4 fullShare x4 ∗ owns c arg5 fullShare x5 ∗ owns c arg6 fullShare x6 ∗ owns c arg7 fullShare (out5_7 x0 x1 x2 x3 x4 x5 x6)) -∗ K ⟨⟩))
      ⊢ wp frame (wpE (defs₀ (F := F)) Variants.none c none) E (cc5_kernel i arg0 harg0 arg1 harg1 arg2 harg2 arg3 harg3 arg4 harg4 arg5 harg5 arg6 harg6 arg7 harg7) K := by
  simp only [cc5_kernel_eq_skeleton]; unfold cc5_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, %hd7, H7⟩, Hk⟩
  subst hf0 hf1 hf2 hf3 hf4 hf5 hf6 hd7
  sl_exec
  sl_step
  iapply Hk
  isplitl [H0]; · iexists _; iframe; ipureintro; rfl
  isplitl [H1]; · iexists _; iframe; ipureintro; rfl
  isplitl [H2]; · iexists _; iframe; ipureintro; rfl
  isplitl [H3]; · iexists _; iframe; ipureintro; rfl
  isplitl [H4]; · iexists _; iframe; ipureintro; rfl
  isplitl [H5]; · iexists _; iframe; ipureintro; rfl
  isplitl [H6]; · iexists _; iframe; ipureintro; rfl
  iexists _; iframe; ipureintro
  exact View.read_writes_eq_canon _ _ _ (View.cover_of_tiled _ S1024x1.size (by rfl))

noncomputable def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => out5_7 (iblk5 V c 0 t) (iblk5 V c 1 t) (iblk5 V c 2 t) (iblk5 V c 3 t) (iblk5 V c 4 t) (iblk5 V c 5 t) (iblk5 V c 6 t)
  Φ _ := Pipeline.ΦA spec5 c
  q _ := fullShare
  owed _ := 0

theorem A_eq5 (c : Dev nD) (w : Fin cfg5.W) : (dat5 V c).A w = V c (Pipeline.arrRef spec5 w) := rfl

theorem q_eq5 (c : Dev nD) (w : Fin cfg5.W) : (dat5 V c).q w = fullShare := rfl

theorem owed_eq5 (c : Dev nD) (t : Fin (cfg5.N + 1)) : (dat5 V c).owed t = 0 := rfl

theorem after5_7 (c : Dev nD) (t : Fin cfg5.N) : (dat5 V c).after 7 t = out5_7 (iblk5 V c 0 t) (iblk5 V c 1 t) (iblk5 V c 2 t) (iblk5 V c 3 t) (iblk5 V c 4 t) (iblk5 V c 5 t) (iblk5 V c 6 t) := by dsimp only [dat5]

theorem hin5 (c : Dev nD) : Pipeline.ΦA spec5 c ⊢ (dat5 V c).Φ 0 := BI.Entails.refl _
theorem hout5 (c : Dev nD) : (dat5 V c).Φ (Fin.last cfg5.N) ⊢ Pipeline.ΦA spec5 c := BI.Entails.refl _

-- The body writes to no input window.
theorem before5_in (c : Dev nD) (w : Fin 8) (hw : w ≠ 7) (t : Fin cfg5.N) (d) :
    (dat5 V c).before w t d = (dat5 V c).after w t := by
  fin_cases w <;> first
    | exact absurd rfl hw
    | exact ((dat5 V c).before_in_eq_fetched _ rfl (fun _ => rfl) (fun _ _ _ => rfl) (fun _ => rfl) t d).trans rfl

-- The body's triple, with the rest of the state framed around it.
theorem body_obligation5 (c : Dev nD) : BodyObligation (dat5 (F := F) V c) (defs₀ (F := F)) Variants.none () Set.univ := fun t => by
  rw [bigSep_W5, bigSep_W5]
  change _ ⊢ wp _ _ _ (bodyAt5 t) _
  unfold bodyAt5
  refine BIClass.entails_trans ?_ (sound_kernel5 c Set.univ _ _ _ _ _ _ _ _ _ _ _ _ _ _ _ _ _ (iblk5 V c 0 t) (iblk5 V c 1 t) (iblk5 V c 2 t) (iblk5 V c 3 t) (iblk5 V c 4 t) (iblk5 V c 5 t) (iblk5 V c 6 t) _)
  simp (disch := decide) only [before5_in, show ∀ w i, cfg5.idle w i = false from fun _ _ => rfl,
    show (dat5 V c).owesAt () t.succ = (dat5 V c).owesAt () t.castSucc from rfl]
  dsimp only [dat5]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iframe H0 H1 H2 H3 H4 H5 H6
  isplitl [H7]; · iexists _; iexact H7
  iintro ⟨H0, H1, H2, H3, H4, H5, H6, H7⟩
  iframe

theorem recorded_eq5 (c : Dev nD) (t : Fin (cfg5.N + 1)) : (dat5 V c).recorded t = Set.univ := rfl

end Cert.Kernel.Gen
end
-- ==== Proof.Kernel.Run.lean ====
import proofs.«430393_j3504693313561_3_alg».proof.Proof.Kernel.Launch
import proofs.«430393_j3504693313561_3_alg».proof.Proof.Kernel.HostWrites
import proofs.«430393_j3504693313561_3_alg».proof.Proof.Kernel.R0
import proofs.«430393_j3504693313561_3_alg».proof.Proof.Kernel.R1
import proofs.«430393_j3504693313561_3_alg».proof.Proof.Kernel.R2
import proofs.«430393_j3504693313561_3_alg».proof.Proof.Kernel.R3
import proofs.«430393_j3504693313561_3_alg».proof.Proof.Kernel.R4
import proofs.«430393_j3504693313561_3_alg».proof.Proof.Kernel.R5
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev adm : (p : Fin 6) → (pcfgs (F := F) p).Adm := fun p => (cfgs p).toPCfg_adm

-- The buffers' contents at each boundary of the program, folded from the launch memory: W(2K) before region K's host
-- stretch, W(2K+1) at its entry, W(2K+2) at its exit.
abbrev W0 : Dev nD → Valuation τ sig (Elt F) := fun c b => (s₀ m ρ).mem ((c : Dev nD), b)

abbrev W1 : Dev nD → Valuation τ sig (Elt F) := fun c => StableHlo.after hostOps0 (W0 m ρ c)
abbrev VT1 : (c : Dev nD) → (b : Ref sig .tc) → Buf (Elt F) ((c : Thread nD τ).loc b) := fun c b => W1 m ρ c b
theorem W1_keep (c : Dev nD) (r : Ref sig .tc) (h : r ∉ hostOps0_W) :
    W1 m ρ c (Proc.devRef .tc r) = W0 m ρ c (Proc.devRef .tc r) :=
  StableHlo.after_of_writes_sub hostOps0 _ hostOps_writes.1 h
noncomputable def W2 (c : Dev nD) : Valuation τ sig (Elt F) :=
  Pipeline.withArrays spec0 c (W1 m ρ c) fun w => (dat0 (VT1 m ρ) c).arrAt w cfg0.N
theorem W2_arr (c : Dev nD) (w : Fin cfg0.W) :
    W2 m ρ c (Proc.devRef .tc (Pipeline.arrRef spec0 w)) = (dat0 (VT1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev VT2 : (c : Dev nD) → (b : Ref sig .tc) → Buf (Elt F) ((c : Thread nD τ).loc b) := fun c b => W2 m ρ c b
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (VT1 m ρ) c).arrAt_in w hin _).trans (A_eq0 (VT1 m ρ) c w))
theorem W2_same (c : Dev nD) (a : Ref sig .tc) (hw : a ∉ hostOps0_W)
    (g : ∀ w, Pipeline.arrRef spec0 w = a → (cfg0.win w).isOut = false) :
    W2 m ρ c (Proc.devRef .tc a) = W0 m ρ c (Proc.devRef .tc a) := by
  refine Eq.trans ?_ (W1_keep m ρ c a hw)
  by_cases h : ∃ w, Pipeline.arrRef spec0 w = a
  · obtain ⟨w, rfl⟩ := h; exact W2_in m ρ c w (g w rfl)
  · exact W2_of_ne m ρ c a fun w e => h ⟨w, e⟩

abbrev W3 : Dev nD → Valuation τ sig (Elt F) := fun c => StableHlo.after hostOps1 (W2 m ρ c)
abbrev VT3 : (c : Dev nD) → (b : Ref sig .tc) → Buf (Elt F) ((c : Thread nD τ).loc b) := fun c b => W3 m ρ c b
theorem W3_keep (c : Dev nD) (r : Ref sig .tc) (h : r ∉ hostOps1_W) :
    W3 m ρ c (Proc.devRef .tc r) = W2 m ρ c (Proc.devRef .tc r) :=
  StableHlo.after_of_writes_sub hostOps1 _ hostOps_writes.2.1 h
noncomputable def W4 (c : Dev nD) : Valuation τ sig (Elt F) :=
  Pipeline.withArrays spec1 c (W3 m ρ c) fun w => (dat1 (VT3 m ρ) c).arrAt w cfg1.N
theorem W4_arr (c : Dev nD) (w : Fin cfg1.W) :
    W4 m ρ c (Proc.devRef .tc (Pipeline.arrRef spec1 w)) = (dat1 (VT3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev VT4 : (c : Dev nD) → (b : Ref sig .tc) → Buf (Elt F) ((c : Thread nD τ).loc b) := fun c b => W4 m ρ c b
theorem W4_in (c : Dev nD) (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((dat1 (VT3 m ρ) c).arrAt_in w hin _).trans (A_eq1 (VT3 m ρ) c w))
theorem W4_same (c : Dev nD) (a : Ref sig .tc) (hw : a ∉ hostOps1_W)
    (g : ∀ w, Pipeline.arrRef spec1 w = a → (cfg1.win w).isOut = false) :
    W4 m ρ c (Proc.devRef .tc a) = W2 m ρ c (Proc.devRef .tc a) := by
  refine Eq.trans ?_ (W3_keep m ρ c a hw)
  by_cases h : ∃ w, Pipeline.arrRef spec1 w = a
  · obtain ⟨w, rfl⟩ := h; exact W4_in m ρ c w (g w rfl)
  · exact W4_of_ne m ρ c a fun w e => h ⟨w, e⟩

abbrev W5 : Dev nD → Valuation τ sig (Elt F) := fun c => StableHlo.after hostOps2 (W4 m ρ c)
abbrev VT5 : (c : Dev nD) → (b : Ref sig .tc) → Buf (Elt F) ((c : Thread nD τ).loc b) := fun c b => W5 m ρ c b
theorem W5_keep (c : Dev nD) (r : Ref sig .tc) (h : r ∉ hostOps2_W) :
    W5 m ρ c (Proc.devRef .tc r) = W4 m ρ c (Proc.devRef .tc r) :=
  StableHlo.after_of_writes_sub hostOps2 _ hostOps_writes.2.2.1 h
noncomputable def W6 (c : Dev nD) : Valuation τ sig (Elt F) :=
  Pipeline.withArrays spec2 c (W5 m ρ c) fun w => (dat2 (VT5 m ρ) c).arrAt w cfg2.N
theorem W6_arr (c : Dev nD) (w : Fin cfg2.W) :
    W6 m ρ c (Proc.devRef .tc (Pipeline.arrRef spec2 w)) = (dat2 (VT5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev VT6 : (c : Dev nD) → (b : Ref sig .tc) → Buf (Elt F) ((c : Thread nD τ).loc b) := fun c b => W6 m ρ c b
theorem W6_in (c : Dev nD) (w : Fin cfg2.W) (hin : (cfg2.win w).isOut = false) :
    W6 m ρ c (Proc.devRef .tc (Pipeline.arrRef spec2 w)) = W5 m ρ c (Proc.devRef .tc (Pipeline.arrRef spec2 w)) :=
  (W6_arr m ρ c w).trans (((dat2 (VT5 m ρ) c).arrAt_in w hin _).trans (A_eq2 (VT5 m ρ) c w))
theorem W6_same (c : Dev nD) (a : Ref sig .tc) (hw : a ∉ hostOps2_W)
    (g : ∀ w, Pipeline.arrRef spec2 w = a → (cfg2.win w).isOut = false) :
    W6 m ρ c (Proc.devRef .tc a) = W4 m ρ c (Proc.devRef .tc a) := by
  refine Eq.trans ?_ (W5_keep m ρ c a hw)
  by_cases h : ∃ w, Pipeline.arrRef spec2 w = a
  · obtain ⟨w, rfl⟩ := h; exact W6_in m ρ c w (g w rfl)
  · exact W6_of_ne m ρ c a fun w e => h ⟨w, e⟩

abbrev W7 : Dev nD → Valuation τ sig (Elt F) := fun c => StableHlo.after hostOps3 (W6 m ρ c)
abbrev VT7 : (c : Dev nD) → (b : Ref sig .tc) → Buf (Elt F) ((c : Thread nD τ).loc b) := fun c b => W7 m ρ c b
theorem W7_keep (c : Dev nD) (r : Ref sig .tc) (h : r ∉ hostOps3_W) :
    W7 m ρ c (Proc.devRef .tc r) = W6 m ρ c (Proc.devRef .tc r) :=
  StableHlo.after_of_writes_sub hostOps3 _ hostOps_writes.2.2.2.1 h
noncomputable def W8 (c : Dev nD) : Valuation τ sig (Elt F) :=
  Pipeline.withArrays spec3 c (W7 m ρ c) fun w => (dat3 (VT7 m ρ) c).arrAt w cfg3.N
theorem W8_arr (c : Dev nD) (w : Fin cfg3.W) :
    W8 m ρ c (Proc.devRef .tc (Pipeline.arrRef spec3 w)) = (dat3 (VT7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev VT8 : (c : Dev nD) → (b : Ref sig .tc) → Buf (Elt F) ((c : Thread nD τ).loc b) := fun c b => W8 m ρ c b
theorem W8_in (c : Dev nD) (w : Fin cfg3.W) (hin : (cfg3.win w).isOut = false) :
    W8 m ρ c (Proc.devRef .tc (Pipeline.arrRef spec3 w)) = W7 m ρ c (Proc.devRef .tc (Pipeline.arrRef spec3 w)) :=
  (W8_arr m ρ c w).trans (((dat3 (VT7 m ρ) c).arrAt_in w hin _).trans (A_eq3 (VT7 m ρ) c w))
theorem W8_same (c : Dev nD) (a : Ref sig .tc) (hw : a ∉ hostOps3_W)
    (g : ∀ w, Pipeline.arrRef spec3 w = a → (cfg3.win w).isOut = false) :
    W8 m ρ c (Proc.devRef .tc a) = W6 m ρ c (Proc.devRef .tc a) := by
  refine Eq.trans ?_ (W7_keep m ρ c a hw)
  by_cases h : ∃ w, Pipeline.arrRef spec3 w = a
  · obtain ⟨w, rfl⟩ := h; exact W8_in m ρ c w (g w rfl)
  · exact W8_of_ne m ρ c a fun w e => h ⟨w, e⟩

abbrev W9 : Dev nD → Valuation τ sig (Elt F) := fun c => StableHlo.after hostOps4 (W8 m ρ c)
abbrev VT9 : (c : Dev nD) → (b : Ref sig .tc) → Buf (Elt F) ((c : Thread nD τ).loc b) := fun c b => W9 m ρ c b
theorem W9_keep (c : Dev nD) (r : Ref sig .tc) (h : r ∉ hostOps4_W) :
    W9 m ρ c (Proc.devRef .tc r) = W8 m ρ c (Proc.devRef .tc r) :=
  StableHlo.after_of_writes_sub hostOps4 _ hostOps_writes.2.2.2.2.1 h
noncomputable def W10 (c : Dev nD) : Valuation τ sig (Elt F) :=
  Pipeline.withArrays spec4 c (W9 m ρ c) fun w => (dat4 (VT9 m ρ) c).arrAt w cfg4.N
theorem W10_arr (c : Dev nD) (w : Fin cfg4.W) :
    W10 m ρ c (Proc.devRef .tc (Pipeline.arrRef spec4 w)) = (dat4 (VT9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev VT10 : (c : Dev nD) → (b : Ref sig .tc) → Buf (Elt F) ((c : Thread nD τ).loc b) := fun c b => W10 m ρ c b
theorem W10_in (c : Dev nD) (w : Fin cfg4.W) (hin : (cfg4.win w).isOut = false) :
    W10 m ρ c (Proc.devRef .tc (Pipeline.arrRef spec4 w)) = W9 m ρ c (Proc.devRef .tc (Pipeline.arrRef spec4 w)) :=
  (W10_arr m ρ c w).trans (((dat4 (VT9 m ρ) c).arrAt_in w hin _).trans (A_eq4 (VT9 m ρ) c w))
theorem W10_same (c : Dev nD) (a : Ref sig .tc) (hw : a ∉ hostOps4_W)
    (g : ∀ w, Pipeline.arrRef spec4 w = a → (cfg4.win w).isOut = false) :
    W10 m ρ c (Proc.devRef .tc a) = W8 m ρ c (Proc.devRef .tc a) := by
  refine Eq.trans ?_ (W9_keep m ρ c a hw)
  by_cases h : ∃ w, Pipeline.arrRef spec4 w = a
  · obtain ⟨w, rfl⟩ := h; exact W10_in m ρ c w (g w rfl)
  · exact W10_of_ne m ρ c a fun w e => h ⟨w, e⟩

abbrev W11 : Dev nD → Valuation τ sig (Elt F) := fun c => StableHlo.after hostOps5 (W10 m ρ c)
abbrev VT11 : (c : Dev nD) → (b : Ref sig .tc) → Buf (Elt F) ((c : Thread nD τ).loc b) := fun c b => W11 m ρ c b
theorem W11_keep (c : Dev nD) (r : Ref sig .tc) (h : r ∉ hostOps5_W) :
    W11 m ρ c (Proc.devRef .tc r) = W10 m ρ c (Proc.devRef .tc r) :=
  StableHlo.after_of_writes_sub hostOps5 _ hostOps_writes.2.2.2.2.2 h
noncomputable def W12 (c : Dev nD) : Valuation τ sig (Elt F) :=
  Pipeline.withArrays spec5 c (W11 m ρ c) fun w => (dat5 (VT11 m ρ) c).arrAt w cfg5.N
theorem W12_arr (c : Dev nD) (w : Fin cfg5.W) :
    W12 m ρ c (Proc.devRef .tc (Pipeline.arrRef spec5 w)) = (dat5 (VT11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
abbrev VT12 : (c : Dev nD) → (b : Ref sig .tc) → Buf (Elt F) ((c : Thread nD τ).loc b) := fun c b => W12 m ρ c b
theorem W12_in (c : Dev nD) (w : Fin cfg5.W) (hin : (cfg5.win w).isOut = false) :
    W12 m ρ c (Proc.devRef .tc (Pipeline.arrRef spec5 w)) = W11 m ρ c (Proc.devRef .tc (Pipeline.arrRef spec5 w)) :=
  (W12_arr m ρ c w).trans (((dat5 (VT11 m ρ) c).arrAt_in w hin _).trans (A_eq5 (VT11 m ρ) c w))
theorem W12_same (c : Dev nD) (a : Ref sig .tc) (hw : a ∉ hostOps5_W)
    (g : ∀ w, Pipeline.arrRef spec5 w = a → (cfg5.win w).isOut = false) :
    W12 m ρ c (Proc.devRef .tc a) = W10 m ρ c (Proc.devRef .tc a) := by
  refine Eq.trans ?_ (W11_keep m ρ c a hw)
  by_cases h : ∃ w, Pipeline.arrRef spec5 w = a
  · obtain ⟨w, rfl⟩ := h; exact W12_in m ρ c w (g w rfl)
  · exact W12_of_ne m ρ c a fun w e => h ⟨w, e⟩

-- A reference no host stretch writes and every region at most reads.
abbrev Kept (a : Ref sig .tc) : Prop :=
  ¬ (Proc.devRef .tc a : DevRef τ sig).isScoped ∧
  (a ∉ hostOps0_W ∧ ∀ w, Pipeline.arrRef spec0 w = a → (cfg0.win w).isOut = false) ∧
  (a ∉ hostOps1_W ∧ ∀ w, Pipeline.arrRef spec1 w = a → (cfg1.win w).isOut = false) ∧
  (a ∉ hostOps2_W ∧ ∀ w, Pipeline.arrRef spec2 w = a → (cfg2.win w).isOut = false) ∧
  (a ∉ hostOps3_W ∧ ∀ w, Pipeline.arrRef spec3 w = a → (cfg3.win w).isOut = false) ∧
  (a ∉ hostOps4_W ∧ ∀ w, Pipeline.arrRef spec4 w = a → (cfg4.win w).isOut = false) ∧
  (a ∉ hostOps5_W ∧ ∀ w, Pipeline.arrRef spec5 w = a → (cfg5.win w).isOut = false)

theorem W12_kept (c : Dev nD) (a : Ref sig .tc) (h : Kept a) :
    W12 m ρ c (Proc.devRef .tc a) = m ((c : Thread nD τ).loc a) := by
  obtain ⟨-, ⟨h0, g0⟩, ⟨h1, g1⟩, ⟨h2, g2⟩, ⟨h3, g3⟩, ⟨h4, g4⟩, h5, g5⟩ := h
  exact (W12_same m ρ c a h5 g5).trans <| (W10_same m ρ c a h4 g4).trans <| (W8_same m ρ c a h3 g3).trans <|
    (W6_same m ρ c a h2 g2).trans <| (W4_same m ρ c a h1 g1).trans <| W2_same m ρ c a h0 g0

noncomputable def pdats : (p : Fin 6) → (c : Dev nD) → Dat τ (Elt F) Unit ℕ (UR sig nD τ) ℕ (Pipeline.pin (pcfgs (F := F)) adm p) c
  | ⟨0, _⟩ => fun c => dat0 (VT1 m ρ) c
  | ⟨1, _⟩ => fun c => dat1 (VT3 m ρ) c
  | ⟨2, _⟩ => fun c => dat2 (VT5 m ρ) c
  | ⟨3, _⟩ => fun c => dat3 (VT7 m ρ) c
  | ⟨4, _⟩ => fun c => dat4 (VT9 m ρ) c
  | ⟨5, _⟩ => fun c => dat5 (VT11 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W12 m ρ c) ∗ ∃ r, prngReg c r)

set_option backward.isDefEq.respectTransparency.types false in
-- A region as a segment: entered with every buffer at Wi and left with them at Wo. Its arrays are split out of the
-- buffers at entry and put back at their final contents at exit; every other buffer passes through unread.
noncomputable def mkReg (p : Fin 6) (lf : Pipeline.LaunchFacts (nD := nD) (τ := τ) cfgs p) (Wi Wo : Dev nD → Valuation τ sig (Elt F))
    (hbody : ∀ c, BodyObligation (pdats m ρ p c) (defs₀ (F := F)) Variants.none () Set.univ)
    (hA : ∀ c w, (pdats m ρ p c).A w = Wi c (Proc.devRef .tc (Pipeline.arrRef (Pipeline.pin (pcfgs (F := F)) adm p).spec w)))
    (hq : ∀ c w, (pdats m ρ p c).q w = fullShare)
    (howed : ∀ c t, (pdats m ρ p c).owed t = 0)
    (hrec : ∀ c t, (pdats m ρ p c).recorded t = Set.univ)
    (hΦi : ∀ c, Pipeline.ΦA (Pipeline.pin (pcfgs (F := F)) adm p).spec c ⊢ (pdats m ρ p c).Φ 0)
    (hΦo : ∀ c, (pdats m ρ p c).Φ (Fin.last (Pipeline.pin (pcfgs (F := F)) adm p).N) ⊢ Pipeline.ΦA (Pipeline.pin (pcfgs (F := F)) adm p).spec c)
    (hF : ∀ c w, (pdats m ρ p c).arrAt w (Pipeline.pin (pcfgs (F := F)) adm p).N = Wo c (Proc.devRef .tc (Pipeline.arrRef (Pipeline.pin (pcfgs (F := F)) adm p).spec w)))
    (hrest : ∀ c (b : Ref sig .tc), b ∉ Finset.univ.image (Pipeline.arrRef (Pipeline.pin (pcfgs (F := F)) adm p).spec) →
      Wo c (Proc.devRef .tc b) = Wi c (Proc.devRef .tc b)) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c (fun b => Wi c b)
  hentry c := by
    rw [Pipeline.ownSems0_none]
    have hsplit := Pipeline.arrays_of_unscopedBufs (p := p) (pcfgs (F := F)) adm (pdats m ρ) lf.win lf.arr_whole c
      ((pdats m ρ p c).share_full (hq c)) (fun b => Wi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c]
      icases HO with ⟨%W, HO⟩; iexists W; isplitr
      · ipureintro; rw [Pipeline.Dat.bound, hrec c]; exact fun _ _ => Or.inl trivial
      iexact HO
    isplitl [Hp]; · iexact Hp
    iexact Hrest
  hin c := by
    refine BIBase.Entails.trans ?_ (hΦi c)
    unfold Pipeline.ΦA
    iintro ⟨Hp, -, Hr⟩
    isplitl [Hr]; · iexact Hr
    iexact Hp
  hout c := by
    refine BIBase.Entails.trans (hΦo c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c))
      (fun b => Wi c b) (fun b => Wo c b) ((pdats m ρ p c).arrAt · (Pipeline.pin (pcfgs (F := F)) adm p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO

noncomputable def reg0 := mkReg m ρ 0 launch0 (W1 m ρ) (W2 m ρ) (body_obligation0 (VT1 m ρ)) (A_eq0 (VT1 m ρ))
  (q_eq0 (VT1 m ρ)) (owed_eq0 (VT1 m ρ)) (recorded_eq0 (VT1 m ρ)) (hin0 (VT1 m ρ)) (hout0 (VT1 m ρ))
  (fun c w => (W2_arr m ρ c w).symm)
  (fun c b hb => W2_of_ne m ρ c b fun w e => hb (Finset.mem_image.mpr ⟨w, Finset.mem_univ _, e⟩))
noncomputable def reg1 := mkReg m ρ 1 launch1 (W3 m ρ) (W4 m ρ) (body_obligation1 (VT3 m ρ)) (A_eq1 (VT3 m ρ))
  (q_eq1 (VT3 m ρ)) (owed_eq1 (VT3 m ρ)) (recorded_eq1 (VT3 m ρ)) (hin1 (VT3 m ρ)) (hout1 (VT3 m ρ))
  (fun c w => (W4_arr m ρ c w).symm)
  (fun c b hb => W4_of_ne m ρ c b fun w e => hb (Finset.mem_image.mpr ⟨w, Finset.mem_univ _, e⟩))
noncomputable def reg2 := mkReg m ρ 2 launch2 (W5 m ρ) (W6 m ρ) (body_obligation2 (VT5 m ρ)) (A_eq2 (VT5 m ρ))
  (q_eq2 (VT5 m ρ)) (owed_eq2 (VT5 m ρ)) (recorded_eq2 (VT5 m ρ)) (hin2 (VT5 m ρ)) (hout2 (VT5 m ρ))
  (fun c w => (W6_arr m ρ c w).symm)
  (fun c b hb => W6_of_ne m ρ c b fun w e => hb (Finset.mem_image.mpr ⟨w, Finset.mem_univ _, e⟩))
noncomputable def reg3 := mkReg m ρ 3 launch3 (W7 m ρ) (W8 m ρ) (body_obligation3 (VT7 m ρ)) (A_eq3 (VT7 m ρ))
  (q_eq3 (VT7 m ρ)) (owed_eq3 (VT7 m ρ)) (recorded_eq3 (VT7 m ρ)) (hin3 (VT7 m ρ)) (hout3 (VT7 m ρ))
  (fun c w => (W8_arr m ρ c w).symm)
  (fun c b hb => W8_of_ne m ρ c b fun w e => hb (Finset.mem_image.mpr ⟨w, Finset.mem_univ _, e⟩))
noncomputable def reg4 := mkReg m ρ 4 launch4 (W9 m ρ) (W10 m ρ) (body_obligation4 (VT9 m ρ)) (A_eq4 (VT9 m ρ))
  (q_eq4 (VT9 m ρ)) (owed_eq4 (VT9 m ρ)) (recorded_eq4 (VT9 m ρ)) (hin4 (VT9 m ρ)) (hout4 (VT9 m ρ))
  (fun c w => (W10_arr m ρ c w).symm)
  (fun c b hb => W10_of_ne m ρ c b fun w e => hb (Finset.mem_image.mpr ⟨w, Finset.mem_univ _, e⟩))
noncomputable def reg5 := mkReg m ρ 5 launch5 (W11 m ρ) (W12 m ρ) (body_obligation5 (VT11 m ρ)) (A_eq5 (VT11 m ρ))
  (q_eq5 (VT11 m ρ)) (owed_eq5 (VT11 m ρ)) (recorded_eq5 (VT11 m ρ)) (hin5 (VT11 m ρ)) (hout5 (VT11 m ρ))
  (fun c w => (W12_arr m ρ c w).symm)
  (fun c b hb => W12_of_ne m ρ c b fun w e => hb (Finset.mem_image.mpr ⟨w, Finset.mem_univ _, e⟩))

abbrev runSegs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ) ]

theorem main_run (c : Dev nD) : main (F := F) c = Pipeline.Seg.run (runSegs m ρ) := (main_chain c).trans (by chain_rfl)

set_option backward.isDefEq.respectTransparency.types false in

theorem run : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (runSegs m ρ)
    (fun c Q => by rw [main_run m ρ c])
    (by simp only [runSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => Laws.sep_assoc.2⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h => h)

-- The result buffer ends at the last boundary's contents and every kept reference as launched.
theorem run_args : θ_run defs (onTc (τ := τ) (main (F := F))) ⟨m, fun _ => 0, ρ⟩ (fun r => ∀ c : Dev nD,
      r.2.mem ((c.tc : Thread nD τ).loc main_v57) = W12 m ρ c (Proc.devRef .tc main_v57)
      ∧ ∀ a, Kept a → r.2.mem ((c.tc : Thread nD τ).loc a) = m ((c.tc : Thread nD τ).loc a)) :=
  (θ_run defs (onTc (τ := τ) (main (F := F))) ⟨m, fun _ => 0, ρ⟩).mono (fun r h c =>
    ⟨h c _ (mem_uc main_v57 (by decide)), fun a k => (h c _ (mem_uc a k.1)).trans (W12_kept m ρ c a k)⟩) (run m ρ)

end Cert.Kernel.Gen

end
-- ==== Proof.KernelIdeal.HostWrites.lean ====
import proofs.«430393_j3504693313561_3_alg».proof.Proof.KernelIdeal.Launch

noncomputable section

namespace Cert.KernelIdeal.Gen

open Idealize.ShloMosaic Idealize.ShloMosaic.TcCoe

variable {F : FTy → Type} [FloatOps F]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem hostOps4_fresh : (hostOps4 : List (HloOp τ sig (Elt F))).Forall fun op => op.fresh = ∅ := by
  simp only [List.Forall]; repeat' constructor
theorem hostOps5_fresh : (hostOps5 : List (HloOp τ sig (Elt F))).Forall fun op => op.fresh = ∅ := by
  simp only [List.Forall]; repeat' constructor

abbrev hostOps0_W : List (Ref sig .tc) := [main_v0, main_v1, main_v2, main_v3, main_cst, main_v4, main_cst_0, main_v5, main_v6, main_v7, main_cst_1, main_v8, main_v9, main_v10, main_c, main_v11, main_v12, main_c_2, main_v13, main_v14, main_v15, main_v16, main_v17, main_cst_3, main_v18, main_v19, main_v20]
abbrev hostOps1_W : List (Ref sig .tc) := [main_c_4, main_v22, main_v23, main_c_5, main_v24, main_v25, main_v26, main_v27, main_v28, main_cst_6, main_v29, main_v30, main_v31]
abbrev hostOps2_W : List (Ref sig .tc) := [main_c_7, main_v33, main_v34, main_c_8, main_v35, main_v36, main_v37, main_v38, main_v39, main_cst_9, main_v40, main_v41, main_v42]
abbrev hostOps3_W : List (Ref sig .tc) := [main_v44]
abbrev hostOps4_W : List (Ref sig .tc) := [main_v46, main_v47, main_v48, main_v49, main_v50]
abbrev hostOps5_W : List (Ref sig .tc) := [main_v52, main_v53, main_v54, main_v55, main_v56]

abbrev WritesIn (ops : List (HloOp τ sig (Elt F))) (W : List (Ref sig .tc)) : Prop :=
  ops.Forall fun op => op.writes ⊆ (W.map (Proc.devRef (τ := τ) .tc)).toFinset

-- Each operation of a stretch writes one reference, and that reference is on the stretch's list.
theorem hostOps_writes : WritesIn (F := F) hostOps0 hostOps0_W ∧ WritesIn (F := F) hostOps1 hostOps1_W ∧
    WritesIn (F := F) hostOps2 hostOps2_W ∧ WritesIn (F := F) hostOps3 hostOps3_W ∧
    WritesIn (F := F) hostOps4 hostOps4_W ∧ WritesIn (F := F) hostOps5 hostOps5_W := by
  refine ⟨?_, ?_, ?_, ?_, ?_, ?_⟩ <;>
  · simp only [WritesIn, List.Forall]
    repeat' apply And.intro
    all_goals
      simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
      exact List.mem_map_of_mem (by decide)

end Cert.KernelIdeal.Gen

end
-- ==== Proof.KernelIdeal.R0.lean ====
import proofs.«430393_j3504693313561_3_alg».proof.Proof.KernelIdeal.Launch
import proofs.«430393_j3504693313561_3_alg».proof.Proof.Gen.KernelIdeal.Skeleton
import proofs.«430393_j3504693313561_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S5000x1 := Rect.unit (s := S5000x1) ![0, 0] S5000x1.size inb_S5000x1_S5000x1_0_0
abbrev r0_1 : Rect S1x16 := Rect.unit (s := S1x16) ![0, 0] S1x16.size inb_S1x16_S1x16_0_0
abbrev r0_2 : Rect S16 := Rect.unit (s := S16) ![0] S16.size inb_S16_S16_0
abbrev r0_3 : Rect S16x16 := Rect.unit (s := S16x16) ![0, 0] S16x16.size inb_S16x16_S16x16_0_0
abbrev r0_4 : Rect S5000x16 := Rect.unit (s := S5000x16) ![0, 0] S5000x16.size inb_S5000x16_S5000x16_0_0

noncomputable def out0_8 (x0 : Vec F S5000x1 .f32) (x1 : Vec F S5000x1 .f32) (x2 : Vec F S5000x1 .f32) (x3 : Vec F S1x16 .f32)
    (x4 : Vec F S16 .f32) (x5 : Vec F S1x16 .f32) (x6 : Vec F S16x16 .f32) (x7 : Vec F S16 .f32) : Vec F S5000x16 .f32 :=
  View.canon [⟨r0_4, k0_pay1 (View.ld x0 r0_0) (View.ld x1 r0_0) (View.ld x2 r0_0) (View.ld x3 r0_1) (View.ld x5 r0_1)
    (View.ld x4 r0_2) (View.ld x6 r0_3) (View.ld x7 r0_2)⟩]

theorem sound_kernel0 (c : Dev nD) (E : Set ℕ) (i : grid0.Coords) (arg0 : Memref sig .tc .vmem S5000x1 .f32) (harg0 : arg0.IsWhole) (arg1 : Memref sig .tc .vmem S5000x1 .f32) (harg1 : arg1.IsWhole) (arg2 : Memref sig .tc .vmem S5000x1 .f32) (harg2 : arg2.IsWhole) (arg3 : Memref sig .tc .vmem S1x16 .f32) (harg3 : arg3.IsWhole) (arg4 : Memref sig .tc .vmem S16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S16 .f32) (harg7 : arg7.IsWhole) (arg8 : Memref sig .tc .vmem S5000x16 .f32) (harg8 : arg8.IsWhole)
    (x0 : Vec F S5000x1 .f32) (x1 : Vec F S5000x1 .f32) (x2 : Vec F S5000x1 .f32) (x3 : Vec F S1x16 .f32) (x4 : Vec F S16 .f32) (x5 : Vec F S1x16 .f32) (x6 : Vec F S16x16 .f32) (x7 : Vec F S16 .f32) (K : PUnit → sProp 𝕄) :
    iprop(owns c arg0 fullShare x0 ∗ owns c arg1 fullShare x1 ∗ owns c arg2 fullShare x2 ∗ owns c arg3 fullShare x3 ∗ owns c arg4 fullShare x4 ∗ owns c arg5 fullShare x5 ∗ owns c arg6 fullShare x6 ∗ owns c arg7 fullShare x7 ∗ (∃ d, owns c arg8 fullShare d)
        ∗ (iprop(owns c arg0 fullShare x0 ∗ owns c arg1 fullShare x1 ∗ owns c arg2 fullShare x2 ∗ owns c arg3 fullShare x3 ∗ owns c arg4 fullShare x4 ∗ owns c arg5 fullShare x5 ∗ owns c arg6 fullShare x6 ∗ owns c arg7 fullShare x7 ∗ owns c arg8 fullShare (out0_8 x0 x1 x2 x3 x4 x5 x6 x7)) -∗ K ⟨⟩))
      ⊢ wp frame (wpE (defs₀ (F := F)) Variants.none c none) E (cc0_kernel i arg0 harg0 arg1 harg1 arg2 harg2 arg3 harg3 arg4 harg4 arg5 harg5 arg6 harg6 arg7 harg7 arg8 harg8) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]; · iexists _; iframe; ipureintro; rfl
  isplitl [H1]; · iexists _; iframe; ipureintro; rfl
  isplitl [H2]; · iexists _; iframe; ipureintro; rfl
  isplitl [H3]; · iexists _; iframe; ipureintro; rfl
  isplitl [H4]; · iexists _; iframe; ipureintro; rfl
  isplitl [H5]; · iexists _; iframe; ipureintro; rfl
  isplitl [H6]; · iexists _; iframe; ipureintro; rfl
  isplitl [H7]; · iexists _; iframe; ipureintro; rfl
  iexists _; iframe; ipureintro
  exact View.read_writes_eq_canon _ _ _ (View.cover_of_tiled _ S5000x16.size (by rfl))

noncomputable def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => out0_8 (iblk0 V c 0 t) (iblk0 V c 1 t) (iblk0 V c 2 t) (iblk0 V c 3 t) (iblk0 V c 4 t) (iblk0 V c 5 t) (iblk0 V c 6 t) (iblk0 V c 7 t)
  Φ _ := Pipeline.ΦA spec0 c
  q _ := fullShare
  owed _ := 0

theorem A_eq0 (c : Dev nD) (w : Fin cfg0.W) : (dat0 V c).A w = V c (Pipeline.arrRef spec0 w) := rfl

theorem q_eq0 (c : Dev nD) (w : Fin cfg0.W) : (dat0 V c).q w = fullShare := rfl

theorem owed_eq0 (c : Dev nD) (t : Fin (cfg0.N + 1)) : (dat0 V c).owed t = 0 := rfl

theorem after0_8 (c : Dev nD) (t : Fin cfg0.N) : (dat0 V c).after 8 t = out0_8 (iblk0 V c 0 t) (iblk0 V c 1 t) (iblk0 V c 2 t) (iblk0 V c 3 t) (iblk0 V c 4 t) (iblk0 V c 5 t) (iblk0 V c 6 t) (iblk0 V c 7 t) := by dsimp only [dat0]

theorem hin0 (c : Dev nD) : Pipeline.ΦA spec0 c ⊢ (dat0 V c).Φ 0 := BI.Entails.refl _

theorem hout0 (c : Dev nD) : (dat0 V c).Φ (Fin.last cfg0.N) ⊢ Pipeline.ΦA spec0 c := BI.Entails.refl _

-- The body writes to no input window.
theorem before0_in (c : Dev nD) (w : Fin 9) (hw : w ≠ 8) (t : Fin cfg0.N) (d) :
    (dat0 V c).before w t d = (dat0 V c).after w t := by
  fin_cases w <;> first
    | exact absurd rfl hw
    | exact ((dat0 V c).before_in_eq_fetched _ rfl (fun _ => rfl) (fun _ _ _ => rfl) (fun _ => rfl) t d).trans rfl

-- The body's triple, with the rest of the state framed around it.
theorem body_obligation0 (c : Dev nD) : BodyObligation (dat0 (F := F) V c) (defs₀ (F := F)) Variants.none () Set.univ := fun t => by
  rw [bigSep_W0, bigSep_W0]
  change _ ⊢ wp _ _ _ (bodyAt0 t) _
  unfold bodyAt0
  refine BIClass.entails_trans ?_ (sound_kernel0 c Set.univ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) _)
  simp (disch := decide) only [before0_in, show ∀ w i, cfg0.idle w i = false from fun _ _ => rfl,
    show (dat0 V c).owesAt () t.succ = (dat0 V c).owesAt () t.castSucc from rfl]
  dsimp only [dat0]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iframe H0 H1 H2 H3 H4 H5 H6 H7
  isplitl [H8]; · iexists _; iexact H8
  iintro ⟨H0, H1, H2, H3, H4, H5, H6, H7, H8⟩
  iframe

theorem recorded_eq0 (c : Dev nD) (t : Fin (cfg0.N + 1)) : (dat0 V c).recorded t = Set.univ := rfl

end Cert.KernelIdeal.Gen
end
-- ==== Proof.KernelIdeal.R1.lean ====
import proofs.«430393_j3504693313561_3_alg».proof.Proof.KernelIdeal.Launch
import proofs.«430393_j3504693313561_3_alg».proof.Proof.Gen.KernelIdeal.Skeleton
import proofs.«430393_j3504693313561_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.TableIdle
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S5000x16 := Rect.unit (s := S5000x16) ![0, 0] S5000x16.size inb_S5000x16_S5000x16_0_0
abbrev r1_1 : Rect S5000x1 := Rect.unit (s := S5000x1) ![0, 0] S5000x1.size inb_S5000x1_S5000x1_0_0
abbrev r1_2 : Rect S16x16 := Rect.unit (s := S16x16) ![0, 0] S16x16.size inb_S16x16_S16x16_0_0
abbrev r1_3 : Rect S16 := Rect.unit (s := S16) ![0] S16.size inb_S16_S16_0

noncomputable def out1_8 (x0 : Vec F S5000x16 .f32) (x1 : Vec F S5000x1 .f32) (x2 : Vec F S5000x16 .f32) (x3 : Vec F S16x16 .f32)
    (x4 : Vec F S16 .f32) (x5 : Vec F S16x16 .f32) (x6 : Vec F S16x16 .f32) (x7 : Vec F S16 .f32) : Vec F S5000x16 .f32 :=
  View.canon [⟨r1_0, k1_pay1 (View.ld x0 r1_0) (View.ld x1 r1_1) (View.ld x2 r1_0) (View.ld x3 r1_2) (View.ld x5 r1_2) (View.ld x4 r1_3) (View.ld x6 r1_2) (View.ld x7 r1_3)⟩]

theorem cover1_8 (p0 : Vec F S5000x16 .f32) (y : S5000x16.Idx) :
    ∃ pc ∈ ([⟨r1_0, p0⟩] : List (View.Piece (Elt F) S5000x16 .f32)), y ∈ pc.1.set :=
  View.cover_of_tiled [⟨r1_0, p0⟩] S5000x16.size (by rfl) y

set_option maxHeartbeats 1000000 in
-- Eight whole-buffer loads leave the inputs as they were; the one whole-buffer store covers the output.
theorem sound_kernel1 (c : Dev nD) (E : Set ℕ) (i : grid1.Coords)
    {a0 a2 a8 : Memref sig .tc .vmem S5000x16 .f32} {a1 : Memref sig .tc .vmem S5000x1 .f32}
    {a3 a5 a6 : Memref sig .tc .vmem S16x16 .f32} {a4 a7 : Memref sig .tc .vmem S16 .f32}
    (h0 : a0.IsWhole) (h1 : a1.IsWhole) (h2 : a2.IsWhole) (h3 : a3.IsWhole) (h4 : a4.IsWhole) (h5 : a5.IsWhole)
    (h6 : a6.IsWhole) (h7 : a7.IsWhole) (h8 : a8.IsWhole)
    (x0 x2 : Vec F S5000x16 .f32) (x1 : Vec F S5000x1 .f32) (x3 x5 x6 : Vec F S16x16 .f32) (x4 x7 : Vec F S16 .f32) (K : PUnit → sProp (MT nD τ sig Unit (Elt F) ℕ (UR sig nD τ) ℕ)) :
    iprop(owns c a0 fullShare x0 ∗ owns c a1 fullShare x1 ∗ owns c a2 fullShare x2 ∗ owns c a3 fullShare x3 ∗ owns c a4 fullShare x4 ∗ owns c a5 fullShare x5 ∗ owns c a6 fullShare x6 ∗ owns c a7 fullShare x7 ∗ (∃ d, owns c a8 fullShare d)
        ∗ (iprop(owns c a0 fullShare x0 ∗ owns c a1 fullShare x1 ∗ owns c a2 fullShare x2 ∗ owns c a3 fullShare x3 ∗ owns c a4 fullShare x4 ∗ owns c a5 fullShare x5 ∗ owns c a6 fullShare x6 ∗ owns c a7 fullShare x7 ∗ owns c a8 fullShare (out1_8 x0 x1 x2 x3 x4 x5 x6 x7)) -∗ K ⟨⟩))
      ⊢ wp frame (wpE (defs₀ (F := F)) Variants.none c none) E (cc1_kernel i a0 h0 a1 h1 a2 h2 a3 h3 a4 h4 a5 h5 a6 h6 a7 h7 a8 h8) K := by
  rw [cc1_kernel_eq_skeleton]; unfold cc1_kernel_skel
  iterate 8 rw [owns_eq_rep]
  unfold owns
  iintro ⟨H0, H1, H2, H3, H4, H5, H6, H7, ⟨%d, %f, -, H8⟩, Hk⟩
  sl_exec
  sl_step
  iapply Hk
  iframe H0 H1 H2 H3 H4 H5 H6 H7
  iexists _; iframe H8
  ipureintro
  simp only [View.readAt_eq_ld, View.read_rep]
  exact View.read_writes_eq_canon _ _ _ (cover1_8 _)

noncomputable def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t) (iblk1 V c 5 t) (iblk1 V c 6 t) (iblk1 V c 7 t)
  Φ _ := Pipeline.ΦA spec1 c
  q _ := fullShare
  owed _ := 0

theorem A_eq1 (c : Dev nD) (w : Fin cfg1.W) : (dat1 V c).A w = V c (Pipeline.arrRef spec1 w) := rfl

theorem q_eq1 (c : Dev nD) (w : Fin cfg1.W) : (dat1 V c).q w = fullShare := rfl

theorem owed_eq1 (c : Dev nD) (t : Fin (cfg1.N + 1)) : (dat1 V c).owed t = 0 := rfl

theorem hin1 (c : Dev nD) : Pipeline.ΦA spec1 c ⊢ (dat1 V c).Φ 0 := BI.Entails.refl _

theorem hout1 (c : Dev nD) : (dat1 V c).Φ (Fin.last cfg1.N) ⊢ Pipeline.ΦA spec1 c := BI.Entails.refl _

theorem after1_8 (c : Dev nD) (t : Fin cfg1.N) :
    (dat1 V c).after 8 t = out1_8 (iblk1 V c 0 t) (iblk1 V c 1 t) (iblk1 V c 2 t) (iblk1 V c 3 t) (iblk1 V c 4 t) (iblk1 V c 5 t) (iblk1 V c 6 t) (iblk1 V c 7 t) := by dsimp only [dat1]

-- An input window the body does not write holds its block at every point.
theorem before1 (c : Dev nD) (t : Fin cfg1.N) :
    (∀ d, (dat1 V c).before 0 t d = iblk1 V c 0 t) ∧ (∀ d, (dat1 V c).before 1 t d = iblk1 V c 1 t) ∧
    (∀ d, (dat1 V c).before 2 t d = iblk1 V c 2 t) ∧ (∀ d, (dat1 V c).before 3 t d = iblk1 V c 3 t) ∧
    (∀ d, (dat1 V c).before 4 t d = iblk1 V c 4 t) ∧ (∀ d, (dat1 V c).before 5 t d = iblk1 V c 5 t) ∧
    (∀ d, (dat1 V c).before 6 t d = iblk1 V c 6 t) ∧ ∀ d, (dat1 V c).before 7 t d = iblk1 V c 7 t := by
  refine ⟨?_, ?_, ?_, ?_, ?_, ?_, ?_, ?_⟩ <;>
    exact (dat1 V c).before_in_eq_fetched _ rfl (fun _ => rfl) (fun _ _ _ => rfl) (fun _ => rfl) t

-- The inputs hold their blocks, so the kernel's triple applies; the rest of the state passes through unread.
theorem body_obligation1 (c : Dev nD) : BodyObligation (dat1 (F := F) V c) (defs₀ (F := F)) Variants.none () Set.univ := fun t => by
  rw [bigSep_W1, bigSep_W1]
  simp only [before1 V c t]
  dsimp only [dat1, Dat.owesAt, Dat.bound]
  iintro ⟨HΦ, Ho, ⟨%_, H0⟩, ⟨%_, H1⟩, ⟨%_, H2⟩, ⟨%_, H3⟩, ⟨%_, H4⟩, ⟨%_, H5⟩, ⟨%_, H6⟩, ⟨%_, H7⟩, ⟨%_, H8⟩⟩
  iapply sound_kernel1 c Set.univ (grid1.coords t) (hstage1_0 _) (hstage1_1 _) (hstage1_2 _) (hstage1_3 _) (hstage1_4 _) (hstage1_5 _) (hstage1_6 _) (hstage1_7 _) (hstage1_8 _) (iblk1 V c 0 t) (iblk1 V c 2 t) (iblk1 V c 1 t) (iblk1 V c 3 t) (iblk1 V c 5 t) (iblk1 V c 6 t) (iblk1 V c 4 t) (iblk1 V c 7 t)
  iframe H0 H1 H2 H3 H4 H5 H6 H7
  isplitl [H8]; · iexists _; iexact H8
  iintro H
  iframe

theorem recorded_eq1 (c : Dev nD) (t : Fin (cfg1.N + 1)) : (dat1 V c).recorded t = Set.univ := rfl

end Cert.KernelIdeal.Gen
end
-- ==== Proof.KernelIdeal.R2.lean ====
import proofs.«430393_j3504693313561_3_alg».proof.Proof.KernelIdeal.R1

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

noncomputable def out2_8 (x0 : Vec F S5000x16 .f32) (x1 : Vec F S5000x1 .f32) (x2 : Vec F S5000x16 .f32) (x3 : Vec F S16x16 .f32)
    (x4 : Vec F S16 .f32) (x5 : Vec F S16x16 .f32) (x6 : Vec F S16x16 .f32) (x7 : Vec F S16 .f32) : Vec F S5000x16 .f32 :=
  View.canon [⟨r1_0, k2_pay1 (View.ld x0 r1_0) (View.ld x1 r1_1) (View.ld x2 r1_0) (View.ld x3 r1_2) (View.ld x5 r1_2) (View.ld x4 r1_3) (View.ld x6 r1_2) (View.ld x7 r1_3)⟩]

-- Both regions store the same payload.
theorem out2_8_eq : out2_8 (F := F) = out1_8 := rfl

noncomputable def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out2_8 (iblk2 V c 0 t) (iblk2 V c 1 t) (iblk2 V c 2 t) (iblk2 V c 3 t) (iblk2 V c 4 t) (iblk2 V c 5 t) (iblk2 V c 6 t) (iblk2 V c 7 t)
  Φ _ := Pipeline.ΦA spec2 c
  q _ := fullShare
  owed _ := 0

theorem A_eq2 (c : Dev nD) (w : Fin cfg2.W) : (dat2 V c).A w = V c (Pipeline.arrRef spec2 w) := rfl

theorem q_eq2 (c : Dev nD) (w : Fin cfg2.W) : (dat2 V c).q w = fullShare := rfl

theorem owed_eq2 (c : Dev nD) (t : Fin (cfg2.N + 1)) : (dat2 V c).owed t = 0 := rfl

theorem hin2 (c : Dev nD) : Pipeline.ΦA spec2 c ⊢ (dat2 V c).Φ 0 := BI.Entails.refl _

theorem hout2 (c : Dev nD) : (dat2 V c).Φ (Fin.last cfg2.N) ⊢ Pipeline.ΦA spec2 c := BI.Entails.refl _

theorem after2_8 (c : Dev nD) (t : Fin cfg2.N) :
    (dat2 V c).after 8 t = out2_8 (iblk2 V c 0 t) (iblk2 V c 1 t) (iblk2 V c 2 t) (iblk2 V c 3 t) (iblk2 V c 4 t) (iblk2 V c 5 t) (iblk2 V c 6 t) (iblk2 V c 7 t) := by dsimp only [dat2]

-- An input window the body does not write holds its block at every point.
theorem before2 (c : Dev nD) (t : Fin cfg2.N) :
    (∀ d, (dat2 V c).before 0 t d = iblk2 V c 0 t) ∧ (∀ d, (dat2 V c).before 1 t d = iblk2 V c 1 t) ∧
    (∀ d, (dat2 V c).before 2 t d = iblk2 V c 2 t) ∧ (∀ d, (dat2 V c).before 3 t d = iblk2 V c 3 t) ∧
    (∀ d, (dat2 V c).before 4 t d = iblk2 V c 4 t) ∧ (∀ d, (dat2 V c).before 5 t d = iblk2 V c 5 t) ∧
    (∀ d, (dat2 V c).before 6 t d = iblk2 V c 6 t) ∧ ∀ d, (dat2 V c).before 7 t d = iblk2 V c 7 t := by
  refine ⟨?_, ?_, ?_, ?_, ?_, ?_, ?_, ?_⟩ <;>
    exact (dat2 V c).before_in_eq_fetched _ rfl (fun _ => rfl) (fun _ _ _ => rfl) (fun _ => rfl) t

-- Region 2 runs region 1's kernel on its own windows, so region 1's triple applies.
theorem body_obligation2 (c : Dev nD) : BodyObligation (dat2 (F := F) V c) (defs₀ (F := F)) Variants.none () Set.univ := fun t => by
  rw [bigSep_W2, bigSep_W2]
  simp only [before2 V c t]
  dsimp only [dat2, Dat.owesAt, Dat.bound]
  rw [out2_8_eq]
  iintro ⟨HΦ, Ho, ⟨%_, H0⟩, ⟨%_, H1⟩, ⟨%_, H2⟩, ⟨%_, H3⟩, ⟨%_, H4⟩, ⟨%_, H5⟩, ⟨%_, H6⟩, ⟨%_, H7⟩, ⟨%_, H8⟩⟩
  iapply sound_kernel1 c Set.univ (grid2.coords t) (hstage2_0 _) (hstage2_1 _) (hstage2_2 _) (hstage2_3 _) (hstage2_4 _) (hstage2_5 _) (hstage2_6 _) (hstage2_7 _) (hstage2_8 _) (iblk2 V c 0 t) (iblk2 V c 2 t) (iblk2 V c 1 t) (iblk2 V c 3 t) (iblk2 V c 5 t) (iblk2 V c 6 t) (iblk2 V c 4 t) (iblk2 V c 7 t)
  iframe H0 H1 H2 H3 H4 H5 H6 H7
  isplitl [H8]; · iexists _; iexact H8
  iintro H
  iframe

theorem recorded_eq2 (c : Dev nD) (t : Fin (cfg2.N + 1)) : (dat2 V c).recorded t = Set.univ := rfl

end Cert.KernelIdeal.Gen
end
-- ==== Proof.KernelIdeal.R3.lean ====
import proofs.«430393_j3504693313561_3_alg».proof.Proof.KernelIdeal.Launch
import proofs.«430393_j3504693313561_3_alg».proof.Proof.Gen.KernelIdeal.Skeleton
import proofs.«430393_j3504693313561_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 100 = 0 := by decide +kernel

abbrev cond3_1 (i : grid3.Coords) : Prop := k3_cond2 i = 1#1
theorem hcond3_1 : ∀ t : Fin cfg3.N, cond3_1 (grid3.coords t) ↔ t.val % 100 = 99 := by decide +kernel

theorem idleAt3_2 : ∀ t : Fin cfg3.N, ¬t.val % 100 = 99 → cfg3.idle 2 (grid3.coords t) = true ∧ (cfg3.win 2).flush t = false := by decide +kernel
theorem liveAt3_2 : ∀ t : Fin cfg3.N, t.val % 100 = 99 → cfg3.idle 2 (grid3.coords t) = false := by decide +kernel

abbrev ms3_0 (t : Fin cfg3.N) : Memref sig .tc .vmem S1000x16 .f32 := win3_0.stage (cfg3.slots t 0)
abbrev ms3_1 (t : Fin cfg3.N) : Memref sig .tc .vmem S1000x1 .i32 := win3_1.stage (cfg3.slots t 1)
abbrev ms3_2 (t : Fin cfg3.N) : Memref sig .tc .vmem S1x1024x16 .f32 := win3_2.stage (cfg3.slots t 2)
abbrev scM3 : Memref sig .tc .vmem S1024x16 .f32 := Memref.whole cc3_scratch0
abbrev rest3 (c : Dev nD) : sProp 𝕄 :=
  Pipeline.scopedRestBut (Ix := Unit) (Name := ℕ) (U := UR sig nD τ) (Lvl := ℕ) (Val := Elt F) spec3 c [cc3_scratch0]

theorem PhiA3_eq (c : Dev nD) :
    (Pipeline.ΦA spec3 c : sProp 𝕄)
      = iprop(iprop(iprop((∃ d, owns (c : Thread nD τ) scM3 fullShare d)) ∗ rest3 (F := F) c) ∗ (∃ r, prngReg c r)) := by
  unfold Pipeline.ΦA; rw [scopedRest3_split]; simp only [scM3, owns_whole]; try rfl

abbrev r3_0 : Rect S1000x16 := Rect.unit (s := S1000x16) ![0, 0] S1000x16.size inb_S1000x16_S1000x16_0_0
abbrev r3_1 : Rect S1000x1 := Rect.unit (s := S1000x1) ![0, 0] S1000x1.size inb_S1000x1_S1000x1_0_0
abbrev r3_2 : Rect S1x1024x16 := Rect.unit (s := S1x1024x16) ![0, 0, 0] S1x1024x16.size inb_S1x1024x16_S1x1024x16_0_0_0
abbrev r3_S : Rect S1024x16 := Rect.unit (s := S1024x16) ![0, 0] S1024x16.size inb_S1024x16_S1024x16_0_0

theorem hz3_S : (![0, 0] : Fin S1024x16.rank → Nat) = fun _ => 0 := funext fun a => by fin_cases a <;> rfl
theorem hz3_2 : (![0, 0, 0] : Fin S1x1024x16.rank → Nat) = fun _ => 0 := funext fun a => by fin_cases a <;> rfl

noncomputable def szero3 : Vec F S1024x16 .f32 :=
  View.canon [⟨r3_S, k3_pay1 (F := F)⟩]

noncomputable def sacc3 (x0 : Vec F S1000x16 .f32) (x1 : Vec F S1000x1 .i32) (xs : Vec F S1024x16 .f32) : Vec F S1024x16 .f32 :=
  View.canon [⟨r3_S, k3_pay2 (View.ld x0 r3_0) (View.ld x1 r3_1) (View.ld xs r3_S)⟩]

noncomputable def out3_2 (xs : Vec F S1024x16 .f32) : Vec F S1x1024x16 .f32 :=
  View.canon [⟨r3_2, k3_pay3 (View.ld xs r3_S)⟩]

noncomputable def idle3_2 : Vec F S1x1024x16 .f32 := View.canon []

-- a store through a whole buffer, made last, covers it
theorem cover3_S (p : r3_S.shape.Idx → Elt F .f32) (L : List (View.Piece (Elt F) S1024x16 .f32)) (y : S1024x16.Idx) :
    ∃ pc ∈ ((⟨r3_S, p⟩ : View.Piece (Elt F) S1024x16 .f32) :: L), y ∈ pc.1.set :=
  ⟨_, List.mem_cons_self .., View.mem_set_unit_zero hz3_S inb_S1024x16_S1024x16_0_0 y⟩
theorem cover3_2 (p : r3_2.shape.Idx → Elt F .f32) (L : List (View.Piece (Elt F) S1x1024x16 .f32)) (y : S1x1024x16.Idx) :
    ∃ pc ∈ ((⟨r3_2, p⟩ : View.Piece (Elt F) S1x1024x16 .f32) :: L), y ∈ pc.1.set :=
  ⟨_, List.mem_cons_self .., View.mem_set_unit_zero hz3_2 inb_S1x1024x16_S1x1024x16_0_0_0 y⟩

theorem canon_top3_S (p : r3_S.shape.Idx → Elt F .f32) (L : List (View.Piece (Elt F) S1024x16 .f32)) :
    View.canon ((⟨r3_S, p⟩ : View.Piece (Elt F) S1024x16 .f32) :: L) = View.canon [(⟨r3_S, p⟩ : View.Piece (Elt F) S1024x16 .f32)] :=
  (View.canon_cons_unit_zero hz3_S _ p L).trans (View.canon_unit_zero hz3_S _ p).symm

-- on whole buffers the body resets the scratch where `p0`, accumulates into it, and stores it to the output where `p1`
theorem sound_kernel3 (c : Dev nD) (i : grid3.Coords) (arg2 : Memref sig .tc .vmem S1000x16 .f32) (harg2 : arg2.IsWhole) (arg3 : Memref sig .tc .vmem S1000x1 .i32) (harg3 : arg3.IsWhole) (arg4 : Memref sig .tc .vmem S1x1024x16 .f32) (harg4 : arg4.IsWhole) (arg5 : Memref sig .tc .vmem S1024x16 .f32) (harg5 : arg5.IsWhole)
    {p0 p1 : Prop} [Decidable p0] [Decidable p1] (h0 : cond3_0 i ↔ p0) (h1 : cond3_1 i ↔ p1) (h01 : p0 → ¬p1)
    (x0 : Vec F S1000x16 .f32) (x1 : Vec F S1000x1 .i32) (x2 : Vec F S1x1024x16 .f32) (xs : Vec F S1024x16 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xs
        ∗ (iprop(owns (c : Thread nD τ) arg2 fullShare x0 ∗ owns (c : Thread nD τ) arg3 fullShare x1
            ∗ owns (c : Thread nD τ) arg4 fullShare (if p1 then out3_2 (sacc3 x0 x1 xs) else x2)
            ∗ owns (c : Thread nD τ) arg5 fullShare (sacc3 x0 x1 (if p0 then szero3 else xs))) -∗ K ⟨⟩))
      ⊢ wp frame (wpE (defs₀ (F := F)) Variants.none c none) E (cc3_kernel i arg2 harg2 arg3 harg3 arg4 harg4 arg5 harg5) K := by
  simp only [cc3_kernel_eq_skeleton]; unfold cc3_kernel_skel owns
  iintro ⟨⟨%f0, %hf0, H0⟩, ⟨%f1, %hf1, H1⟩, ⟨%f2, %hf2, H2⟩, ⟨%fs, %hfs, HS⟩, Hk⟩
  subst hf0 hf1 hf2 hfs
  by_cases hp0 : p0 <;> by_cases hp1 : p1
  · exact absurd hp1 (h01 hp0)
  all_goals
    first | rw [if_pos hp0] | rw [if_neg hp0]
    first | rw [if_pos hp1] | rw [if_neg hp1]
    sl_exec (disch := first | exact h0.mpr hp0 | exact mt h0.mp hp0 | exact h1.mpr hp1 | exact mt h1.mp hp1)
    sl_step
    iapply Hk
    isplitl [H0]
    · iexists f0; isplitr; · ipureintro; rfl
      iexact H0
    isplitl [H1]
    · iexists f1; isplitr; · ipureintro; rfl
      iexact H1
    isplitl [H2]
    · iexists _; isplitr
      swap; · iexact H2
      ipureintro
      first
      | (sl_unfold_run_names
         rw [View.readCov_eq_canon_ld _ _ _ (cover3_S _ _)]
         exact View.read_writes_eq_canon _ _ _ (cover3_2 _ _))
      | rfl
    iexists _; isplitr
    swap; · iexact HS
    ipureintro
    first
    | (sl_unfold_run_names
       rw [View.readCov_eq_canon_ld _ _ _ (cover3_S _ _), View.read_writes_eq_canon _ _ _ (cover3_S _ _), canon_top3_S]
       rfl)
    | exact View.read_writes_eq_canon _ _ _ (cover3_S _ _)

noncomputable def outsAt3 (c : Dev nD) : (n : ℕ) → n < cfg3.N → Vec F S1x1024x16 .f32 × Vec F S1024x16 .f32
  | 0, hn => (idle3_2, sacc3 (iblk3 V c 0 ⟨0, hn⟩) (iblk3 V c 1 ⟨0, hn⟩) szero3)
  | n + 1, hn =>
    if (n + 1) % 100 = 0 then
      (idle3_2, sacc3 (iblk3 V c 0 ⟨n + 1, hn⟩) (iblk3 V c 1 ⟨n + 1, hn⟩) szero3)
    else if (n + 1) % 100 = 99 then
      (out3_2 (sacc3 (iblk3 V c 0 ⟨n + 1, hn⟩) (iblk3 V c 1 ⟨n + 1, hn⟩) (outsAt3 c n (Nat.lt_of_succ_lt hn)).2),
        sacc3 (iblk3 V c 0 ⟨n + 1, hn⟩) (iblk3 V c 1 ⟨n + 1, hn⟩) (outsAt3 c n (Nat.lt_of_succ_lt hn)).2)
    else
      (idle3_2, sacc3 (iblk3 V c 0 ⟨n + 1, hn⟩) (iblk3 V c 1 ⟨n + 1, hn⟩) (outsAt3 c n (Nat.lt_of_succ_lt hn)).2)

theorem outsAt3_A (c : Dev nD) (t : Fin cfg3.N) (h0 : t.val % 100 = 0) :
    outsAt3 V c t.val t.isLt = (idle3_2, sacc3 (iblk3 V c 0 t) (iblk3 V c 1 t) szero3) := by
  obtain ⟨n, hn⟩ := t
  cases n with
  | zero => rfl
  | succ n => exact (if_pos h0).trans rfl

theorem outsAt3_B (c : Dev nD) (t : Fin cfg3.N) (h0 : ¬t.val % 100 = 0) (h1 : ¬t.val % 100 = 99) :
    outsAt3 V c t.val t.isLt = (idle3_2, sacc3 (iblk3 V c 0 t) (iblk3 V c 1 t) (outsAt3 V c (t.val - 1) (Nat.lt_of_le_of_lt (Nat.sub_le _ _) t.isLt)).2) := by
  obtain ⟨n, hn⟩ := t
  cases n with
  | zero => exact absurd (Nat.zero_mod _) h0
  | succ n => exact (if_neg h0).trans ((if_neg h1).trans rfl)

theorem outsAt3_C (c : Dev nD) (t : Fin cfg3.N) (h1 : t.val % 100 = 99) :
    outsAt3 V c t.val t.isLt
      = (out3_2 (sacc3 (iblk3 V c 0 t) (iblk3 V c 1 t) (outsAt3 V c (t.val - 1) (Nat.lt_of_le_of_lt (Nat.sub_le _ _) t.isLt)).2),
          sacc3 (iblk3 V c 0 t) (iblk3 V c 1 t) (outsAt3 V c (t.val - 1) (Nat.lt_of_le_of_lt (Nat.sub_le _ _) t.isLt)).2) := by
  obtain ⟨n, hn⟩ := t
  cases n with
  | zero => exact absurd (show (0 : ℕ) % 100 = 99 from h1) (by decide)
  | succ n => exact (if_neg (by have : (n + 1) % 100 = 99 := h1; omega)).trans ((if_pos h1).trans rfl)

-- the three cases as one equation, over the scratch `xs` the point finds
theorem outsAt3_step (c : Dev nD) (t : Fin cfg3.N) (xs : Vec F S1024x16 .f32)
    (hxs : ∀ hz : t.val ≠ 0, xs = (outsAt3 V c (t.val - 1) (by omega)).2) :
    outsAt3 V c t.val t.isLt
      = (if t.val % 100 = 99 then out3_2 (sacc3 (iblk3 V c 0 t) (iblk3 V c 1 t) xs) else idle3_2,
          sacc3 (iblk3 V c 0 t) (iblk3 V c 1 t) (if t.val % 100 = 0 then szero3 else xs)) := by
  by_cases h0 : t.val % 100 = 0
  · rw [outsAt3_A V c t h0, if_pos h0, if_neg (by omega)]
  · obtain rfl := hxs (fun h => h0 (by rw [h]))
    by_cases h1 : t.val % 100 = 99
    · rw [outsAt3_C V c t h1, if_neg h0, if_pos h1]
    · rw [outsAt3_B V c t h0 h1, if_neg h0, if_neg h1]

noncomputable def PhiS3 (c : Dev nD) : (n : ℕ) → n ≤ cfg3.N → sProp 𝕄
  | 0, _ => Pipeline.ΦA spec3 c
  | n + 1, hn => iprop(iprop(owns (c : Thread nD τ) scM3 fullShare ((outsAt3 V c n hn).2) ∗ rest3 (F := F) c) ∗ (∃ r, prngReg c r))

-- before any point the scratch is held at some contents: what the point before left, where there is one
theorem PhiS3_open (c : Dev nD) (n : ℕ) (h : n ≤ cfg3.N) :
    PhiS3 V c n h ⊢ iprop(∃ xs, ⌜∀ hz : n ≠ 0, xs = (outsAt3 V c (n - 1) (by omega)).2⌝
      ∗ iprop(owns (c : Thread nD τ) scM3 fullShare xs ∗ rest3 (F := F) c) ∗ (∃ r, prngReg c r)) := by
  rcases n with _ | n <;> unfold PhiS3
  · rw [PhiA3_eq]
    iintro ⟨⟨⟨%d, HS⟩, HR⟩, Hg⟩
    iexists d; isplitr; · ipureintro; exact fun hz => absurd rfl hz
    iframe
  · iintro ⟨⟨HS, HR⟩, Hg⟩
    iexists (outsAt3 V c n h).2; isplitr; · ipureintro; exact fun _ => rfl
    iframe

noncomputable def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := rfl
theorem q_eq3 (c : Dev nD) (w : Fin cfg3.W) : (dat3 V c).q w = fullShare := rfl
theorem owed_eq3 (c : Dev nD) (t : Fin (cfg3.N + 1)) : (dat3 V c).owed t = 0 := rfl
theorem after3_2 (c : Dev nD) (t : Fin cfg3.N) : (dat3 V c).after 2 t = (outsAt3 V c t.val t.isLt).1 := rfl

theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d

-- the invariant lends the scratch and takes it back at the point's contents; the rest passes through unread
theorem sound_body3 (c : Dev nD) (t : Fin cfg3.N) :
    iprop(PhiS3 V c t.val (Nat.le_of_lt t.isLt) ∗ (dat3 V c).owesAt () t.castSucc
      ∗ (∃ d, owns (c : Thread nD τ) (ms3_0 t) fullShare ((dat3 V c).before 0 t d))
      ∗ (∃ d, owns (c : Thread nD τ) (ms3_1 t) fullShare ((dat3 V c).before 1 t d))
      ∗ (∃ d, owns (c : Thread nD τ) (ms3_2 t) fullShare ((dat3 V c).before 2 t d)))
    ⊢ wp frame (wpE (defs₀ (F := F)) Variants.none c none) Set.univ (bodyAt3 t) (fun _ =>
      iprop(iprop(iprop(owns (c : Thread nD τ) scM3 fullShare (outsAt3 V c t.val t.isLt).2 ∗ rest3 (F := F) c) ∗ (∃ r, prngReg c r))
        ∗ (dat3 V c).owesAt () t.castSucc
        ∗ owns (c : Thread nD τ) (ms3_0 t) fullShare (iblk3 V c 0 t)
        ∗ owns (c : Thread nD τ) (ms3_1 t) fullShare (iblk3 V c 1 t)
        ∗ (dat3 V c).leavesExact 2 t)) := by
  unfold bodyAt3
  simp only [before3_0, before3_1]
  iintro ⟨HΦ, Ho, ⟨%d0, H0⟩, ⟨%d1, H1⟩, ⟨%d2, H2⟩⟩
  ihave HX := (PhiS3_open V c _ _) $$ HΦ
  icases HX with ⟨%xs, %hxs, ⟨HS, HR⟩, Hg⟩
  rw [outsAt3_step V c t xs hxs]
  iapply (sound_kernel3 c (grid3.coords t) _ _ _ _ _ _ _ _ (hcond3_0 t) (hcond3_1 t) (fun h h' => by omega) _ _ ((dat3 V c).before 2 t d2) xs Set.univ _)
  iframe H0 H1 H2 HS
  iintro ⟨H0, H1, H2, HS⟩
  iframe HS HR Hg Ho H0 H1
  by_cases h1 : t.val % 100 = 99
  · rw [show (dat3 V c).leavesExact 2 t = owns (c : Thread nD τ) (ms3_2 t) fullShare ((dat3 V c).after 2 t) from by
      unfold Dat.leavesExact; rw [liveAt3_2 t h1], after3_2, outsAt3_step V c t xs hxs]
    simp only [if_pos h1]; iexact H2
  · rw [Dat.leavesExact_idle _ 2 t (idleAt3_2 t h1).1 (idleAt3_2 t h1).2, if_neg h1]; iexists d2; iexact H2

theorem body_obligation3 (c : Dev nD) : BodyObligation (dat3 (F := F) V c) (defs₀ (F := F)) Variants.none () Set.univ := fun t => by
  rw [bigSep_W3, bigSep_W3]
  exact sound_body3 V c t

theorem recorded_eq3 (c : Dev nD) (t : Fin (cfg3.N + 1)) : (dat3 V c).recorded t = Set.univ := rfl

theorem hin3 (c : Dev nD) : Pipeline.ΦA spec3 c ⊢ (dat3 V c).Φ 0 := Idealize.SL.BI.Entails.refl _

theorem hout3 (c : Dev nD) : (dat3 V c).Φ (Fin.last cfg3.N) ⊢ Pipeline.ΦA spec3 c := by
  refine (PhiS3_open V c _ (Nat.le_of_lt_succ (Fin.last cfg3.N).isLt)).trans ?_
  rw [PhiA3_eq]
  iintro ⟨%xs, -, ⟨HS, HR⟩, Hg⟩
  iframe HR Hg; iexists xs; iexact HS

end Cert.KernelIdeal.Gen

end
-- ==== Proof.KernelIdeal.R4.lean ====
import proofs.«430393_j3504693313561_3_alg».proof.Proof.KernelIdeal.Launch
import proofs.«430393_j3504693313561_3_alg».proof.Proof.Gen.KernelIdeal.Skeleton
import proofs.«430393_j3504693313561_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))
abbrev cond4_0 (i : grid4.Coords) : Prop := (Scalar.cmpi .ne (Scalar.extui (Scalar.cmpi .eq (BitVec.ofNat 32 (i 1).val) 0#32)) 0#32) = 1#1
theorem hcond4_0 : ∀ t : Fin cfg4.N, cond4_0 (grid4.coords t) ↔ t.val % 100 = 0 :=
  (by decide +kernel : ∀ t : Fin grid4.N, cond4_0 (grid4.coords t) ↔ t.val % 100 = 0)

abbrev cond4_1 (i : grid4.Coords) : Prop := k4_cond2 i = 1#1
-- no point is both the first and the last of its run of 100
theorem nocc4 : ∀ t : Fin cfg4.N, cond4_0 (grid4.coords t) → ¬cond4_1 (grid4.coords t) :=
  (by decide +kernel : ∀ t : Fin grid4.N, cond4_0 (grid4.coords t) → ¬cond4_1 (grid4.coords t))

theorem liveAt4_0 : ∀ t : Fin cfg4.N, cfg4.idle 0 (grid4.coords t) = false := fun _ => rfl
theorem liveAt4_1 : ∀ t : Fin cfg4.N, cfg4.idle 1 (grid4.coords t) = false := fun _ => rfl
theorem liveAt4_2 : ∀ t : Fin cfg4.N, cfg4.idle 2 (grid4.coords t) = false := fun _ => rfl
theorem idleAt4_3 : ∀ t : Fin cfg4.N, ¬cond4_1 (grid4.coords t) → cfg4.idle 3 (grid4.coords t) = true := by decide +kernel
theorem noFlush4_3 : ∀ t : Fin cfg4.N, ¬cond4_1 (grid4.coords t) → (cfg4.win 3).flush t = false := by decide +kernel
theorem liveAt4_3 : ∀ t : Fin cfg4.N, cond4_1 (grid4.coords t) → cfg4.idle 3 (grid4.coords t) = false := by decide +kernel

abbrev ms4_0 (t : Fin cfg4.N) : Memref sig .tc .vmem S1000x16 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1000x1 .i32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1024x16 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x1024x16 .f32 := win4_3.stage (cfg4.slots t 3)
abbrev hs4_3 (t : Fin cfg4.N) : (ms4_3 t).IsWhole := hstage4_3 ((cfg4.slots t 3).cast nbuf4_3)
abbrev scM4_0 : Memref sig .tc .vmem S1024x16 .f32 := Memref.whole cc4_scratch0

theorem PhiA4_eq (c : Dev nD) :
    (Pipeline.ΦA spec4 c : sProp 𝕄)
      = iprop(iprop(iprop((∃ d, owns (c : Thread nD τ) scM4_0 fullShare d))
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4_0, owns_whole]; try rfl

theorem zeros4_2 : (![0, 0] : Fin 2 → Nat) = fun _ => 0 := funext fun a => by fin_cases a <;> rfl
theorem zeros4_3 : (![0, 0, 0] : Fin 3 → Nat) = fun _ => 0 := funext fun a => by fin_cases a <;> rfl

-- a write over the whole shape, applied last, determines what is read back
theorem read_whole_store {κ : Kind} {sp : Space} {S : Shape} {e : EltTy} (v : View sig κ sp S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f (⟨Rect.unit off S.size inb, w⟩ :: L)) = w :=
  (View.read_writes_eq_canon v f _ fun y => ⟨_, List.mem_cons_self, (View.mem_set_unit_zero h inb y)⟩).trans (View.canon_cons_unit_zero h inb w L)

set_option maxHeartbeats 1000000 in
-- the body on whole memrefs: the scratch is reset where the first condition holds, updated by the inputs, and copied out where the second holds
theorem kernelRun4 (c : Dev nD) (i : grid4.Coords) (arg2 : Memref sig .tc .vmem S1000x16 .f32) (harg2 : arg2.IsWhole) (arg3 : Memref sig .tc .vmem S1000x1 .i32) (harg3 : arg3.IsWhole) (arg4 : Memref sig .tc .vmem S1024x16 .f32) (harg4 : arg4.IsWhole) (arg5 : Memref sig .tc .vmem S1x1024x16 .f32) (harg5 : arg5.IsWhole) (arg6 : Memref sig .tc .vmem S1024x16 .f32) (harg6 : arg6.IsWhole)
    (hcc : cond4_0 i → ¬cond4_1 i) (x0 : Vec F S1000x16 .f32) (x1 : Vec F S1000x1 .i32) (x2 : Vec F S1024x16 .f32) (xs : Vec F S1024x16 .f32) (x3 : Vec F S1x1024x16 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (if cond4_1 i then k4_pay3 (k4_pay2 x0 x1 x2 (if cond4_0 i then k4_pay1 else xs)) else x3)
            ∗ owns (c : Thread nD τ) arg6 fullShare (k4_pay2 x0 x1 x2 (if cond4_0 i then k4_pay1 else xs))) -∗ K ⟨⟩))
      ⊢ wp frame (wpE (defs₀ (F := F)) Variants.none c none) E (cc4_kernel i arg2 harg2 arg3 harg3 arg4 harg4 arg5 harg5 arg6 harg6) K := by
  by_cases hc0 : cond4_0 i <;> by_cases hc1 : cond4_1 i
  · exact absurd hc1 (hcc hc0)
  all_goals first | rw [if_pos hc0] | rw [if_neg hc0]
  all_goals first | rw [if_pos hc1] | rw [if_neg hc1]
  all_goals
    simp only [cc4_kernel_eq_skeleton]; unfold cc4_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    on_goal 1 => (iexists _; isplitr; swap; iexact H3; ipureintro)
    on_goal 2 => (iexists _; isplitr; swap; iexact HS; ipureintro)
    all_goals first
      | (sl_unfold_words; first | rw [read_whole_store (S := S1x1024x16) _ _ zeros4_3] | rw [read_whole_store (S := S1024x16) _ _ zeros4_2]
         simp only [View.readCov_unit_zero (S := S1024x16) _ zeros4_2, View.readAt_eq_ld, harg2.read_unread, harg3.read_unread, harg4.read_unread, harg6.read_unread,
        View.ld_unit_zero (S := S1000x16) zeros4_2, View.ld_unit_zero (S := S1000x1) zeros4_2, View.ld_unit_zero (S := S1024x16) zeros4_2])
      | exact harg5.read_unread _

noncomputable def acc4 (c : Dev nD) : (n : ℕ) → n < cfg4.N → Vec F S1024x16 .f32
  | 0, hn => k4_pay2 (iblk4 V c 0 ⟨0, hn⟩) (iblk4 V c 1 ⟨0, hn⟩) (iblk4 V c 2 ⟨0, hn⟩) (k4_pay1 (F := F))
  | n + 1, hn => k4_pay2 (iblk4 V c 0 ⟨n + 1, hn⟩) (iblk4 V c 1 ⟨n + 1, hn⟩) (iblk4 V c 2 ⟨n + 1, hn⟩)
      (if (n + 1) % 100 = 0 then (k4_pay1 (F := F)) else acc4 c n (Nat.lt_of_succ_lt hn))

theorem acc4_zero (c : Dev nD) (hn : 0 < cfg4.N) :
    acc4 V c 0 hn = k4_pay2 (iblk4 V c 0 ⟨0, hn⟩) (iblk4 V c 1 ⟨0, hn⟩) (iblk4 V c 2 ⟨0, hn⟩) (k4_pay1 (F := F)) := rfl
theorem acc4_succ (c : Dev nD) (n : ℕ) (hn : n + 1 < cfg4.N) :
    acc4 V c (n + 1) hn = k4_pay2 (iblk4 V c 0 ⟨n + 1, hn⟩) (iblk4 V c 1 ⟨n + 1, hn⟩) (iblk4 V c 2 ⟨n + 1, hn⟩)
      (if (n + 1) % 100 = 0 then (k4_pay1 (F := F)) else acc4 V c n (Nat.lt_of_succ_lt hn)) := rfl

-- one update of what the point before left (anything at the first point) is the accumulator at the point
theorem acc4_step (c : Dev nD) (t : Fin cfg4.N) (xs : Vec F S1024x16 .f32) (hxs : ∀ m h, t.val = m + 1 → xs = acc4 V c m h) :
    k4_pay2 (iblk4 V c 0 t) (iblk4 V c 1 t) (iblk4 V c 2 t) (if cond4_0 (grid4.coords t) then k4_pay1 else xs) = acc4 V c t.val t.isLt := by
  obtain ⟨n, hn⟩ := t
  cases n with
  | zero => rw [if_pos ((hcond4_0 ⟨0, hn⟩).mpr (Nat.zero_mod _))]; rfl
  | succ n =>
    show _ = acc4 V c (n + 1) hn
    rw [acc4_succ]
    by_cases h0 : (n + 1) % 100 = 0
    · rw [if_pos h0, if_pos ((hcond4_0 ⟨n + 1, hn⟩).mpr h0)]
    · rw [if_neg h0, if_neg (fun h => h0 ((hcond4_0 ⟨n + 1, hn⟩).mp h)), hxs n (Nat.lt_of_succ_lt hn) rfl]

noncomputable def outsAt4 (c : Dev nD) (n : ℕ) (hn : n < cfg4.N) : Vec F S1x1024x16 .f32 × Vec F S1024x16 .f32 :=
  (k4_pay3 (acc4 V c n hn), acc4 V c n hn)

-- before position n the scratch holds the accumulator of the point before; before the first, anything
noncomputable def PhiS4 (c : Dev nD) (n : ℕ) : sProp 𝕄 :=
  iprop(iprop(iprop(∃ xs : Vec F S1024x16 .f32, ⌜∀ m h, n = m + 1 → xs = acc4 V c m h⌝ ∗ owns (c : Thread nD τ) scM4_0 fullShare xs)
      ∗ Pipeline.scopedRestBut (Ix := Unit) (Name := ℕ) (U := UR sig nD τ) (Lvl := ℕ) (Val := Elt F) spec4 c [cc4_scratch0]) ∗ (∃ r, prngReg c r))

noncomputable def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => (outsAt4 V c t.val t.isLt).1
  Φ t := PhiS4 V c t.val
  q _ := fullShare
  owed _ := 0

theorem A_eq4 (c : Dev nD) (w : Fin cfg4.W) : (dat4 V c).A w = V c (Pipeline.arrRef spec4 w) := by
  dsimp only [dat4]
theorem q_eq4 (c : Dev nD) (w : Fin cfg4.W) : (dat4 V c).q w = fullShare := by
  dsimp only [dat4]
theorem owed_eq4 (c : Dev nD) (t : Fin (cfg4.N + 1)) : (dat4 V c).owed t = 0 := by
  dsimp only [dat4]
theorem recorded_eq4 (c : Dev nD) (t : Fin (cfg4.N + 1)) : (dat4 V c).recorded t = Set.univ := rfl

theorem PhiS4_castSucc (c : Dev nD) (t : Fin cfg4.N) :
    (dat4 V c).Φ t.castSucc = PhiS4 V c t.val := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = (outsAt4 V c t.val t.isLt).1 := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl) (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl) (fun t => by rw [after4_1]; unfold Dat.blockOf iblk4; rw [A_eq4]; try rfl) t d).trans
    (by unfold Dat.fetched Dat.blockOf iblk4; rw [A_eq4]; try rfl)
theorem before4_2 (c : Dev nD) (t : Fin cfg4.N) (d) : (dat4 V c).before 2 t d = iblk4 V c 2 t :=
  ((dat4 V c).before_in_eq_fetched 2 rfl (fun _ => rfl) (fun _ _ _ => rfl) (fun t => by rw [after4_2]; unfold Dat.blockOf iblk4; rw [A_eq4]; try rfl) t d).trans
    (by unfold Dat.fetched Dat.blockOf iblk4; rw [A_eq4]; try rfl)

-- the output window after the body: its block where the second condition holds, else what it held, handed back
theorem leaves4_3 (c : Dev nD) (t : Fin cfg4.N) (d) :
    owns (c : Thread nD τ) (ms4_3 t) fullShare (if cond4_1 (grid4.coords t) then k4_pay3 (acc4 V c t.val t.isLt) else (dat4 V c).before 3 t d) ⊢ (dat4 V c).leavesExact 3 t := by
  by_cases h1 : cond4_1 (grid4.coords t)
  · rw [if_pos h1, show (dat4 V c).leavesExact 3 t = owns (c : Thread nD τ) (ms4_3 t) fullShare ((dat4 V c).after 3 t) from by
      unfold Dat.leavesExact; rw [liveAt4_3 t h1], after4_3]
    exact Idealize.SL.BI.Entails.refl _
  · rw [if_neg h1, Dat.leavesExact_idle (dat4 V c) 3 t (idleAt4_3 t h1) (noFlush4_3 t h1)]
    iintro H; iexists d; iexact H

noncomputable def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

noncomputable def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl,
    show (dat4 V c).Φ t.succ = PhiS4 V c (t.val + 1) from rfl, PhiS4_castSucc,
    show (dat4 V c).leavesExact 0 t = owns (c : Thread nD τ) (ms4_0 t) fullShare (iblk4 V c 0 t) from by unfold Dat.leavesExact; rw [liveAt4_0 t, after4_0],
    show (dat4 V c).leavesExact 1 t = owns (c : Thread nD τ) (ms4_1 t) fullShare (iblk4 V c 1 t) from by unfold Dat.leavesExact; rw [liveAt4_1 t, after4_1],
    show (dat4 V c).leavesExact 2 t = owns (c : Thread nD τ) (ms4_2 t) fullShare (iblk4 V c 2 t) from by unfold Dat.leavesExact; rw [liveAt4_2 t, after4_2]]
  unfold PhiS4
  iintro ⟨⟨⟨⟨%xs, %hxs, HS⟩, HR⟩, Hg⟩, Ho, ⟨%d0, H0⟩, ⟨%d1, H1⟩, ⟨%d2, H2⟩, ⟨%d3, H3⟩⟩
  have run := fun K => kernelRun4 c (grid4.coords t) (ms4_0 t) (hs4_0 t) (ms4_1 t) (hs4_1 t) (ms4_2 t) (hs4_2 t) (ms4_3 t) (hs4_3 t) scM4_0 (Memref.isWhole_whole _)
    (nocc4 t) (iblk4 V c 0 t) (iblk4 V c 1 t) (iblk4 V c 2 t) xs ((dat4 V c).before 3 t d3) Set.univ K
  rw [acc4_step V c t xs hxs] at run
  iapply (run _)
  isplitl [H0]; · iexact H0
  isplitl [H1]; · iexact H1
  isplitl [H2]; · iexact H2
  isplitl [H3]; · iexact H3
  isplitl [HS]; · iexact HS
  iintro ⟨H0, H1, H2, H3, HS⟩
  isplitl [HS HR Hg]
  · isplitl [HS HR]
    · isplitl [HS]
      · iexists _; isplitr; swap; · iexact HS
        ipureintro; exact fun m h e => by obtain rfl := Nat.add_right_cancel e; rfl
      iexact HR
    iexact Hg
  isplitl [Ho]; · iexact Ho
  isplitl [H0]; · iexact H0
  isplitl [H1]; · iexact H1
  isplitl [H2]; · iexact H2
  iapply (leaves4_3 V c t d3); iexact H3

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := by
  rw [show (dat4 V c).Φ 0 = PhiS4 V c 0 from rfl, PhiA4_eq]; unfold PhiS4
  iintro ⟨⟨⟨%d, HS⟩, HR⟩, Hg⟩
  isplitl [HS HR]
  · isplitl [HS]
    · iexists d; isplitr; · ipureintro; exact fun m h e => by omega
      iexact HS
    iexact HR
  iexact Hg

theorem hout4 (c : Dev nD) : (dat4 V c).Φ (Fin.last cfg4.N) ⊢ Pipeline.ΦA spec4 c := by
  rw [show (dat4 V c).Φ (Fin.last cfg4.N) = PhiS4 V c (Fin.last cfg4.N).val from rfl, PhiA4_eq]; unfold PhiS4
  iintro ⟨⟨⟨%xs, -, HS⟩, HR⟩, Hg⟩
  isplitl [HS HR]
  · isplitl [HS]
    · iexists _; iexact HS
    iexact HR
  iexact Hg

end Cert.KernelIdeal.Gen

end
-- ==== Proof.KernelIdeal.R5.lean ====
import proofs.«430393_j3504693313561_3_alg».proof.Proof.KernelIdeal.Launch
import proofs.«430393_j3504693313561_3_alg».proof.Proof.Gen.KernelIdeal.Skeleton
import proofs.«430393_j3504693313561_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 : Rect S1024x16 := Rect.unit (s := S1024x16) ![0, 0] S1024x16.size inb_S1024x16_S1024x16_0_0
abbrev r5_1 : Rect S16x16 := Rect.unit (s := S16x16) ![0, 0] S16x16.size inb_S16x16_S16x16_0_0
abbrev r5_2 : Rect S16 := Rect.unit (s := S16) ![0] S16.size inb_S16_S16_0
abbrev r5_3 : Rect S16x1 := Rect.unit (s := S16x1) ![0, 0] S16x1.size inb_S16x1_S16x1_0_0
abbrev r5_4 : Rect S1 := Rect.unit (s := S1) ![0] S1.size inb_S1_S1_0
abbrev r5_5 : Rect S1024x1 := Rect.unit (s := S1024x1) ![0, 0] S1024x1.size inb_S1024x1_S1024x1_0_0

noncomputable def out5_7 (x0 : Vec F S1024x16 .f32) (x1 : Vec F S16x16 .f32) (x2 : Vec F S16 .f32) (x3 : Vec F S16x16 .f32) (x4 : Vec F S16 .f32) (x5 : Vec F S16x1 .f32) (x6 : Vec F S1 .f32) : Vec F S1024x1 .f32 :=
  View.canon [⟨r5_5, k5_pay1 (View.ld x0 r5_0) (View.ld x1 r5_1) (View.ld x2 r5_2) (View.ld x3 r5_1) (View.ld x4 r5_2) (View.ld x5 r5_3) (View.ld x6 r5_4)⟩]

theorem sound_kernel5 (c : Dev nD) (E : Set ℕ) (i : grid5.Coords) (arg0 : Memref sig .tc .vmem S1024x16 .f32) (harg0 : arg0.IsWhole) (arg1 : Memref sig .tc .vmem S16x16 .f32) (harg1 : arg1.IsWhole) (arg2 : Memref sig .tc .vmem S16 .f32) (harg2 : arg2.IsWhole) (arg3 : Memref sig .tc .vmem S16x16 .f32) (harg3 : arg3.IsWhole) (arg4 : Memref sig .tc .vmem S16 .f32) (harg4 : arg4.IsWhole) (arg5 : Memref sig .tc .vmem S16x1 .f32) (harg5 : arg5.IsWhole) (arg6 : Memref sig .tc .vmem S1 .f32) (harg6 : arg6.IsWhole) (arg7 : Memref sig .tc .vmem S1024x1 .f32) (harg7 : arg7.IsWhole)
    (x0 : Vec F S1024x16 .f32) (x1 : Vec F S16x16 .f32) (x2 : Vec F S16 .f32) (x3 : Vec F S16x16 .f32) (x4 : Vec F S16 .f32) (x5 : Vec F S16x1 .f32) (x6 : Vec F S1 .f32) (K : PUnit → sProp 𝕄) :
    iprop(owns c arg0 fullShare x0 ∗ owns c arg1 fullShare x1 ∗ owns c arg2 fullShare x2 ∗ owns c arg3 fullShare x3 ∗ owns c arg4 fullShare x4 ∗ owns c arg5 fullShare x5 ∗ owns c arg6 fullShare x6 ∗ (∃ d, owns c arg7 fullShare d)
        ∗ (iprop(owns c arg0 fullShare x0 ∗ owns c arg1 fullShare x1 ∗ owns c arg2 fullShare x2 ∗ owns c arg3 fullShare x3 ∗ owns c arg4 fullShare x4 ∗ owns c arg5 fullShare x5 ∗ owns c arg6 fullShare x6 ∗ owns c arg7 fullShare (out5_7 x0 x1 x2 x3 x4 x5 x6)) -∗ K ⟨⟩))
      ⊢ wp frame (wpE (defs₀ (F := F)) Variants.none c none) E (cc5_kernel i arg0 harg0 arg1 harg1 arg2 harg2 arg3 harg3 arg4 harg4 arg5 harg5 arg6 harg6 arg7 harg7) K := by
  simp only [cc5_kernel_eq_skeleton]; unfold cc5_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, %hd7, H7⟩, Hk⟩
  subst hf0 hf1 hf2 hf3 hf4 hf5 hf6 hd7
  sl_exec
  sl_step
  iapply Hk
  isplitl [H0]; · iexists _; iframe; ipureintro; rfl
  isplitl [H1]; · iexists _; iframe; ipureintro; rfl
  isplitl [H2]; · iexists _; iframe; ipureintro; rfl
  isplitl [H3]; · iexists _; iframe; ipureintro; rfl
  isplitl [H4]; · iexists _; iframe; ipureintro; rfl
  isplitl [H5]; · iexists _; iframe; ipureintro; rfl
  isplitl [H6]; · iexists _; iframe; ipureintro; rfl
  iexists _; iframe; ipureintro
  exact View.read_writes_eq_canon _ _ _ (View.cover_of_tiled _ S1024x1.size (by rfl))

noncomputable def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => out5_7 (iblk5 V c 0 t) (iblk5 V c 1 t) (iblk5 V c 2 t) (iblk5 V c 3 t) (iblk5 V c 4 t) (iblk5 V c 5 t) (iblk5 V c 6 t)
  Φ _ := Pipeline.ΦA spec5 c
  q _ := fullShare
  owed _ := 0

theorem A_eq5 (c : Dev nD) (w : Fin cfg5.W) : (dat5 V c).A w = V c (Pipeline.arrRef spec5 w) := rfl

theorem q_eq5 (c : Dev nD) (w : Fin cfg5.W) : (dat5 V c).q w = fullShare := rfl

theorem owed_eq5 (c : Dev nD) (t : Fin (cfg5.N + 1)) : (dat5 V c).owed t = 0 := rfl

theorem after5_7 (c : Dev nD) (t : Fin cfg5.N) : (dat5 V c).after 7 t = out5_7 (iblk5 V c 0 t) (iblk5 V c 1 t) (iblk5 V c 2 t) (iblk5 V c 3 t) (iblk5 V c 4 t) (iblk5 V c 5 t) (iblk5 V c 6 t) := by dsimp only [dat5]

theorem hin5 (c : Dev nD) : Pipeline.ΦA spec5 c ⊢ (dat5 V c).Φ 0 := BI.Entails.refl _
theorem hout5 (c : Dev nD) : (dat5 V c).Φ (Fin.last cfg5.N) ⊢ Pipeline.ΦA spec5 c := BI.Entails.refl _

-- The body writes to no input window.
theorem before5_in (c : Dev nD) (w : Fin 8) (hw : w ≠ 7) (t : Fin cfg5.N) (d) :
    (dat5 V c).before w t d = (dat5 V c).after w t := by
  fin_cases w <;> first
    | exact absurd rfl hw
    | exact ((dat5 V c).before_in_eq_fetched _ rfl (fun _ => rfl) (fun _ _ _ => rfl) (fun _ => rfl) t d).trans rfl

-- The body's triple, with the rest of the state framed around it.
theorem body_obligation5 (c : Dev nD) : BodyObligation (dat5 (F := F) V c) (defs₀ (F := F)) Variants.none () Set.univ := fun t => by
  rw [bigSep_W5, bigSep_W5]
  change _ ⊢ wp _ _ _ (bodyAt5 t) _
  unfold bodyAt5
  refine BIClass.entails_trans ?_ (sound_kernel5 c Set.univ _ _ _ _ _ _ _ _ _ _ _ _ _ _ _ _ _ (iblk5 V c 0 t) (iblk5 V c 1 t) (iblk5 V c 2 t) (iblk5 V c 3 t) (iblk5 V c 4 t) (iblk5 V c 5 t) (iblk5 V c 6 t) _)
  simp (disch := decide) only [before5_in, show ∀ w i, cfg5.idle w i = false from fun _ _ => rfl,
    show (dat5 V c).owesAt () t.succ = (dat5 V c).owesAt () t.castSucc from rfl]
  dsimp only [dat5]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iframe H0 H1 H2 H3 H4 H5 H6
  isplitl [H7]; · iexists _; iexact H7
  iintro ⟨H0, H1, H2, H3, H4, H5, H6, H7⟩
  iframe

theorem recorded_eq5 (c : Dev nD) (t : Fin (cfg5.N + 1)) : (dat5 V c).recorded t = Set.univ := rfl

end Cert.KernelIdeal.Gen
end
-- ==== Proof.KernelIdeal.Run.lean ====
import proofs.«430393_j3504693313561_3_alg».proof.Proof.KernelIdeal.Launch
import proofs.«430393_j3504693313561_3_alg».proof.Proof.KernelIdeal.HostWrites
import proofs.«430393_j3504693313561_3_alg».proof.Proof.KernelIdeal.R0
import proofs.«430393_j3504693313561_3_alg».proof.Proof.KernelIdeal.R1
import proofs.«430393_j3504693313561_3_alg».proof.Proof.KernelIdeal.R2
import proofs.«430393_j3504693313561_3_alg».proof.Proof.KernelIdeal.R3
import proofs.«430393_j3504693313561_3_alg».proof.Proof.KernelIdeal.R4
import proofs.«430393_j3504693313561_3_alg».proof.Proof.KernelIdeal.R5
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev adm : (p : Fin 6) → (pcfgs (F := F) p).Adm := fun p => (cfgs p).toPCfg_adm

-- The buffers' contents at each boundary of the program, folded from the launch memory: W(2K) before region K's host
-- stretch, W(2K+1) at its entry, W(2K+2) at its exit.
abbrev W0 : Dev nD → Valuation τ sig (Elt F) := fun c b => (s₀ m ρ).mem ((c : Dev nD), b)

abbrev W1 : Dev nD → Valuation τ sig (Elt F) := fun c => StableHlo.after hostOps0 (W0 m ρ c)
abbrev VT1 : (c : Dev nD) → (b : Ref sig .tc) → Buf (Elt F) ((c : Thread nD τ).loc b) := fun c b => W1 m ρ c b
theorem W1_keep (c : Dev nD) (r : Ref sig .tc) (h : r ∉ hostOps0_W) :
    W1 m ρ c (Proc.devRef .tc r) = W0 m ρ c (Proc.devRef .tc r) :=
  StableHlo.after_of_writes_sub hostOps0 _ hostOps_writes.1 h
noncomputable def W2 (c : Dev nD) : Valuation τ sig (Elt F) :=
  Pipeline.withArrays spec0 c (W1 m ρ c) fun w => (dat0 (VT1 m ρ) c).arrAt w cfg0.N
theorem W2_arr (c : Dev nD) (w : Fin cfg0.W) :
    W2 m ρ c (Proc.devRef .tc (Pipeline.arrRef spec0 w)) = (dat0 (VT1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev VT2 : (c : Dev nD) → (b : Ref sig .tc) → Buf (Elt F) ((c : Thread nD τ).loc b) := fun c b => W2 m ρ c b
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (VT1 m ρ) c).arrAt_in w hin _).trans (A_eq0 (VT1 m ρ) c w))
theorem W2_same (c : Dev nD) (a : Ref sig .tc) (hw : a ∉ hostOps0_W)
    (g : ∀ w, Pipeline.arrRef spec0 w = a → (cfg0.win w).isOut = false) :
    W2 m ρ c (Proc.devRef .tc a) = W0 m ρ c (Proc.devRef .tc a) := by
  refine Eq.trans ?_ (W1_keep m ρ c a hw)
  by_cases h : ∃ w, Pipeline.arrRef spec0 w = a
  · obtain ⟨w, rfl⟩ := h; exact W2_in m ρ c w (g w rfl)
  · exact W2_of_ne m ρ c a fun w e => h ⟨w, e⟩

abbrev W3 : Dev nD → Valuation τ sig (Elt F) := fun c => StableHlo.after hostOps1 (W2 m ρ c)
abbrev VT3 : (c : Dev nD) → (b : Ref sig .tc) → Buf (Elt F) ((c : Thread nD τ).loc b) := fun c b => W3 m ρ c b
theorem W3_keep (c : Dev nD) (r : Ref sig .tc) (h : r ∉ hostOps1_W) :
    W3 m ρ c (Proc.devRef .tc r) = W2 m ρ c (Proc.devRef .tc r) :=
  StableHlo.after_of_writes_sub hostOps1 _ hostOps_writes.2.1 h
noncomputable def W4 (c : Dev nD) : Valuation τ sig (Elt F) :=
  Pipeline.withArrays spec1 c (W3 m ρ c) fun w => (dat1 (VT3 m ρ) c).arrAt w cfg1.N
theorem W4_arr (c : Dev nD) (w : Fin cfg1.W) :
    W4 m ρ c (Proc.devRef .tc (Pipeline.arrRef spec1 w)) = (dat1 (VT3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev VT4 : (c : Dev nD) → (b : Ref sig .tc) → Buf (Elt F) ((c : Thread nD τ).loc b) := fun c b => W4 m ρ c b
theorem W4_in (c : Dev nD) (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((dat1 (VT3 m ρ) c).arrAt_in w hin _).trans (A_eq1 (VT3 m ρ) c w))
theorem W4_same (c : Dev nD) (a : Ref sig .tc) (hw : a ∉ hostOps1_W)
    (g : ∀ w, Pipeline.arrRef spec1 w = a → (cfg1.win w).isOut = false) :
    W4 m ρ c (Proc.devRef .tc a) = W2 m ρ c (Proc.devRef .tc a) := by
  refine Eq.trans ?_ (W3_keep m ρ c a hw)
  by_cases h : ∃ w, Pipeline.arrRef spec1 w = a
  · obtain ⟨w, rfl⟩ := h; exact W4_in m ρ c w (g w rfl)
  · exact W4_of_ne m ρ c a fun w e => h ⟨w, e⟩

abbrev W5 : Dev nD → Valuation τ sig (Elt F) := fun c => StableHlo.after hostOps2 (W4 m ρ c)
abbrev VT5 : (c : Dev nD) → (b : Ref sig .tc) → Buf (Elt F) ((c : Thread nD τ).loc b) := fun c b => W5 m ρ c b
theorem W5_keep (c : Dev nD) (r : Ref sig .tc) (h : r ∉ hostOps2_W) :
    W5 m ρ c (Proc.devRef .tc r) = W4 m ρ c (Proc.devRef .tc r) :=
  StableHlo.after_of_writes_sub hostOps2 _ hostOps_writes.2.2.1 h
noncomputable def W6 (c : Dev nD) : Valuation τ sig (Elt F) :=
  Pipeline.withArrays spec2 c (W5 m ρ c) fun w => (dat2 (VT5 m ρ) c).arrAt w cfg2.N
theorem W6_arr (c : Dev nD) (w : Fin cfg2.W) :
    W6 m ρ c (Proc.devRef .tc (Pipeline.arrRef spec2 w)) = (dat2 (VT5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev VT6 : (c : Dev nD) → (b : Ref sig .tc) → Buf (Elt F) ((c : Thread nD τ).loc b) := fun c b => W6 m ρ c b
theorem W6_in (c : Dev nD) (w : Fin cfg2.W) (hin : (cfg2.win w).isOut = false) :
    W6 m ρ c (Proc.devRef .tc (Pipeline.arrRef spec2 w)) = W5 m ρ c (Proc.devRef .tc (Pipeline.arrRef spec2 w)) :=
  (W6_arr m ρ c w).trans (((dat2 (VT5 m ρ) c).arrAt_in w hin _).trans (A_eq2 (VT5 m ρ) c w))
theorem W6_same (c : Dev nD) (a : Ref sig .tc) (hw : a ∉ hostOps2_W)
    (g : ∀ w, Pipeline.arrRef spec2 w = a → (cfg2.win w).isOut = false) :
    W6 m ρ c (Proc.devRef .tc a) = W4 m ρ c (Proc.devRef .tc a) := by
  refine Eq.trans ?_ (W5_keep m ρ c a hw)
  by_cases h : ∃ w, Pipeline.arrRef spec2 w = a
  · obtain ⟨w, rfl⟩ := h; exact W6_in m ρ c w (g w rfl)
  · exact W6_of_ne m ρ c a fun w e => h ⟨w, e⟩

abbrev W7 : Dev nD → Valuation τ sig (Elt F) := fun c => StableHlo.after hostOps3 (W6 m ρ c)
abbrev VT7 : (c : Dev nD) → (b : Ref sig .tc) → Buf (Elt F) ((c : Thread nD τ).loc b) := fun c b => W7 m ρ c b
theorem W7_keep (c : Dev nD) (r : Ref sig .tc) (h : r ∉ hostOps3_W) :
    W7 m ρ c (Proc.devRef .tc r) = W6 m ρ c (Proc.devRef .tc r) :=
  StableHlo.after_of_writes_sub hostOps3 _ hostOps_writes.2.2.2.1 h
noncomputable def W8 (c : Dev nD) : Valuation τ sig (Elt F) :=
  Pipeline.withArrays spec3 c (W7 m ρ c) fun w => (dat3 (VT7 m ρ) c).arrAt w cfg3.N
theorem W8_arr (c : Dev nD) (w : Fin cfg3.W) :
    W8 m ρ c (Proc.devRef .tc (Pipeline.arrRef spec3 w)) = (dat3 (VT7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev VT8 : (c : Dev nD) → (b : Ref sig .tc) → Buf (Elt F) ((c : Thread nD τ).loc b) := fun c b => W8 m ρ c b
theorem W8_in (c : Dev nD) (w : Fin cfg3.W) (hin : (cfg3.win w).isOut = false) :
    W8 m ρ c (Proc.devRef .tc (Pipeline.arrRef spec3 w)) = W7 m ρ c (Proc.devRef .tc (Pipeline.arrRef spec3 w)) :=
  (W8_arr m ρ c w).trans (((dat3 (VT7 m ρ) c).arrAt_in w hin _).trans (A_eq3 (VT7 m ρ) c w))
theorem W8_same (c : Dev nD) (a : Ref sig .tc) (hw : a ∉ hostOps3_W)
    (g : ∀ w, Pipeline.arrRef spec3 w = a → (cfg3.win w).isOut = false) :
    W8 m ρ c (Proc.devRef .tc a) = W6 m ρ c (Proc.devRef .tc a) := by
  refine Eq.trans ?_ (W7_keep m ρ c a hw)
  by_cases h : ∃ w, Pipeline.arrRef spec3 w = a
  · obtain ⟨w, rfl⟩ := h; exact W8_in m ρ c w (g w rfl)
  · exact W8_of_ne m ρ c a fun w e => h ⟨w, e⟩

abbrev W9 : Dev nD → Valuation τ sig (Elt F) := fun c => StableHlo.after hostOps4 (W8 m ρ c)
abbrev VT9 : (c : Dev nD) → (b : Ref sig .tc) → Buf (Elt F) ((c : Thread nD τ).loc b) := fun c b => W9 m ρ c b
theorem W9_keep (c : Dev nD) (r : Ref sig .tc) (h : r ∉ hostOps4_W) :
    W9 m ρ c (Proc.devRef .tc r) = W8 m ρ c (Proc.devRef .tc r) :=
  StableHlo.after_of_writes_sub hostOps4 _ hostOps_writes.2.2.2.2.1 h
noncomputable def W10 (c : Dev nD) : Valuation τ sig (Elt F) :=
  Pipeline.withArrays spec4 c (W9 m ρ c) fun w => (dat4 (VT9 m ρ) c).arrAt w cfg4.N
theorem W10_arr (c : Dev nD) (w : Fin cfg4.W) :
    W10 m ρ c (Proc.devRef .tc (Pipeline.arrRef spec4 w)) = (dat4 (VT9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev VT10 : (c : Dev nD) → (b : Ref sig .tc) → Buf (Elt F) ((c : Thread nD τ).loc b) := fun c b => W10 m ρ c b
theorem W10_in (c : Dev nD) (w : Fin cfg4.W) (hin : (cfg4.win w).isOut = false) :
    W10 m ρ c (Proc.devRef .tc (Pipeline.arrRef spec4 w)) = W9 m ρ c (Proc.devRef .tc (Pipeline.arrRef spec4 w)) :=
  (W10_arr m ρ c w).trans (((dat4 (VT9 m ρ) c).arrAt_in w hin _).trans (A_eq4 (VT9 m ρ) c w))
theorem W10_same (c : Dev nD) (a : Ref sig .tc) (hw : a ∉ hostOps4_W)
    (g : ∀ w, Pipeline.arrRef spec4 w = a → (cfg4.win w).isOut = false) :
    W10 m ρ c (Proc.devRef .tc a) = W8 m ρ c (Proc.devRef .tc a) := by
  refine Eq.trans ?_ (W9_keep m ρ c a hw)
  by_cases h : ∃ w, Pipeline.arrRef spec4 w = a
  · obtain ⟨w, rfl⟩ := h; exact W10_in m ρ c w (g w rfl)
  · exact W10_of_ne m ρ c a fun w e => h ⟨w, e⟩

abbrev W11 : Dev nD → Valuation τ sig (Elt F) := fun c => StableHlo.after hostOps5 (W10 m ρ c)
abbrev VT11 : (c : Dev nD) → (b : Ref sig .tc) → Buf (Elt F) ((c : Thread nD τ).loc b) := fun c b => W11 m ρ c b
theorem W11_keep (c : Dev nD) (r : Ref sig .tc) (h : r ∉ hostOps5_W) :
    W11 m ρ c (Proc.devRef .tc r) = W10 m ρ c (Proc.devRef .tc r) :=
  StableHlo.after_of_writes_sub hostOps5 _ hostOps_writes.2.2.2.2.2 h
noncomputable def W12 (c : Dev nD) : Valuation τ sig (Elt F) :=
  Pipeline.withArrays spec5 c (W11 m ρ c) fun w => (dat5 (VT11 m ρ) c).arrAt w cfg5.N
theorem W12_arr (c : Dev nD) (w : Fin cfg5.W) :
    W12 m ρ c (Proc.devRef .tc (Pipeline.arrRef spec5 w)) = (dat5 (VT11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
abbrev VT12 : (c : Dev nD) → (b : Ref sig .tc) → Buf (Elt F) ((c : Thread nD τ).loc b) := fun c b => W12 m ρ c b
theorem W12_in (c : Dev nD) (w : Fin cfg5.W) (hin : (cfg5.win w).isOut = false) :
    W12 m ρ c (Proc.devRef .tc (Pipeline.arrRef spec5 w)) = W11 m ρ c (Proc.devRef .tc (Pipeline.arrRef spec5 w)) :=
  (W12_arr m ρ c w).trans (((dat5 (VT11 m ρ) c).arrAt_in w hin _).trans (A_eq5 (VT11 m ρ) c w))
theorem W12_same (c : Dev nD) (a : Ref sig .tc) (hw : a ∉ hostOps5_W)
    (g : ∀ w, Pipeline.arrRef spec5 w = a → (cfg5.win w).isOut = false) :
    W12 m ρ c (Proc.devRef .tc a) = W10 m ρ c (Proc.devRef .tc a) := by
  refine Eq.trans ?_ (W11_keep m ρ c a hw)
  by_cases h : ∃ w, Pipeline.arrRef spec5 w = a
  · obtain ⟨w, rfl⟩ := h; exact W12_in m ρ c w (g w rfl)
  · exact W12_of_ne m ρ c a fun w e => h ⟨w, e⟩

-- A reference no host stretch writes and every region at most reads.
abbrev Kept (a : Ref sig .tc) : Prop :=
  ¬ (Proc.devRef .tc a : DevRef τ sig).isScoped ∧
  (a ∉ hostOps0_W ∧ ∀ w, Pipeline.arrRef spec0 w = a → (cfg0.win w).isOut = false) ∧
  (a ∉ hostOps1_W ∧ ∀ w, Pipeline.arrRef spec1 w = a → (cfg1.win w).isOut = false) ∧
  (a ∉ hostOps2_W ∧ ∀ w, Pipeline.arrRef spec2 w = a → (cfg2.win w).isOut = false) ∧
  (a ∉ hostOps3_W ∧ ∀ w, Pipeline.arrRef spec3 w = a → (cfg3.win w).isOut = false) ∧
  (a ∉ hostOps4_W ∧ ∀ w, Pipeline.arrRef spec4 w = a → (cfg4.win w).isOut = false) ∧
  (a ∉ hostOps5_W ∧ ∀ w, Pipeline.arrRef spec5 w = a → (cfg5.win w).isOut = false)

theorem W12_kept (c : Dev nD) (a : Ref sig .tc) (h : Kept a) :
    W12 m ρ c (Proc.devRef .tc a) = m ((c : Thread nD τ).loc a) := by
  obtain ⟨-, ⟨h0, g0⟩, ⟨h1, g1⟩, ⟨h2, g2⟩, ⟨h3, g3⟩, ⟨h4, g4⟩, h5, g5⟩ := h
  exact (W12_same m ρ c a h5 g5).trans <| (W10_same m ρ c a h4 g4).trans <| (W8_same m ρ c a h3 g3).trans <|
    (W6_same m ρ c a h2 g2).trans <| (W4_same m ρ c a h1 g1).trans <| W2_same m ρ c a h0 g0

noncomputable def pdats : (p : Fin 6) → (c : Dev nD) → Dat τ (Elt F) Unit ℕ (UR sig nD τ) ℕ (Pipeline.pin (pcfgs (F := F)) adm p) c
  | ⟨0, _⟩ => fun c => dat0 (VT1 m ρ) c
  | ⟨1, _⟩ => fun c => dat1 (VT3 m ρ) c
  | ⟨2, _⟩ => fun c => dat2 (VT5 m ρ) c
  | ⟨3, _⟩ => fun c => dat3 (VT7 m ρ) c
  | ⟨4, _⟩ => fun c => dat4 (VT9 m ρ) c
  | ⟨5, _⟩ => fun c => dat5 (VT11 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W12 m ρ c) ∗ ∃ r, prngReg c r)

set_option backward.isDefEq.respectTransparency.types false in
-- A region as a segment: entered with every buffer at Wi and left with them at Wo. Its arrays are split out of the
-- buffers at entry and put back at their final contents at exit; every other buffer passes through unread.
noncomputable def mkReg (p : Fin 6) (lf : Pipeline.LaunchFacts (nD := nD) (τ := τ) cfgs p) (Wi Wo : Dev nD → Valuation τ sig (Elt F))
    (hbody : ∀ c, BodyObligation (pdats m ρ p c) (defs₀ (F := F)) Variants.none () Set.univ)
    (hA : ∀ c w, (pdats m ρ p c).A w = Wi c (Proc.devRef .tc (Pipeline.arrRef (Pipeline.pin (pcfgs (F := F)) adm p).spec w)))
    (hq : ∀ c w, (pdats m ρ p c).q w = fullShare)
    (howed : ∀ c t, (pdats m ρ p c).owed t = 0)
    (hrec : ∀ c t, (pdats m ρ p c).recorded t = Set.univ)
    (hΦi : ∀ c, Pipeline.ΦA (Pipeline.pin (pcfgs (F := F)) adm p).spec c ⊢ (pdats m ρ p c).Φ 0)
    (hΦo : ∀ c, (pdats m ρ p c).Φ (Fin.last (Pipeline.pin (pcfgs (F := F)) adm p).N) ⊢ Pipeline.ΦA (Pipeline.pin (pcfgs (F := F)) adm p).spec c)
    (hF : ∀ c w, (pdats m ρ p c).arrAt w (Pipeline.pin (pcfgs (F := F)) adm p).N = Wo c (Proc.devRef .tc (Pipeline.arrRef (Pipeline.pin (pcfgs (F := F)) adm p).spec w)))
    (hrest : ∀ c (b : Ref sig .tc), b ∉ Finset.univ.image (Pipeline.arrRef (Pipeline.pin (pcfgs (F := F)) adm p).spec) →
      Wo c (Proc.devRef .tc b) = Wi c (Proc.devRef .tc b)) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c (fun b => Wi c b)
  hentry c := by
    rw [Pipeline.ownSems0_none]
    have hsplit := Pipeline.arrays_of_unscopedBufs (p := p) (pcfgs (F := F)) adm (pdats m ρ) lf.win lf.arr_whole c
      ((pdats m ρ p c).share_full (hq c)) (fun b => Wi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c]
      icases HO with ⟨%W, HO⟩; iexists W; isplitr
      · ipureintro; rw [Pipeline.Dat.bound, hrec c]; exact fun _ _ => Or.inl trivial
      iexact HO
    isplitl [Hp]; · iexact Hp
    iexact Hrest
  hin c := by
    refine BIBase.Entails.trans ?_ (hΦi c)
    unfold Pipeline.ΦA
    iintro ⟨Hp, -, Hr⟩
    isplitl [Hr]; · iexact Hr
    iexact Hp
  hout c := by
    refine BIBase.Entails.trans (hΦo c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c))
      (fun b => Wi c b) (fun b => Wo c b) ((pdats m ρ p c).arrAt · (Pipeline.pin (pcfgs (F := F)) adm p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO

noncomputable def reg0 := mkReg m ρ 0 launch0 (W1 m ρ) (W2 m ρ) (body_obligation0 (VT1 m ρ)) (A_eq0 (VT1 m ρ))
  (q_eq0 (VT1 m ρ)) (owed_eq0 (VT1 m ρ)) (recorded_eq0 (VT1 m ρ)) (hin0 (VT1 m ρ)) (hout0 (VT1 m ρ))
  (fun c w => (W2_arr m ρ c w).symm)
  (fun c b hb => W2_of_ne m ρ c b fun w e => hb (Finset.mem_image.mpr ⟨w, Finset.mem_univ _, e⟩))
noncomputable def reg1 := mkReg m ρ 1 launch1 (W3 m ρ) (W4 m ρ) (body_obligation1 (VT3 m ρ)) (A_eq1 (VT3 m ρ))
  (q_eq1 (VT3 m ρ)) (owed_eq1 (VT3 m ρ)) (recorded_eq1 (VT3 m ρ)) (hin1 (VT3 m ρ)) (hout1 (VT3 m ρ))
  (fun c w => (W4_arr m ρ c w).symm)
  (fun c b hb => W4_of_ne m ρ c b fun w e => hb (Finset.mem_image.mpr ⟨w, Finset.mem_univ _, e⟩))
noncomputable def reg2 := mkReg m ρ 2 launch2 (W5 m ρ) (W6 m ρ) (body_obligation2 (VT5 m ρ)) (A_eq2 (VT5 m ρ))
  (q_eq2 (VT5 m ρ)) (owed_eq2 (VT5 m ρ)) (recorded_eq2 (VT5 m ρ)) (hin2 (VT5 m ρ)) (hout2 (VT5 m ρ))
  (fun c w => (W6_arr m ρ c w).symm)
  (fun c b hb => W6_of_ne m ρ c b fun w e => hb (Finset.mem_image.mpr ⟨w, Finset.mem_univ _, e⟩))
noncomputable def reg3 := mkReg m ρ 3 launch3 (W7 m ρ) (W8 m ρ) (body_obligation3 (VT7 m ρ)) (A_eq3 (VT7 m ρ))
  (q_eq3 (VT7 m ρ)) (owed_eq3 (VT7 m ρ)) (recorded_eq3 (VT7 m ρ)) (hin3 (VT7 m ρ)) (hout3 (VT7 m ρ))
  (fun c w => (W8_arr m ρ c w).symm)
  (fun c b hb => W8_of_ne m ρ c b fun w e => hb (Finset.mem_image.mpr ⟨w, Finset.mem_univ _, e⟩))
noncomputable def reg4 := mkReg m ρ 4 launch4 (W9 m ρ) (W10 m ρ) (body_obligation4 (VT9 m ρ)) (A_eq4 (VT9 m ρ))
  (q_eq4 (VT9 m ρ)) (owed_eq4 (VT9 m ρ)) (recorded_eq4 (VT9 m ρ)) (hin4 (VT9 m ρ)) (hout4 (VT9 m ρ))
  (fun c w => (W10_arr m ρ c w).symm)
  (fun c b hb => W10_of_ne m ρ c b fun w e => hb (Finset.mem_image.mpr ⟨w, Finset.mem_univ _, e⟩))
noncomputable def reg5 := mkReg m ρ 5 launch5 (W11 m ρ) (W12 m ρ) (body_obligation5 (VT11 m ρ)) (A_eq5 (VT11 m ρ))
  (q_eq5 (VT11 m ρ)) (owed_eq5 (VT11 m ρ)) (recorded_eq5 (VT11 m ρ)) (hin5 (VT11 m ρ)) (hout5 (VT11 m ρ))
  (fun c w => (W12_arr m ρ c w).symm)
  (fun c b hb => W12_of_ne m ρ c b fun w e => hb (Finset.mem_image.mpr ⟨w, Finset.mem_univ _, e⟩))

abbrev runSegs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ) ]

theorem main_run (c : Dev nD) : main (F := F) c = Pipeline.Seg.run (runSegs m ρ) := (main_chain c).trans (by chain_rfl)

set_option backward.isDefEq.respectTransparency.types false in

theorem run : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (runSegs m ρ)
    (fun c Q => by rw [main_run m ρ c])
    (by simp only [runSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => Laws.sep_assoc.2⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h => h)

-- The result buffer ends at the last boundary's contents and every kept reference as launched.
theorem run_args : θ_run defs (onTc (τ := τ) (main (F := F))) ⟨m, fun _ => 0, ρ⟩ (fun r => ∀ c : Dev nD,
      r.2.mem ((c.tc : Thread nD τ).loc main_v57) = W12 m ρ c (Proc.devRef .tc main_v57)
      ∧ ∀ a, Kept a → r.2.mem ((c.tc : Thread nD τ).loc a) = m ((c.tc : Thread nD τ).loc a)) :=
  (θ_run defs (onTc (τ := τ) (main (F := F))) ⟨m, fun _ => 0, ρ⟩).mono (fun r h c =>
    ⟨h c _ (mem_uc main_v57 (by decide)), fun a k => (h c _ (mem_uc a k.1)).trans (W12_kept m ρ c a k)⟩) (run m ρ)

end Cert.KernelIdeal.Gen

end
-- ==== Proof.KernelIdeal.HostRead.lean ====
import proofs.«430393_j3504693313561_3_alg».proof.Proof.KernelIdeal.Launch
import Idealize.ShloMosaic.Lib.StableHlo.Run

set_option maxRecDepth 1136

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.Sem
open Idealize.ShloMosaic.StableHlo

variable {F : FTy → Type} [FloatOps F]

def srcRow (ei : (⟨S2x5000000, .i32⟩ : BufTy).Contents (Elt F)) : (⟨S5000000, .i32⟩ : BufTy).Contents (Elt F) :=
  shapeCast S5000000 (extractStridedSlice S1x5000000 ![0, 0] ei slices_S2x5000000_S1x5000000_0_0) shapeCasts_S1x5000000_S5000000

def dstRow (ei : (⟨S2x5000000, .i32⟩ : BufTy).Contents (Elt F)) : (⟨S5000000, .i32⟩ : BufTy).Contents (Elt F) :=
  shapeCast S5000000 (extractStridedSlice S1x5000000 ![1, 0] ei slices_S2x5000000_S1x5000000_1_0) shapeCasts_S1x5000000_S5000000

def wrapIdx (src : (⟨S5000000, .i32⟩ : BufTy).Contents (Elt F)) : (⟨S5000000x1, .i32⟩ : BufTy).Contents (Elt F) :=
  broadcastInDim S5000000x1 ![0] bcast_S5000000_S5000000x1_0
    (select (cmpi .slt src (broadcastInDim S5000000 ![] bcast_S_S5000000 (constantI S_ 32 0#32)))
      (addi src (broadcastInDim S5000000 ![] bcast_S_S5000000 (constantI S_ 32 200000#32))) src)

def dstCol (dst : (⟨S5000000, .i32⟩ : BufTy).Contents (Elt F)) : (⟨S5000000x1, .i32⟩ : BufTy).Contents (Elt F) :=
  broadcastInDim S5000000x1 ![0] bcast_S5000000_S5000000x1_0 dst

def degCol (dst : (⟨S5000000, .i32⟩ : BufTy).Contents (Elt F)) : (⟨S200000x1, .f32⟩ : BufTy).Contents (Elt F) :=
  broadcastInDim S200000x1 ![0] bcast_S200000_S200000x1_0
    (maximumf
      (Host.scatterAdd scatter_S200000_S5000000x1_S5000000_n_0_0_1
        (broadcastInDim S200000 ![] bcast_S_S200000 (constant (F := F) S_ .f32 0x00000000#32))
        (dstCol (F := F) dst)
        (broadcastInDim S5000000 ![] bcast_S_S5000000 (constant (F := F) S_ .f32 0x3F800000#32)))
      (broadcastInDim S200000 ![] bcast_S_S200000 (constant (F := F) S_ .f32 0x3F800000#32)))

def summed1 (x : (⟨S200000x1, .f32⟩ : BufTy).Contents (Elt F)) (src dst : (⟨S5000000, .i32⟩ : BufTy).Contents (Elt F)) :
    (⟨S200000x1, .f32⟩ : BufTy).Contents (Elt F) :=
  Host.scatterAdd scatter_S200000x1_S5000000x1_S5000000x1_1_0_0_1
    (broadcastInDim S200000x1 ![] bcast_S_S200000x1 (constant (F := F) S_ .f32 0x00000000#32))
    (dstCol (F := F) dst)
    (Host.gather gather_S200000x1_S5000000x1_S5000000x1_1_0_n_n_0_1_11 x (wrapIdx (F := F) src))

def summed16 (x : (⟨S200000x16, .f32⟩ : BufTy).Contents (Elt F)) (src dst : (⟨S5000000, .i32⟩ : BufTy).Contents (Elt F)) :
    (⟨S200000x16, .f32⟩ : BufTy).Contents (Elt F) :=
  Host.scatterAdd scatter_S200000x16_S5000000x1_S5000000x16_1_0_0_1
    (broadcastInDim S200000x16 ![] bcast_S_S200000x16 (constant (F := F) S_ .f32 0x00000000#32))
    (dstCol (F := F) dst)
    (Host.gather gather_S200000x16_S5000000x1_S5000000x16_1_0_n_n_0_1_116 x (wrapIdx (F := F) src))

def labelCol (b : (⟨S200000, .i32⟩ : BufTy).Contents (Elt F)) : (⟨S200000x1, .i32⟩ : BufTy).Contents (Elt F) :=
  shapeCast S200000x1 b shapeCasts_S200000_S200000x1

def addHalves (p : (⟨S2x1024x16, .f32⟩ : BufTy).Contents (Elt F)) : (⟨S1024x16, .f32⟩ : BufTy).Contents (Elt F) :=
  addf
    (shapeCast S1024x16 (extractStridedSlice S1x1024x16 ![0, 0, 0] p slices_S2x1024x16_S1x1024x16_0_0_0) shapeCasts_S1x1024x16_S1024x16)
    (shapeCast S1024x16 (extractStridedSlice S1x1024x16 ![1, 0, 0] p slices_S2x1024x16_S1x1024x16_1_0_0) shapeCasts_S1x1024x16_S1024x16)

theorem host0_main_v1 (W : Valuation τ sig (Elt F)) :
    StableHlo.after hostOps0 W (Proc.devRef .tc main_v1)
      = srcRow (F := F) (W (Proc.devRef .tc main_arg1)) := by
  after_results; rfl

theorem host0_main_v3 (W : Valuation τ sig (Elt F)) :
    StableHlo.after hostOps0 W (Proc.devRef .tc main_v3)
      = dstRow (F := F) (W (Proc.devRef .tc main_arg1)) := by
  after_results; rfl

theorem host0_main_v10 (W : Valuation τ sig (Elt F)) :
    StableHlo.after hostOps0 W (Proc.devRef .tc main_v10)
      = degCol (F := F) (dstRow (F := F) (W (Proc.devRef .tc main_arg1))) := by
  after_results; rfl

theorem host0_main_v20 (W : Valuation τ sig (Elt F)) :
    StableHlo.after hostOps0 W (Proc.devRef .tc main_v20)
      = summed1 (F := F) (W (Proc.devRef .tc main_arg0))
          (srcRow (F := F) (W (Proc.devRef .tc main_arg1))) (dstRow (F := F) (W (Proc.devRef .tc main_arg1))) := by
  after_results_simp; rfl

theorem host1_main_v31 (W : Valuation τ sig (Elt F)) :
    StableHlo.after hostOps1 W (Proc.devRef .tc main_v31)
      = summed16 (F := F) (W (Proc.devRef .tc main_v21)) (W (Proc.devRef .tc main_v1)) (W (Proc.devRef .tc main_v3)) := by
  after_results_simp; rfl

theorem host2_main_v42 (W : Valuation τ sig (Elt F)) :
    StableHlo.after hostOps2 W (Proc.devRef .tc main_v42)
      = summed16 (F := F) (W (Proc.devRef .tc main_v32)) (W (Proc.devRef .tc main_v1)) (W (Proc.devRef .tc main_v3)) := by
  after_results_simp; rfl

theorem host3_main_v44 (W : Valuation τ sig (Elt F)) :
    StableHlo.after hostOps3 W (Proc.devRef .tc main_v44)
      = labelCol (F := F) (W (Proc.devRef .tc main_arg2)) := by
  after_results; rfl

theorem host4_main_v50 (W : Valuation τ sig (Elt F)) :
    StableHlo.after hostOps4 W (Proc.devRef .tc main_v50)
      = addHalves (F := F) (W (Proc.devRef .tc main_v45)) := by
  after_results; rfl

theorem host5_main_v56 (W : Valuation τ sig (Elt F)) :
    StableHlo.after hostOps5 W (Proc.devRef .tc main_v56)
      = addHalves (F := F) (W (Proc.devRef .tc main_v51)) := by
  after_results; rfl

end Cert.KernelIdeal.Gen

end
-- ==== Proof.Spec.lean ====
import Idealize.ShloMosaic.PureOps.Ideal
import Idealize.ShloMosaic.Lib.ValueIdx

noncomputable section

namespace Cert.Spec

open Idealize.ShloMosaic Idealize.ShloMosaic.ValueIdx

abbrev Mat (n k : Nat) : Type := (⟨2, ![n, k]⟩ : Shape).Idx → EReal
abbrev Arr (n : Nat) : Type := (⟨1, ![n]⟩ : Shape).Idx → EReal
abbrev Lab (n : Nat) : Type := (⟨2, ![n, 1]⟩ : Shape).Idx → BitVec 32

def mat {n k : Nat} (f : Fin n → Fin k → EReal) : Mat n k := fun i => f (i 0) (i 1)

theorem mat_ix2 {n k : Nat} (f : Fin n → Fin k → EReal) (a : Fin n) (b : Fin k) : mat f (ix2 a b) = f a b := rfl

def sage {d : Nat} (S : Mat 200000 d) (D : Mat 200000 1) (X : Mat 200000 d) (Wl : Mat d 16) (bl : Arr 16)
    (Wr : Mat d 16) (Wlin : Mat 16 16) (blin : Arr 16) : Mat 200000 16 :=
  mat fun n j =>
    (∑ k : Fin 16,
      max (((∑ i : Fin d, Ideal.div (S (ix2 n i)) (D (ix2 n 0)) * Wl (ix2 i k)) + bl (ix1 k))
            + ∑ i : Fin d, X (ix2 n i) * Wr (ix2 i k)) 0
        * Wlin (ix2 k j))
    + blin (ix1 j)

def alpha : EReal := Ideal.ofBits .f32 0x3E4CCCCD#32

def score (X : Mat 200000 16) : Mat 200000 16 := fun i => Ideal.exp (alpha * X i)

def hot (B : Lab 200000) (n : Fin 200000) (g : Fin 1024) : EReal :=
  if B (ix2 n 0) = BitVec.ofNat 32 g.val then 1 else 0

def denom (X : Mat 200000 16) (B : Lab 200000) : Mat 1024 16 :=
  mat fun g h => ∑ n : Fin 200000, hot B n g * score X (ix2 n h)

def pool (X : Mat 200000 16) (B : Lab 200000) (Dn : Mat 1024 16) : Mat 1024 16 :=
  mat fun g h => ∑ n : Fin 200000,
    hot B n g * (X (ix2 n h) * Ideal.div (score X (ix2 n h)) (∑ g' : Fin 1024, hot B n g' * Dn (ix2 g' h)))

def rowOf (c : Fin 2) (b : Fin 100) (r : Fin 1000) : Fin 200000 :=
  ⟨(c.val * 100 + b.val) * 1000 + r.val, by have := c.isLt; have := b.isLt; have := r.isLt; omega⟩

abbrev Cube (a n k : Nat) : Type := (⟨3, ![a, n, k]⟩ : Shape).Idx → EReal

def partDenom (X : Mat 200000 16) (B : Lab 200000) : Cube 2 1024 16 :=
  fun i => ∑ b : Fin 100, ∑ r : Fin 1000, hot B (rowOf (i 0) b r) (i 1) * score X (ix2 (rowOf (i 0) b r) (i 2))

def partPool (X : Mat 200000 16) (B : Lab 200000) (Dn : Mat 1024 16) : Cube 2 1024 16 :=
  fun i => ∑ b : Fin 100, ∑ r : Fin 1000,
    hot B (rowOf (i 0) b r) (i 1) * (X (ix2 (rowOf (i 0) b r) (i 2))
      * Ideal.div (score X (ix2 (rowOf (i 0) b r) (i 2))) (∑ g' : Fin 1024, hot B (rowOf (i 0) b r) g' * Dn (ix2 g' (i 2))))

def dense {n a b : Nat} (P : Mat n a) (W : Mat a b) (bias : Arr b) : Mat n b :=
  mat fun r j => max ((∑ k : Fin a, P (ix2 r k) * W (ix2 k j)) + bias (ix1 j)) 0

def affine {n a b : Nat} (P : Mat n a) (W : Mat a b) (bias : Arr b) : Mat n b :=
  mat fun r j => (∑ k : Fin a, P (ix2 r k) * W (ix2 k j)) + bias (ix1 j)

def mlp (P : Mat 1024 16) (Wo0 : Mat 16 16) (bo0 : Arr 16) (Wo1 : Mat 16 16) (bo1 : Arr 16) (Wo2 : Mat 16 1) (bo2 : Arr 1) :
    Mat 1024 1 :=
  affine (dense (dense P Wo0 bo0) Wo1 bo1) Wo2 bo2

end Cert.Spec

end
-- ==== Proof.KernelIdeal.Pay0.lean ====
import proofs.«430393_j3504693313561_3_alg».proof.Proof.Gen.KernelIdeal.Skeleton
import proofs.«430393_j3504693313561_3_alg».proof.Proof.Spec
import Idealize.ShloMosaic.Lib.ValueLayout
import Idealize.ShloMosaic.Lib.StackMember

noncomputable section

namespace Cert.KernelIdeal.Val

open Idealize.ShloMosaic Idealize.ShloMosaic.TcCoe Idealize.ShloMosaic.ValueIdx Idealize.SL.Sem
open Cert.KernelIdeal Cert.KernelIdeal.Gen

-- A product into zeros is the plain product: entry (p, j) is the sum over the contracted coordinate.
theorem matmul_col_apply {φ₁ φ₂ : FTy} (A : FVec Ideal S5000x1 φ₁) (B : FVec Ideal S1x16 φ₂) (p : Fin 5000) (j : Fin 16) :
    matmul dot_S5000x1_S1x16_S5000x16_1_0_0_1_n_n none A B (constant (F := Ideal) S5000x16 .f32 0x00000000#32) (ix2 p j)
      = ∑ k : Fin 1, A (ix2 p k) * B (ix2 k j) :=
  (congrFun (matmul_zero_eq_dotGeneral _ none A B) _).trans (StackMember.dotGeneral_plain_apply none A B p j)

theorem matmul_rows_apply {φ₁ φ₂ : FTy} (A : FVec Ideal S5000x16 φ₁) (B : FVec Ideal S16x16 φ₂) (p : Fin 5000) (j : Fin 16) :
    matmul dot_S5000x16_S16x16_S5000x16_1_0_0_1_n_n none A B (constant (F := Ideal) S5000x16 .f32 0x00000000#32) (ix2 p j)
      = ∑ k : Fin 16, A (ix2 p k) * B (ix2 k j) :=
  (congrFun (matmul_zero_eq_dotGeneral _ none A B) _).trans (StackMember.dotGeneral_plain_apply none A B p j)

theorem zero_word : (FloatOps.ofBits (F := Ideal) .f32 0x00000000#32 : Ideal .f32) = 0 := Ideal.ofBits_zero_f32

theorem pay0_apply (v0 v2 v6 : Vec Ideal S5000x1 .f32) (v8 v10 : Vec Ideal S1x16 .f32) (v13 : Vec Ideal S16 .f32)
    (v21 : Vec Ideal S16x16 .f32) (v25 : Vec Ideal S16 .f32) (p : Fin 5000) (j : Fin 16) :
    k0_pay1 (F := Ideal) v0 v2 v6 v8 v10 v13 v21 v25 (ix2 p j)
      = (∑ k : Fin 16, max (((∑ i : Fin 1, Ideal.div (v0 (ix2 p i)) (v2 (ix2 p 0)) * v8 (ix2 i k)) + v13 (ix1 k))
            + ∑ i : Fin 1, v6 (ix2 p i) * v10 (ix2 i k)) 0 * v21 (ix2 k j)) + v25 (ix1 j) := by
  unfold k0_pay1
  simp only [addf_apply, matmul_rows_apply, matmul_col_apply, truncf_apply, maximumf_apply, broadcast_apply, divf_apply,
    shapeCast_self, broadcastTo_1b_ab_apply, shapeCast_a_1a_apply, zero_word]
  simp only [show ∀ i : Fin 1, v2 (ix2 p i) = v2 (ix2 p 0) from fun i => by rw [Fin.eq_zero i]]

theorem zeros2 : (![0, 0] : Fin 2 → Nat) = fun _ => 0 := funext fun a => by fin_cases a <;> rfl
theorem zeros1 : (![0] : Fin 1 → Nat) = fun _ => 0 := funext fun a => by fin_cases a <;> rfl

-- Row p of the block of 5000 rows numbered t.
def row (t : Fin 40) (p : Fin 5000) : Fin 200000 := ⟨t.val * 5000 + p.val, by have := t.isLt; have := p.isLt; omega⟩

-- An index whose row is 5000 a + p with a = t and whose column is n b + i with b = 0 is (row t p, i).
theorem eq_row {n a b : ℕ} {t : Fin 40} {p : Fin 5000} {i : Fin n} {x : (⟨2, ![200000, n]⟩ : Shape).Idx}
    (ha : a = t.val) (hb : b = 0) (h0 : (x 0).val = a * 5000 + 1 * p.val) (h1 : (x 1).val = b * n + 1 * i.val) :
    x = ix2 (row t p) i := by
  subst ha hb
  exact Shape.idx_ext₂ (by show (x 0).val = t.val * 5000 + p.val; omega) (by show (x 1).val = i.val; omega)

-- Row r of 200000 lies in the block of 5000 rows numbered r / 5000, and every column in the one block of 16.
theorem mem_rows {a b : ℕ} {off : Fin 2 → ℕ} {inb} (i : (⟨2, ![200000, 16]⟩ : Shape).Idx) (ha : a = (i 0).val / 5000) (hb : b = 0)
    (h0 : off 0 = a * 5000) (h1 : off 1 = b * 16) : i ∈ (Rect.unit (s := ⟨2, ![200000, 16]⟩) off ![5000, 16] inb).set := by
  subst ha hb
  have := idx2_lt0 i; have := idx2_lt1 i
  refine Rect.mem_set_unit.mpr fun a => ?_
  match a with
  | ⟨0, _⟩ => show off 0 ≤ (i 0).val ∧ (i 0).val < off 0 + 5000; omega
  | ⟨1, _⟩ => show off 1 ≤ (i 1).val ∧ (i 1).val < off 1 + 16; omega

-- Where a block's index is zero on every axis, an element of the block has the same coordinates in the array.
theorem emb_self {G : Pipeline.Grid} {w : Pipeline.Window sig G} {t : Fin G.N} (h : ∀ a, w.index t a = 0)
    (y : (w.xblock (G.coords t)).Idx) (z : w.shape.Idx) (hz : ∀ a, (z a).val = (y a).val) : (w.rect t).emb y = z :=
  funext fun a => Fin.ext ((w.rect_emb_val_of_index_zero t a (h a) y).trans (hz a).symm)

end Cert.KernelIdeal.Val

end
-- ==== Proof.KernelIdeal.Val0.lean ====
import proofs.«430393_j3504693313561_3_alg».proof.Proof.KernelIdeal.R0
import proofs.«430393_j3504693313561_3_alg».proof.Proof.KernelIdeal.Pay0

noncomputable section

namespace Cert.KernelIdeal.Val

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

theorem index0 : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_8.index t (0 : Fin 2) = t.val ∧ win0_8.index t (1 : Fin 2) = 0)
    ∧ (∀ a, win0_3.index t a = 0) ∧ (∀ a, win0_4.index t a = 0) ∧ (∀ a, win0_5.index t a = 0)
    ∧ (∀ a, win0_6.index t a = 0) ∧ (∀ a, win0_7.index t a = 0) :=
  (by decide +kernel : ∀ t : Fin grid0.N, _)

abbrev layer0 (c : Dev nD) : S200000x16.Idx → EReal :=
  Cert.Spec.sage (d := 1) (V c (Pipeline.arrRef spec0 0)) (V c (Pipeline.arrRef spec0 1)) (V c (Pipeline.arrRef spec0 2))
    (V c (Pipeline.arrRef spec0 3)) (V c (Pipeline.arrRef spec0 4)) (V c (Pipeline.arrRef spec0 5))
    (V c (Pipeline.arrRef spec0 6)) (V c (Pipeline.arrRef spec0 7))

-- Block t of the result is rows 5000 t … 5000 t + 4999 of the layer: a row of the layer depends only on the same row of the node arrays.
theorem flushed0_eq (c : Dev nD) (t : Fin cfg0.N) :
    (dat0 V c).flushed 8 t = ((cfg0.win 8).blk t).view.read (Elt Ideal) (layer0 V c) := by
  obtain ⟨e0, e1, e2, e8, e3, e4, e5, e6, e7⟩ := index0 t
  show (cfg0.win 8).cut (grid0.coords t) ((dat0 V c).after 8 t) = _
  rw [after0_8]
  unfold out0_8
  rw [View.canon_unit_zero zeros2]
  simp only [View.ld_unit_zero (S := S5000x1) zeros2, View.ld_unit_zero (S := S1x16) zeros2,
    View.ld_unit_zero (S := S16x16) zeros2, View.ld_unit_zero (S := S16) zeros1]
  refine funext fun (y : S5000x16.Idx) => ?_
  obtain ⟨p, j, rfl⟩ : ∃ (p : Fin 5000) (j : Fin 16), y = ix2 p j := ⟨y 0, y 1, eq_ix2 y⟩
  have r8 : ((cfg0.win 8).blk t).view.read (Elt Ideal) (layer0 V c) (ix2 p j) = layer0 V c (ix2 (row t p) j) :=
    congrArg (layer0 V c) (eq_row e8.1 e8.2 rfl rfl)
  have r0 : ∀ i, iblk0 V c 0 t (ix2 p i) = V c (Pipeline.arrRef spec0 0) (ix2 (row t p) i) :=
    fun i => congrArg _ (eq_row e0.1 e0.2 rfl rfl)
  have r1 : ∀ i, iblk0 V c 1 t (ix2 p i) = V c (Pipeline.arrRef spec0 1) (ix2 (row t p) i) :=
    fun i => congrArg _ (eq_row e1.1 e1.2 rfl rfl)
  have r2 : ∀ i, iblk0 V c 2 t (ix2 p i) = V c (Pipeline.arrRef spec0 2) (ix2 (row t p) i) :=
    fun i => congrArg _ (eq_row e2.1 e2.2 rfl rfl)
  have r3 : iblk0 V c 3 t = V c (Pipeline.arrRef spec0 3) :=
    funext fun y => congrArg _ (emb_self e3 y y fun _ => rfl)
  have r4 : iblk0 V c 4 t = V c (Pipeline.arrRef spec0 4) :=
    funext fun y => congrArg _ (emb_self e4 y y fun _ => rfl)
  have r5 : iblk0 V c 5 t = V c (Pipeline.arrRef spec0 5) :=
    funext fun y => congrArg _ (emb_self e5 y y fun _ => rfl)
  have r6 : iblk0 V c 6 t = V c (Pipeline.arrRef spec0 6) :=
    funext fun y => congrArg _ (emb_self e6 y y fun _ => rfl)
  have r7 : iblk0 V c 7 t = V c (Pipeline.arrRef spec0 7) :=
    funext fun y => congrArg _ (emb_self e7 y y fun _ => rfl)
  rw [r8]
  show k0_pay1 (F := Ideal) _ _ _ _ _ _ _ _ (ix2 p j) = _
  rw [pay0_apply, r3, r4, r5, r6, r7]
  simp only [r0, r1, r2]
  rfl

-- Every index of the result is in the block numbered by its row's quotient by 5000.
theorem cover0 (i : S200000x16.Idx) :
    ∃ t : Fin cfg0.N, (cfg0.win 8).flush t = true ∧ i ∈ ((cfg0.win 8).blk t).view.set := by
  have hN : (i 0).val / 5000 < cfg0.N := by have := idx2_lt0 i; show _ < 40; omega
  refine ⟨⟨_, hN⟩, flush0_8 _, ?_⟩
  show i ∈ ((View.whole main_v21).slice (win0_8.rect ⟨_, hN⟩)).set
  rw [View.set_slice_whole]
  exact mem_rows i (index0 ⟨_, hN⟩).2.2.2.1.1 (index0 ⟨_, hN⟩).2.2.2.1.2 rfl rfl

theorem arrAt0_out (c : Dev nD) :
    (dat0 V c).arrAt 8 cfg0.N
      = Cert.Spec.sage (d := 1) (V c (Pipeline.arrRef spec0 0)) (V c (Pipeline.arrRef spec0 1)) (V c (Pipeline.arrRef spec0 2))
          (V c (Pipeline.arrRef spec0 3)) (V c (Pipeline.arrRef spec0 4)) (V c (Pipeline.arrRef spec0 5))
          (V c (Pipeline.arrRef spec0 6)) (V c (Pipeline.arrRef spec0 7)) :=
  (dat0 V c).arrAt_eq_of_cover 8 (layer0 V c) (fun t _ => flushed0_eq V c t) cover0

end Cert.KernelIdeal.Val

end
-- ==== Proof.KernelIdeal.Pay1.lean ====
import proofs.«430393_j3504693313561_3_alg».proof.Proof.KernelIdeal.Pay0

noncomputable section

namespace Cert.KernelIdeal.Val

open Idealize.ShloMosaic Idealize.ShloMosaic.TcCoe Idealize.ShloMosaic.ValueIdx Idealize.SL.Sem
open Cert.KernelIdeal Cert.KernelIdeal.Gen

-- A column laid along every feature reads, at (p, c), the column's entry at row p.
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ => show p.val = if a = 1 then 0 else p.val; have := p.isLt; split <;> omega
  | ⟨1, _⟩ => rfl

theorem pay1_apply (v0 : Vec Ideal S5000x16 .f32) (v2 : Vec Ideal S5000x1 .f32) (v7 : Vec Ideal S5000x16 .f32)
    (v10 v12 : Vec Ideal S16x16 .f32) (v15 : Vec Ideal S16 .f32) (v23 : Vec Ideal S16x16 .f32) (v27 : Vec Ideal S16 .f32)
    (p : Fin 5000) (j : Fin 16) :
    k1_pay1 (F := Ideal) v0 v2 v7 v10 v12 v15 v23 v27 (ix2 p j)
      = (∑ k : Fin 16, max (((∑ i : Fin 16, Ideal.div (v0 (ix2 p i)) (v2 (ix2 p 0)) * v10 (ix2 i k)) + v15 (ix1 k))
            + ∑ i : Fin 16, v7 (ix2 p i) * v12 (ix2 i k)) 0 * v23 (ix2 k j)) + v27 (ix1 j) := by
  unfold k1_pay1
  simp only [addf_apply, matmul_rows_apply, truncf_apply, maximumf_apply, broadcast_apply, divf_apply, shapeCast_self,
    broadcastTo_a1_ab_apply, broadcastTo_1b_ab_apply, shapeCast_a_1a_apply, zero_word]

end Cert.KernelIdeal.Val

end
-- ==== Proof.KernelIdeal.Val1.lean ====
import proofs.«430393_j3504693313561_3_alg».proof.Proof.KernelIdeal.R1
import proofs.«430393_j3504693313561_3_alg».proof.Proof.KernelIdeal.Pay1

noncomputable section

namespace Cert.KernelIdeal.Val

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

theorem index1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_8.index t (0 : Fin 2) = t.val ∧ win1_8.index t (1 : Fin 2) = 0)
    ∧ (∀ a, win1_3.index t a = 0) ∧ (∀ a, win1_4.index t a = 0) ∧ (∀ a, win1_5.index t a = 0)
    ∧ (∀ a, win1_6.index t a = 0) ∧ (∀ a, win1_7.index t a = 0) :=
  (by decide +kernel : ∀ t : Fin grid1.N, _)

abbrev layer1 (c : Dev nD) : S200000x16.Idx → EReal :=
  Cert.Spec.sage (d := 16) (V c (Pipeline.arrRef spec1 0)) (V c (Pipeline.arrRef spec1 1)) (V c (Pipeline.arrRef spec1 2))
    (V c (Pipeline.arrRef spec1 3)) (V c (Pipeline.arrRef spec1 4)) (V c (Pipeline.arrRef spec1 5))
    (V c (Pipeline.arrRef spec1 6)) (V c (Pipeline.arrRef spec1 7))

-- Block t of the result is rows 5000 t … 5000 t + 4999 of the layer: a row of the layer depends only on the same row of the node arrays.
theorem flushed1_eq (c : Dev nD) (t : Fin cfg1.N) :
    (dat1 V c).flushed 8 t = ((cfg1.win 8).blk t).view.read (Elt Ideal) (layer1 V c) := by
  obtain ⟨e0, e1, e2, e8, e3, e4, e5, e6, e7⟩ := index1 t
  show (cfg1.win 8).cut (grid1.coords t) ((dat1 V c).after 8 t) = _
  rw [after1_8]
  unfold out1_8
  rw [View.canon_unit_zero zeros2]
  simp only [View.ld_unit_zero (S := S5000x16) zeros2, View.ld_unit_zero (S := S5000x1) zeros2,
    View.ld_unit_zero (S := S16x16) zeros2, View.ld_unit_zero (S := S16) zeros1]
  refine funext fun (y : S5000x16.Idx) => ?_
  obtain ⟨p, j, rfl⟩ : ∃ (p : Fin 5000) (j : Fin 16), y = ix2 p j := ⟨y 0, y 1, eq_ix2 y⟩
  have r8 : ((cfg1.win 8).blk t).view.read (Elt Ideal) (layer1 V c) (ix2 p j) = layer1 V c (ix2 (row t p) j) :=
    congrArg (layer1 V c) (eq_row e8.1 e8.2 rfl rfl)
  have r0 : ∀ i, iblk1 V c 0 t (ix2 p i) = V c (Pipeline.arrRef spec1 0) (ix2 (row t p) i) :=
    fun i => congrArg _ (eq_row e0.1 e0.2 rfl rfl)
  have r1 : ∀ i, iblk1 V c 1 t (ix2 p i) = V c (Pipeline.arrRef spec1 1) (ix2 (row t p) i) :=
    fun i => congrArg _ (eq_row e1.1 e1.2 rfl rfl)
  have r2 : ∀ i, iblk1 V c 2 t (ix2 p i) = V c (Pipeline.arrRef spec1 2) (ix2 (row t p) i) :=
    fun i => congrArg _ (eq_row e2.1 e2.2 rfl rfl)
  have r3 : iblk1 V c 3 t = V c (Pipeline.arrRef spec1 3) :=
    funext fun y => congrArg _ (emb_self e3 y y fun _ => rfl)
  have r4 : iblk1 V c 4 t = V c (Pipeline.arrRef spec1 4) :=
    funext fun y => congrArg _ (emb_self e4 y y fun _ => rfl)
  have r5 : iblk1 V c 5 t = V c (Pipeline.arrRef spec1 5) :=
    funext fun y => congrArg _ (emb_self e5 y y fun _ => rfl)
  have r6 : iblk1 V c 6 t = V c (Pipeline.arrRef spec1 6) :=
    funext fun y => congrArg _ (emb_self e6 y y fun _ => rfl)
  have r7 : iblk1 V c 7 t = V c (Pipeline.arrRef spec1 7) :=
    funext fun y => congrArg _ (emb_self e7 y y fun _ => rfl)
  rw [r8]
  show k1_pay1 (F := Ideal) _ _ _ _ _ _ _ _ (ix2 p j) = _
  rw [pay1_apply, r3, r4, r5, r6, r7]
  simp only [r0, r1, r2]
  rfl

-- Every index of the result is in the block numbered by its row's quotient by 5000.
theorem cover1 (i : S200000x16.Idx) :
    ∃ t : Fin cfg1.N, (cfg1.win 8).flush t = true ∧ i ∈ ((cfg1.win 8).blk t).view.set := by
  have hN : (i 0).val / 5000 < cfg1.N := by have := idx2_lt0 i; show _ < 40; omega
  refine ⟨⟨_, hN⟩, flush1_8 _, ?_⟩
  show i ∈ ((View.whole main_v32).slice (win1_8.rect ⟨_, hN⟩)).set
  rw [View.set_slice_whole]
  exact mem_rows i (index1 ⟨_, hN⟩).2.2.2.1.1 (index1 ⟨_, hN⟩).2.2.2.1.2 rfl rfl

theorem arrAt1_out (c : Dev nD) :
    (dat1 V c).arrAt 8 cfg1.N = Cert.Spec.sage (d := 16) (V c (Pipeline.arrRef spec1 0)) (V c (Pipeline.arrRef spec1 1))
      (V c (Pipeline.arrRef spec1 2)) (V c (Pipeline.arrRef spec1 3)) (V c (Pipeline.arrRef spec1 4))
      (V c (Pipeline.arrRef spec1 5)) (V c (Pipeline.arrRef spec1 6)) (V c (Pipeline.arrRef spec1 7)) :=
  (dat1 V c).arrAt_eq_of_cover 8 (layer1 V c) (fun t _ => flushed1_eq V c t) cover1

end Cert.KernelIdeal.Val

end
-- ==== Proof.KernelIdeal.Pay2.lean ====
import proofs.«430393_j3504693313561_3_alg».proof.Proof.KernelIdeal.Pay1

namespace Cert.KernelIdeal.Val

open Idealize.ShloMosaic Cert.KernelIdeal.Gen

-- The second 16-feature layer's block is the same function of what it reads as the first's.
theorem pay2_eq : k2_pay1 (F := Ideal) = k1_pay1 := rfl

end Cert.KernelIdeal.Val
-- ==== Proof.KernelIdeal.Val2.lean ====
import proofs.«430393_j3504693313561_3_alg».proof.Proof.KernelIdeal.R2
import proofs.«430393_j3504693313561_3_alg».proof.Proof.KernelIdeal.Pay2

noncomputable section

namespace Cert.KernelIdeal.Val

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

theorem index2 : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_8.index t (0 : Fin 2) = t.val ∧ win2_8.index t (1 : Fin 2) = 0)
    ∧ (∀ a, win2_3.index t a = 0) ∧ (∀ a, win2_4.index t a = 0) ∧ (∀ a, win2_5.index t a = 0)
    ∧ (∀ a, win2_6.index t a = 0) ∧ (∀ a, win2_7.index t a = 0) :=
  (by decide +kernel : ∀ t : Fin grid2.N, _)

abbrev layer2 (c : Dev nD) : S200000x16.Idx → EReal :=
  Cert.Spec.sage (d := 16) (V c (Pipeline.arrRef spec2 0)) (V c (Pipeline.arrRef spec2 1)) (V c (Pipeline.arrRef spec2 2))
    (V c (Pipeline.arrRef spec2 3)) (V c (Pipeline.arrRef spec2 4)) (V c (Pipeline.arrRef spec2 5))
    (V c (Pipeline.arrRef spec2 6)) (V c (Pipeline.arrRef spec2 7))

-- Block t of the result is rows 5000 t … 5000 t + 4999 of the layer: a row of the layer depends only on the same row of the node arrays.
theorem flushed2_eq (c : Dev nD) (t : Fin cfg2.N) :
    (dat2 V c).flushed 8 t = ((cfg2.win 8).blk t).view.read (Elt Ideal) (layer2 V c) := by
  obtain ⟨e0, e1, e2, e8, e3, e4, e5, e6, e7⟩ := index2 t
  show (cfg2.win 8).cut (grid2.coords t) ((dat2 V c).after 8 t) = _
  rw [after2_8]
  unfold out2_8
  rw [View.canon_unit_zero zeros2]
  simp only [View.ld_unit_zero (S := S5000x16) zeros2, View.ld_unit_zero (S := S5000x1) zeros2,
    View.ld_unit_zero (S := S16x16) zeros2, View.ld_unit_zero (S := S16) zeros1]
  refine funext fun (y : S5000x16.Idx) => ?_
  obtain ⟨p, j, rfl⟩ : ∃ (p : Fin 5000) (j : Fin 16), y = ix2 p j := ⟨y 0, y 1, eq_ix2 y⟩
  have r8 : ((cfg2.win 8).blk t).view.read (Elt Ideal) (layer2 V c) (ix2 p j) = layer2 V c (ix2 (row t p) j) :=
    congrArg (layer2 V c) (eq_row e8.1 e8.2 rfl rfl)
  have r0 : ∀ i, iblk2 V c 0 t (ix2 p i) = V c (Pipeline.arrRef spec2 0) (ix2 (row t p) i) :=
    fun i => congrArg _ (eq_row e0.1 e0.2 rfl rfl)
  have r1 : ∀ i, iblk2 V c 1 t (ix2 p i) = V c (Pipeline.arrRef spec2 1) (ix2 (row t p) i) :=
    fun i => congrArg _ (eq_row e1.1 e1.2 rfl rfl)
  have r2 : ∀ i, iblk2 V c 2 t (ix2 p i) = V c (Pipeline.arrRef spec2 2) (ix2 (row t p) i) :=
    fun i => congrArg _ (eq_row e2.1 e2.2 rfl rfl)
  have r3 : iblk2 V c 3 t = V c (Pipeline.arrRef spec2 3) :=
    funext fun y => congrArg _ (emb_self e3 y y fun _ => rfl)
  have r4 : iblk2 V c 4 t = V c (Pipeline.arrRef spec2 4) :=
    funext fun y => congrArg _ (emb_self e4 y y fun _ => rfl)
  have r5 : iblk2 V c 5 t = V c (Pipeline.arrRef spec2 5) :=
    funext fun y => congrArg _ (emb_self e5 y y fun _ => rfl)
  have r6 : iblk2 V c 6 t = V c (Pipeline.arrRef spec2 6) :=
    funext fun y => congrArg _ (emb_self e6 y y fun _ => rfl)
  have r7 : iblk2 V c 7 t = V c (Pipeline.arrRef spec2 7) :=
    funext fun y => congrArg _ (emb_self e7 y y fun _ => rfl)
  rw [r8]
  show k2_pay1 (F := Ideal) _ _ _ _ _ _ _ _ (ix2 p j) = _
  rw [pay2_eq, pay1_apply, r3, r4, r5, r6, r7]
  simp only [r0, r1, r2]
  rfl

-- Every index of the result is in the block numbered by its row's quotient by 5000.
theorem cover2 (i : S200000x16.Idx) :
    ∃ t : Fin cfg2.N, (cfg2.win 8).flush t = true ∧ i ∈ ((cfg2.win 8).blk t).view.set := by
  have hN : (i 0).val / 5000 < cfg2.N := by have := idx2_lt0 i; show _ < 40; omega
  refine ⟨⟨_, hN⟩, flush2_8 _, ?_⟩
  show i ∈ ((View.whole main_v43).slice (win2_8.rect ⟨_, hN⟩)).set
  rw [View.set_slice_whole]
  exact mem_rows i (index2 ⟨_, hN⟩).2.2.2.1.1 (index2 ⟨_, hN⟩).2.2.2.1.2 rfl rfl

theorem arrAt2_out (c : Dev nD) :
    (dat2 V c).arrAt 8 cfg2.N = Cert.Spec.sage (d := 16) (V c (Pipeline.arrRef spec2 0)) (V c (Pipeline.arrRef spec2 1))
      (V c (Pipeline.arrRef spec2 2)) (V c (Pipeline.arrRef spec2 3)) (V c (Pipeline.arrRef spec2 4))
      (V c (Pipeline.arrRef spec2 5)) (V c (Pipeline.arrRef spec2 6)) (V c (Pipeline.arrRef spec2 7)) :=
  (dat2 V c).arrAt_eq_of_cover 8 (layer2 V c) (fun t _ => flushed2_eq V c t) cover2

end Cert.KernelIdeal.Val

end
-- ==== Proof.KernelIdeal.Pay3.lean ====
import proofs.«430393_j3504693313561_3_alg».proof.Proof.Gen.KernelIdeal.Skeleton
import proofs.«430393_j3504693313561_3_alg».proof.Proof.Spec
import Idealize.ShloMosaic.Lib.ValueLayout
import Idealize.ShloMosaic.Lib.StackMember

noncomputable section

namespace Cert.KernelIdeal.Val

open Idealize.ShloMosaic Idealize.ShloMosaic.TcCoe Idealize.ShloMosaic.ValueIdx Idealize.SL.Sem
open Cert.KernelIdeal Cert.KernelIdeal.Gen

namespace P3

-- The comparison's bit, widened and read signed, is one where the two words agree and zero elsewhere.
theorem sitofp_cmpi_eq3 (x y : BitVec 32) :
    (FloatOps.sitofp .f32 ((IntOp.cmpi .eq x y).setWidth 32) : Ideal .f32) = if x = y then (1 : EReal) else 0 := by
  show ((((IntOp.cmpi .eq x y).setWidth 32).toInt : ℝ) : EReal) = _
  rw [toInt_setWidth_bit]
  by_cases h : x = y
  · rw [if_pos h]; subst h; simp [IntOp.cmpi]
  · rw [if_neg h]; simp [IntOp.cmpi, h]

-- Row r's label word against the column number g.
theorem member_apply (v8 : Vec Ideal S1000x1 .i32) (r : Fin 1000) (g : Fin 1024) :
    (sitofp .f32 (extui 32 (cmpi .eq (broadcastTo S1000x1024 v8 broadcasts_S1000x1_S1000x1024)
        (iota .tc S1000x1024 32 [1] iota_S1000x1024_d1_w32)) natLt_1_32) : FVec Ideal S1000x1024 .f32) (ix2 r g)
      = if v8 (ix2 r 0) = BitVec.ofNat 32 g.val then (1 : EReal) else 0 := by
  rw [sitofp_apply, extui_apply]
  show (FloatOps.sitofp .f32 ((IntOp.cmpi .eq _ _).setWidth 32) : Ideal .f32) = _
  rw [sitofp_cmpi_eq3, iota_single_apply,
    broadcastTo_apply (s := S1000x1) (t := S1000x1024) v8 broadcasts_S1000x1_S1000x1024 (ix2 r g) (ix2 r (0 : Fin 1)) (fun a => by
      match a with
      | ⟨0, _⟩ => rfl
      | ⟨1, _⟩ => rfl)]

-- An m×k by k×n product added to zero, read at (a, b), is the sum over the contracted coordinate.
theorem mm_plain_apply {m k n : ℕ} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (a : Fin m) (b : Fin n) :
    matmul d prec A B (constant (F := Ideal) ⟨2, ![m, n]⟩ .f32 0x00000000#32) (ix2 a b)
      = ∑ c : Fin k, A (ix2 a c) * B (ix2 c b) := by
  subst hd
  rw [matmul_zero_eq_dotGeneral]
  exact StackMember.dotGeneral_plain_apply prec A B a b

theorem lhs_pool_1 (i : S1024x16.Idx) (q : dot_S1000x1024_S1000x16_S1024x16_0_0_1_1_n_n.contr.Idx) :
    (dot_S1000x1024_S1000x16_S1024x16_0_0_1_1_n_n.lhsIdx i q 1).val = (i 0).val := by
  unfold DotDims.lhsIdx
  rw [dif_neg (show ¬(1 : Fin S1000x1024.rank) ∈ dot_S1000x1024_S1000x16_S1024x16_0_0_1_1_n_n.lhsBatch by decide), dif_pos (show (1 : Fin S1000x1024.rank) ∈ dot_S1000x1024_S1000x16_S1024x16_0_0_1_1_n_n.lhsNonContracting by decide)]
  rfl
theorem rhs_pool_1 (i : S1024x16.Idx) (q : dot_S1000x1024_S1000x16_S1024x16_0_0_1_1_n_n.contr.Idx) :
    (dot_S1000x1024_S1000x16_S1024x16_0_0_1_1_n_n.rhsIdx i q 1).val = (i 1).val := by
  unfold DotDims.rhsIdx
  rw [dif_neg (show ¬(1 : Fin S1000x16.rank) ∈ dot_S1000x1024_S1000x16_S1024x16_0_0_1_1_n_n.rhsBatch by decide), dif_pos (show (1 : Fin S1000x16.rank) ∈ dot_S1000x1024_S1000x16_S1024x16_0_0_1_1_n_n.rhsNonContracting by decide)]
  rfl

-- Contracting the rows of both operands: entry (g, h) sums over the 1000 rows.
theorem matmul_pool_apply (A : FVec Ideal S1000x1024 .f32) (B : FVec Ideal S1000x16 .f32) (prec : Option ContractPrecision) (g : Fin 1024) (h : Fin 16) :
    matmul dot_S1000x1024_S1000x16_S1024x16_0_0_1_1_n_n prec A B (constant (F := Ideal) S1024x16 .f32 0x00000000#32) (ix2 g h)
      = ∑ r : Fin 1000, A (ix2 r g) * B (ix2 r h) := by
  simp only [matmul]
  rw [Ideal.matmul_constant_zero_apply, ← Equiv.sum_comp (contrEquiv1 dot_S1000x1024_S1000x16_S1024x16_0_0_1_1_n_n 1000 rfl rfl).symm]
  refine Finset.sum_congr rfl fun k _ => ?_
  have hk := contrEquiv1_symm_val dot_S1000x1024_S1000x16_S1024x16_0_0_1_1_n_n 1000 rfl rfl k
  have el : dot_S1000x1024_S1000x16_S1024x16_0_0_1_1_n_n.lhsIdx (ix2 g h) ((contrEquiv1 dot_S1000x1024_S1000x16_S1024x16_0_0_1_1_n_n 1000 rfl rfl).symm k) = ix2 k g := funext fun a => Fin.ext (by
    match a with
    | ⟨0, _⟩ => exact (dot_S1000x1024_S1000x16_S1024x16_0_0_1_1_n_n.lhsIdx_val_of_single rfl _ _).trans hk
    | ⟨1, _⟩ => exact lhs_pool_1 _ _)
  have er : dot_S1000x1024_S1000x16_S1024x16_0_0_1_1_n_n.rhsIdx (ix2 g h) ((contrEquiv1 dot_S1000x1024_S1000x16_S1024x16_0_0_1_1_n_n 1000 rfl rfl).symm k) = ix2 k h := funext fun a => Fin.ext (by
    match a with
    | ⟨0, _⟩ => exact (dot_S1000x1024_S1000x16_S1024x16_0_0_1_1_n_n.rhsIdx_val_of_single rfl _ _).trans hk
    | ⟨1, _⟩ => exact rhs_pool_1 _ _)
  rw [el, er]

-- A total that restarts at the multiples of 100 and grows by M n at point n is, at t, the sum of M over t's run so far.
theorem fold_sum {N : ℕ} {ι : Type} (f : (n : ℕ) → n < N → ι → EReal) (M : ℕ → ι → EReal)
    (h0 : ∀ (n : ℕ) (h : n < N), n % 100 = 0 → ∀ i, f n h i = M n i)
    (hs : ∀ (n : ℕ) (h : n + 1 < N), ¬(n + 1) % 100 = 0 → ∀ i, f (n + 1) h i = f n (Nat.lt_of_succ_lt h) i + M (n + 1) i)
    (t : ℕ) (ht : t < N) (i : ι) :
    f t ht i = ∑ s ∈ Finset.range (t % 100 + 1), M (100 * (t / 100) + s) i := by
  induction t with
  | zero => rw [h0 0 ht rfl i]; simp
  | succ n ih =>
    by_cases h1 : (n + 1) % 100 = 0
    · have e : 100 * ((n + 1) / 100) = n + 1 := by omega
      rw [h0 _ ht h1 i, h1, Nat.zero_add, Finset.sum_range_one, e, Nat.add_zero]
    · have e1 : (n + 1) % 100 = n % 100 + 1 := by omega
      have e2 : (n + 1) / 100 = n / 100 := by omega
      have e3 : 100 * (n / 100) + (n % 100 + 1) = n + 1 := by omega
      rw [hs n ht h1 i, ih (Nat.lt_of_succ_lt ht), e1, e2, Finset.sum_range_succ (fun s => M (100 * (n / 100) + s) i) (n % 100 + 1), e3]

-- What the block of nodes 1000·n … 1000·n + 999 adds at (graph, feature), each node weighted by W; nothing past the last block.
def blockSum (B : Cert.Spec.Lab 200000) (W : Fin 200000 → Fin 16 → EReal) (n : ℕ) (i : S1024x16.Idx) : EReal :=
  if hn : n < 200 then
    ∑ r : Fin 1000, Cert.Spec.hot B ⟨1000 * n + r.val, by have := r.isLt; omega⟩ (i 0)
      * W ⟨1000 * n + r.val, by have := r.isLt; omega⟩ (i 1)
  else 0

-- After the last block of half q the total is the double sum over the half's blocks and rows.
theorem half_sum {N : ℕ} (f : (n : ℕ) → n < N → S1024x16.Idx → EReal) (B : Cert.Spec.Lab 200000) (W : Fin 200000 → Fin 16 → EReal)
    (h0 : ∀ (n : ℕ) (h : n < N), n % 100 = 0 → ∀ i, f n h i = blockSum B W n i)
    (hs : ∀ (n : ℕ) (h : n + 1 < N), ¬(n + 1) % 100 = 0 → ∀ i, f (n + 1) h i = f n (Nat.lt_of_succ_lt h) i + blockSum B W (n + 1) i)
    (t : ℕ) (ht : t < N) (h99 : t % 100 = 99) (q : Fin 2) (hq : t / 100 = q.val) (g : Fin 1024) (h : Fin 16) :
    f t ht (ix2 g h) = ∑ b : Fin 100, ∑ r : Fin 1000, Cert.Spec.hot B (Cert.Spec.rowOf q b r) g * W (Cert.Spec.rowOf q b r) h := by
  rw [fold_sum f _ h0 hs t ht, h99, hq, Finset.sum_range]
  refine Finset.sum_congr rfl fun b _ => ?_
  have hb := b.isLt
  have hq2 := q.isLt
  unfold blockSum
  rw [dif_pos (show 100 * q.val + b.val < 200 by omega)]
  refine Finset.sum_congr rfl fun r _ => ?_
  have hrow : (⟨1000 * (100 * q.val + b.val) + r.val, by have := r.isLt; omega⟩ : Fin 200000) = Cert.Spec.rowOf q b r :=
    Fin.ext (by show 1000 * (100 * q.val + b.val) + r.val = (q.val * 100 + b.val) * 1000 + r.val; omega)
  rw [hrow]

end P3

open P3

theorem pay3_1_apply (g : Fin 1024) (h : Fin 16) : k3_pay1 (F := Ideal) (ix2 g h) = 0 := by
  unfold Gen.k3_pay1
  rw [shapeCast_self]
  exact Ideal.ofBits_zero_f32

theorem pay3_3_apply (v : Vec Ideal S1024x16 .f32) (z : Fin 1) (g : Fin 1024) (h : Fin 16) :
    k3_pay3 (F := Ideal) v (ix3 z g h) = v (ix2 g h) := by
  unfold Gen.k3_pay3
  exact shapeCast_ab_1ab_apply v _ z g h

theorem pay3_2_apply (v3 : Vec Ideal S1000x16 .f32) (v8 : Vec Ideal S1000x1 .i32) (v16 : Vec Ideal S1024x16 .f32)
    (g : Fin 1024) (h : Fin 16) :
    k3_pay2 (F := Ideal) v3 v8 v16 (ix2 g h) = v16 (ix2 g h)
      + ∑ r : Fin 1000, (if v8 (ix2 r 0) = BitVec.ofNat 32 g.val then (1 : EReal) else 0)
          * Ideal.exp (Cert.Spec.alpha * v3 (ix2 r h)) := by
  unfold Gen.k3_pay2
  simp only [shapeCast_self]
  rw [addf_apply, matmul_pool_apply]
  refine congrArg (v16 (ix2 g h) + ·) (Finset.sum_congr rfl fun r _ => ?_)
  rw [member_apply]
  rfl

end Cert.KernelIdeal.Val

end
-- ==== Proof.KernelIdeal.Val3.lean ====
import proofs.«430393_j3504693313561_3_alg».proof.Proof.KernelIdeal.R3
import proofs.«430393_j3504693313561_3_alg».proof.Proof.KernelIdeal.Pay3

noncomputable section

namespace Cert.KernelIdeal.Val

open Idealize.ShloMosaic Idealize.ShloMosaic.TcCoe Idealize.ShloMosaic.ValueIdx Idealize.SL.Sem
open Cert.KernelIdeal Cert.KernelIdeal.Gen
open Idealize.ShloMosaic.Pipeline (Dat)

abbrev VTy3 (F : FTy → Type) [FloatOps F] := (c : Dev nD) → (b : Ref sig .tc) → Buf (Elt F) ((c : Thread nD τ).loc b)

theorem hz3_0 : (![0, 0] : Fin S1000x16.rank → Nat) = fun _ => 0 := funext fun a => by fin_cases a <;> rfl
theorem hz3_1 : (![0, 0] : Fin S1000x1.rank → Nat) = fun _ => 0 := funext fun a => by fin_cases a <;> rfl

theorem szero3_eq (i : S1024x16.Idx) : szero3 (F := Ideal) i = 0 := by
  obtain ⟨g, h, rfl⟩ : ∃ (g : Fin 1024) (h : Fin 16), i = ix2 g h := ⟨i 0, i 1, eq_ix2 i⟩
  unfold szero3
  rw [View.canon_unit_zero hz3_S]
  exact pay3_1_apply g h

theorem sacc3_apply (x0 : Vec Ideal S1000x16 .f32) (x1 : Vec Ideal S1000x1 .i32) (xs : Vec Ideal S1024x16 .f32)
    (g : Fin 1024) (h : Fin 16) :
    sacc3 (F := Ideal) x0 x1 xs (ix2 g h) = xs (ix2 g h)
      + ∑ r : Fin 1000, (if x1 (ix2 r 0) = BitVec.ofNat 32 g.val then (1 : EReal) else 0)
          * Ideal.exp (Cert.Spec.alpha * x0 (ix2 r h)) := by
  unfold sacc3
  rw [View.canon_unit_zero hz3_S, View.ld_unit_zero (S := S1000x16) hz3_0, View.ld_unit_zero (S := S1000x1) hz3_1,
    View.ld_unit_zero (S := S1024x16) hz3_S]
  exact pay3_2_apply x0 x1 xs g h

theorem out3_2_apply (xs : Vec Ideal S1024x16 .f32) (z : Fin 1) (g : Fin 1024) (h : Fin 16) :
    out3_2 (F := Ideal) xs (ix3 z g h) = xs (ix2 g h) := by
  unfold out3_2
  rw [View.canon_unit_zero hz3_2, View.ld_unit_zero (S := S1024x16) hz3_S]
  exact pay3_3_apply xs z g h

theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 3) = t.val / 100 ∧ win3_2.index t (1 : Fin 3) = 0 ∧ win3_2.index t (2 : Fin 3) = 0 :=
  (by decide +kernel : ∀ t : Fin grid3.N, _)

theorem iblk3_0_apply (V : VTy3 Ideal) (c : Dev nD) (t : Fin cfg3.N) (r : Fin 1000) (h : Fin 16) :
    (iblk3 V c 0 t : Vec Ideal S1000x16 .f32) (ix2 r h)
      = (V c (Pipeline.arrRef spec3 0) : Spec.Mat 200000 16)
          (ix2 ⟨1000 * t.val + r.val, by have : t.val < 200 := t.isLt; have := r.isLt; omega⟩ h) := by
  obtain ⟨e0, e1, -⟩ := idx_facts3 t
  show V c (Pipeline.arrRef spec3 0) (((cfg3.win 0).blk t).view.emb (ix2 r h)) = V c (Pipeline.arrRef spec3 0) _
  refine congrArg _ (funext fun a => Fin.ext ?_)
  match a with
  | ⟨0, _⟩ => show win3_0.index t (0 : Fin 2) * 1000 + 1 * r.val = 1000 * t.val + r.val; omega
  | ⟨1, _⟩ => show win3_0.index t (1 : Fin 2) * 16 + 1 * h.val = h.val; omega

theorem iblk3_1_apply (V : VTy3 Ideal) (c : Dev nD) (t : Fin cfg3.N) (r : Fin 1000) (z : Fin 1) :
    (iblk3 V c 1 t : Vec Ideal S1000x1 .i32) (ix2 r z)
      = (V c (Pipeline.arrRef spec3 1) : Spec.Lab 200000)
          (ix2 ⟨1000 * t.val + r.val, by have : t.val < 200 := t.isLt; have := r.isLt; omega⟩ 0) := by
  obtain ⟨-, -, e0, e1, -⟩ := idx_facts3 t
  show V c (Pipeline.arrRef spec3 1) (((cfg3.win 1).blk t).view.emb (ix2 r z)) = V c (Pipeline.arrRef spec3 1) _
  refine congrArg _ (funext fun a => Fin.ext ?_)
  match a with
  | ⟨0, _⟩ => show win3_1.index t (0 : Fin 2) * 1000 + 1 * r.val = 1000 * t.val + r.val; omega
  | ⟨1, _⟩ => show win3_1.index t (1 : Fin 2) * 1 + 1 * z.val = 0; have := z.isLt; omega

set_option maxHeartbeats 2000000 in
theorem sacc3_iblk (V : VTy3 Ideal) (c : Dev nD) (t : Fin cfg3.N) (xs : Vec Ideal S1024x16 .f32) (i : S1024x16.Idx) :
    sacc3 (F := Ideal) (iblk3 V c 0 t) (iblk3 V c 1 t) xs i
      = xs i + P3.blockSum (V c (Pipeline.arrRef spec3 1)) (fun n h => Spec.score (V c (Pipeline.arrRef spec3 0)) (ix2 n h)) t.val i := by
  obtain ⟨g, h, rfl⟩ : ∃ (g : Fin 1024) (h : Fin 16), i = ix2 g h := ⟨i 0, i 1, eq_ix2 i⟩
  rw [sacc3_apply]
  unfold P3.blockSum
  rw [dif_pos (show t.val < 200 from t.isLt)]
  congr 1
  refine Finset.sum_congr rfl fun r _ => ?_
  rw [iblk3_0_apply, iblk3_1_apply]
  rfl

theorem out3_eq (V : VTy3 Ideal) (c : Dev nD) (t : Fin cfg3.N) (h1 : t.val % 100 = 99) :
    (outsAt3 V c t.val t.isLt).1 = out3_2 (outsAt3 V c t.val t.isLt).2 := by
  rw [outsAt3_C V c t h1]

set_option maxHeartbeats 2000000 in

theorem flushed3_2_eq (V : VTy3 Ideal) (c : Dev nD) (t : Fin cfg3.N) (hf : (cfg3.win 2).flush t = true) :
    (dat3 V c).flushed 2 t = ((cfg3.win 2).blk t).view.read (Elt Ideal)
        (Cert.Spec.partDenom (V c (Pipeline.arrRef spec3 0)) (V c (Pipeline.arrRef spec3 1))) := by
  have h1 : t.val % 100 = 99 := (flush3_2 t).mp hf
  have ht : t.val < 200 := t.isLt
  obtain ⟨-, -, -, -, e0, e1, e2⟩ := idx_facts3 t
  show (cfg3.win 2).cut (grid3.coords t) ((dat3 V c).after 2 t) = _
  rw [after3_2, out3_eq V c t h1]
  refine funext fun (j : S1x1024x16.Idx) => ?_
  obtain ⟨z, g, h, rfl⟩ : ∃ (z : Fin 1) (g : Fin 1024) (h : Fin 16), j = ix3 z g h := ⟨j 0, j 1, j 2, eq_ix3 j⟩
  have hemb : ((cfg3.win 2).blk t).view.emb (ix3 z g h)
      = (ix3 (⟨t.val / 100, by omega⟩ : Fin 2) g h : S2x1024x16.Idx) := by
    funext a; apply Fin.ext
    match a with
    | ⟨0, _⟩ => show win3_2.index t (0 : Fin 3) * 1 + 1 * z.val = t.val / 100; have := z.isLt; omega
    | ⟨1, _⟩ => show win3_2.index t (1 : Fin 3) * 1024 + 1 * g.val = g.val; omega
    | ⟨2, _⟩ => show win3_2.index t (2 : Fin 3) * 16 + 1 * h.val = h.val; omega
  show out3_2 (F := Ideal) _ (ix3 z g h)
    = Cert.Spec.partDenom (V c (Pipeline.arrRef spec3 0)) (V c (Pipeline.arrRef spec3 1)) (((cfg3.win 2).blk t).view.emb (ix3 z g h))
  rw [hemb, out3_2_apply]
  exact P3.half_sum (N := cfg3.N) (fun n hn => (outsAt3 V c n hn).2) (V c (Pipeline.arrRef spec3 1))
    (fun n h => Spec.score (V c (Pipeline.arrRef spec3 0)) (ix2 n h))
    (fun n hn hm i => (congrFun (congrArg Prod.snd (outsAt3_A V c ⟨n, hn⟩ hm)) i).trans (by
      show sacc3 (F := Ideal) _ _ szero3 i = _
      rw [sacc3_iblk, szero3_eq, zero_add]))
    (fun n hn hm i => by
      by_cases h9 : (n + 1) % 100 = 99
      · exact (congrFun (congrArg Prod.snd (outsAt3_C V c ⟨n + 1, hn⟩ h9)) i).trans (sacc3_iblk V c ⟨n + 1, hn⟩ _ i)
      · exact (congrFun (congrArg Prod.snd (outsAt3_B V c ⟨n + 1, hn⟩ hm h9)) i).trans (sacc3_iblk V c ⟨n + 1, hn⟩ _ i))
    t.val t.isLt h1 ⟨t.val / 100, by omega⟩ rfl g h

theorem cover3_out (i : S2x1024x16.Idx) :
    ∃ t : Fin cfg3.N, (cfg3.win 2).flush t = true ∧ i ∈ ((cfg3.win 2).blk t).view.set := by
  have hi0 : (i 0).val < 2 := (i 0).isLt
  have hi1 : (i 1).val < 1024 := (i 1).isLt
  have hi2 : (i 2).val < 16 := (i 2).isLt
  obtain ⟨t, hv⟩ : ∃ t : Fin cfg3.N, t.val = 100 * (i 0).val + 99 :=
    ⟨⟨_, show 100 * (i 0).val + 99 < 200 by omega⟩, rfl⟩
  obtain ⟨-, -, -, -, e0, e1, e2⟩ := idx_facts3 t
  refine ⟨t, (flush3_2 t).mpr (by omega), ?_⟩
  show i ∈ ((View.whole main_v45).slice (win3_2.rect t)).set
  rw [View.set_slice_whole, Rect.mem_set_unit]
  intro a
  match a with
  | ⟨0, _⟩ => show win3_2.index t (0 : Fin 3) * 1 ≤ (i 0).val ∧ (i 0).val < win3_2.index t (0 : Fin 3) * 1 + 1; omega
  | ⟨1, _⟩ => show win3_2.index t (1 : Fin 3) * 1024 ≤ (i 1).val ∧ (i 1).val < win3_2.index t (1 : Fin 3) * 1024 + 1024; omega
  | ⟨2, _⟩ => show win3_2.index t (2 : Fin 3) * 16 ≤ (i 2).val ∧ (i 2).val < win3_2.index t (2 : Fin 3) * 16 + 16; omega

theorem arrAt3_out (V : VTy3 Ideal) (c : Dev nD) :
    (dat3 V c).arrAt 2 cfg3.N
      = Cert.Spec.partDenom (V c (Pipeline.arrRef spec3 0)) (V c (Pipeline.arrRef spec3 1)) :=
  (dat3 V c).arrAt_eq_of_cover 2 _ (fun t hf => flushed3_2_eq V c t hf) cover3_out

end Cert.KernelIdeal.Val

end
-- ==== Proof.KernelIdeal.R4Pieces.lean ====
import proofs.«430393_j3504693313561_3_alg».proof.Proof.KernelIdeal.R4

namespace Cert.KernelIdeal.Gen

open Idealize.ShloMosaic Idealize.ShloMosaic.TcCoe

variable {F : FTy → Type} [FloatOps F]

variable (V : (c : Dev nD) → (b : Ref sig .tc) → Buf (Elt F) ((c : Thread nD τ).loc b))

theorem outsAt4_fst_C (c : Dev nD) (t : Fin cfg4.N) (h1 : t.val % 100 = 99) :
    (outsAt4 V c t.val t.isLt).1 = k4_pay3 (acc4 V c t.val t.isLt) := rfl

end Cert.KernelIdeal.Gen
-- ==== Proof.KernelIdeal.Pay4.lean ====
import proofs.«430393_j3504693313561_3_alg».proof.Proof.KernelIdeal.Pay3

noncomputable section

namespace Cert.KernelIdeal.Val

open Idealize.ShloMosaic Idealize.ShloMosaic.TcCoe Idealize.ShloMosaic.ValueIdx Idealize.SL.Sem
open Cert.KernelIdeal Cert.KernelIdeal.Gen

open P3

theorem pay4_1_apply (g : Fin 1024) (h : Fin 16) : k4_pay1 (F := Ideal) (ix2 g h) = 0 := pay3_1_apply g h

theorem pay4_3_apply (v : Vec Ideal S1024x16 .f32) (z : Fin 1) (g : Fin 1024) (h : Fin 16) :
    k4_pay3 (F := Ideal) v (ix3 z g h) = v (ix2 g h) := pay3_3_apply v z g h

theorem pay4_2_apply (v3 : Vec Ideal S1000x16 .f32) (v8 : Vec Ideal S1000x1 .i32) (v15 v21 : Vec Ideal S1024x16 .f32) (g : Fin 1024) (h : Fin 16) :
    k4_pay2 (F := Ideal) v3 v8 v15 v21 (ix2 g h) = v21 (ix2 g h)
      + ∑ r : Fin 1000, (if v8 (ix2 r 0) = BitVec.ofNat 32 g.val then (1 : EReal) else 0)
          * (v3 (ix2 r h) * Ideal.div (Ideal.exp (Cert.Spec.alpha * v3 (ix2 r h)))
              (∑ g' : Fin 1024, (if v8 (ix2 r 0) = BitVec.ofNat 32 g'.val then (1 : EReal) else 0) * v15 (ix2 g' h))) := by
  unfold Gen.k4_pay2
  simp only [shapeCast_self]
  rw [addf_apply, matmul_pool_apply]
  refine congrArg (v21 (ix2 g h) + ·) (Finset.sum_congr rfl fun r _ => ?_)
  rw [member_apply, mulf_apply, divf_apply, mm_plain_apply dot_S1000x1024_S1024x16_S1000x16_1_0_0_1_n_n rfl]
  refine congrArg (_ * ·) (congrArg (v3 (ix2 r h) * ·) ?_)
  refine congrArg₂ Ideal.div ?_ (Finset.sum_congr rfl fun g' _ => by rw [member_apply])
  rfl

end Cert.KernelIdeal.Val

end
-- ==== Proof.KernelIdeal.Val4.lean ====
import proofs.«430393_j3504693313561_3_alg».proof.Proof.KernelIdeal.R4Pieces
import proofs.«430393_j3504693313561_3_alg».proof.Proof.KernelIdeal.Pay4

noncomputable section

namespace Cert.KernelIdeal.Val

open Idealize.ShloMosaic Idealize.ShloMosaic.TcCoe Idealize.ShloMosaic.ValueIdx Idealize.SL.Sem
open Cert.KernelIdeal Cert.KernelIdeal.Gen
open Idealize.ShloMosaic.Pipeline (Dat)

namespace P4

theorem pay1_eq_zero (i : S1024x16.Idx) : k4_pay1 (F := Ideal) i = 0 := by
  obtain ⟨g, h, rfl⟩ : ∃ (g : Fin 1024) (h : Fin 16), i = ix2 g h := ⟨i 0, i 1, eq_ix2 i⟩
  exact pay4_1_apply g h

section Region
variable (V : (c : Dev nD) → (b : Ref sig .tc) → Buf (Elt Ideal) ((c : Thread nD τ).loc b))

noncomputable def xblk (c : Dev nD) (n : ℕ) (hn : n < cfg4.N) : Vec Ideal S1000x16 .f32 := iblk4 V c 0 ⟨n, hn⟩

noncomputable def lblk (c : Dev nD) (n : ℕ) (hn : n < cfg4.N) : Vec Ideal S1000x1 .i32 := iblk4 V c 1 ⟨n, hn⟩

noncomputable def dblk (c : Dev nD) (n : ℕ) (hn : n < cfg4.N) : Vec Ideal S1024x16 .f32 := iblk4 V c 2 ⟨n, hn⟩

noncomputable def xarr (c : Dev nD) : Cert.Spec.Mat 200000 16 := V c (Pipeline.arrRef spec4 0)
noncomputable def larr (c : Dev nD) : Cert.Spec.Lab 200000 := V c (Pipeline.arrRef spec4 1)
noncomputable def darr (c : Dev nD) : Cert.Spec.Mat 1024 16 := V c (Pipeline.arrRef spec4 2)

theorem idx_facts4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 3) = t.val / 100 ∧ win4_3.index t (1 : Fin 3) = 0 ∧ win4_3.index t (2 : Fin 3) = 0 :=
  (by decide +kernel : ∀ t : Fin grid4.N, _)

theorem iblk0_apply (c : Dev nD) (t : Fin cfg4.N) (x : S1000x16.Idx) (k : S200000x16.Idx)
    (hk0 : (k 0).val = 1000 * t.val + (x 0).val) (hk1 : (k 1).val = (x 1).val) :
    (iblk4 V c 0 t : Vec Ideal S1000x16 .f32) x = (V c (Pipeline.arrRef spec4 0) : S200000x16.Idx → EReal) k := by
  obtain ⟨e0, e1, -⟩ := idx_facts4 t
  unfold iblk4
  rw [View.read_apply]
  show V c (Pipeline.arrRef spec4 0) _ = V c (Pipeline.arrRef spec4 0) _
  congr 1
  funext a
  apply Fin.ext
  match a with
  | ⟨0, _⟩ => show win4_0.index t (0 : Fin 2) * 1000 + 1 * (x 0).val = (k 0).val; omega
  | ⟨1, _⟩ => show win4_0.index t (1 : Fin 2) * 16 + 1 * (x 1).val = (k 1).val; omega

theorem iblk1_apply (c : Dev nD) (t : Fin cfg4.N) (x : S1000x1.Idx) (k : S200000x1.Idx)
    (hk0 : (k 0).val = 1000 * t.val + (x 0).val) (hk1 : (k 1).val = (x 1).val) :
    (iblk4 V c 1 t : Vec Ideal S1000x1 .i32) x = (V c (Pipeline.arrRef spec4 1) : S200000x1.Idx → BitVec 32) k := by
  obtain ⟨-, -, e0, e1, -⟩ := idx_facts4 t
  unfold iblk4
  rw [View.read_apply]
  show V c (Pipeline.arrRef spec4 1) _ = V c (Pipeline.arrRef spec4 1) _
  congr 1
  funext a
  apply Fin.ext
  match a with
  | ⟨0, _⟩ => show win4_1.index t (0 : Fin 2) * 1000 + 1 * (x 0).val = (k 0).val; omega
  | ⟨1, _⟩ => show win4_1.index t (1 : Fin 2) * 1 + 1 * (x 1).val = (k 1).val; omega

theorem iblk2_apply (c : Dev nD) (t : Fin cfg4.N) (x : S1024x16.Idx) :
    (iblk4 V c 2 t : Vec Ideal S1024x16 .f32) x = (V c (Pipeline.arrRef spec4 2) : S1024x16.Idx → EReal) x := by
  obtain ⟨-, -, -, -, e0, e1, -⟩ := idx_facts4 t
  unfold iblk4
  rw [View.read_apply]
  show V c (Pipeline.arrRef spec4 2) _ = V c (Pipeline.arrRef spec4 2) _
  congr 1
  funext a
  apply Fin.ext
  match a with
  | ⟨0, _⟩ => show win4_2.index t (0 : Fin 2) * 1024 + 1 * (x 0).val = (x 0).val; omega
  | ⟨1, _⟩ => show win4_2.index t (1 : Fin 2) * 16 + 1 * (x 1).val = (x 1).val; omega

noncomputable def W4 (X : Cert.Spec.Mat 200000 16) (B : Cert.Spec.Lab 200000) (Dn : Cert.Spec.Mat 1024 16) (n : Fin 200000) (h : Fin 16) : EReal :=
  X (ix2 n h) * Ideal.div (Cert.Spec.score X (ix2 n h)) (∑ g' : Fin 1024, Cert.Spec.hot B n g' * Dn (ix2 g' h))

theorem pay2_blk (c : Dev nD) (n : ℕ) (hn : n < cfg4.N) (acc : Vec Ideal S1024x16 .f32) (i : S1024x16.Idx) :
    k4_pay2 (F := Ideal) (xblk V c n hn) (lblk V c n hn) (dblk V c n hn) acc i
      = acc i + P3.blockSum (larr V c) (W4 (xarr V c) (larr V c) (darr V c)) n i := by
  obtain ⟨g, h, rfl⟩ : ∃ (g : Fin 1024) (h : Fin 16), i = ix2 g h := ⟨i 0, i 1, eq_ix2 i⟩
  have hn' : n < 200 := N_4 ▸ hn
  rw [pay4_2_apply]
  unfold P3.blockSum
  rw [dif_pos hn']
  refine congrArg (acc (ix2 g h) + ·) (Finset.sum_congr rfl fun r _ => ?_)
  have hx : xblk V c n hn (ix2 r h) = xarr V c (ix2 ⟨1000 * n + r.val, by have := r.isLt; omega⟩ h) :=
    iblk0_apply V c ⟨n, hn⟩ (ix2 r h) (ix2 ⟨_, _⟩ h) rfl rfl
  have hl : lblk V c n hn (ix2 r 0) = larr V c (ix2 ⟨1000 * n + r.val, by have := r.isLt; omega⟩ 0) :=
    iblk1_apply V c ⟨n, hn⟩ (ix2 r 0) (ix2 ⟨_, _⟩ 0) rfl rfl
  have hd : ∀ g' : Fin 1024, dblk V c n hn (ix2 g' h) = darr V c (ix2 g' h) := fun g' => iblk2_apply V c ⟨n, hn⟩ (ix2 g' h)
  rw [hx, hl]
  simp only [hd]
  rfl

theorem acc_reset (c : Dev nD) : ∀ (n : ℕ) (h : n < cfg4.N), n % 100 = 0 →
    acc4 V c n h = k4_pay2 (F := Ideal) (xblk V c n h) (lblk V c n h) (dblk V c n h) (k4_pay1 (F := Ideal))
  | 0, h, _ => acc4_zero V c h
  | n + 1, h, h0 => (acc4_succ V c n h).trans (by rw [if_pos h0]; rfl)

theorem acc_step (c : Dev nD) (n : ℕ) (h : n + 1 < cfg4.N) (hs : ¬(n + 1) % 100 = 0) :
    acc4 V c (n + 1) h = k4_pay2 (F := Ideal) (xblk V c (n + 1) h) (lblk V c (n + 1) h) (dblk V c (n + 1) h) (acc4 V c n (Nat.lt_of_succ_lt h)) :=
  (acc4_succ V c n h).trans (by rw [if_neg hs]; rfl)

theorem out_read (c : Dev nD) (t : Fin cfg4.N) (ht : t.val % 100 = 99) (y : S1x1024x16.Idx) (k : S2x1024x16.Idx)
    (hk0 : (k 0).val = t.val / 100 + (y 0).val) (hk1 : (k 1).val = (y 1).val) (hk2 : (k 2).val = (y 2).val) :
    k4_pay3 (F := Ideal) (acc4 V c t.val t.isLt) y = Cert.Spec.partPool (xarr V c) (larr V c) (darr V c) k := by
  obtain ⟨z, g, h, rfl⟩ : ∃ (z : Fin 1) (g : Fin 1024) (h : Fin 16), y = ix3 z g h := ⟨y 0, y 1, y 2, eq_ix3 y⟩
  obtain ⟨q, g', h', rfl⟩ : ∃ (q : Fin 2) (g' : Fin 1024) (h' : Fin 16), k = ix3 q g' h' := ⟨k 0, k 1, k 2, eq_ix3 k⟩
  obtain rfl : g' = g := Fin.ext hk1
  obtain rfl : h' = h := Fin.ext hk2
  rw [pay4_3_apply, P3.half_sum (acc4 V c) (larr V c) (W4 (xarr V c) (larr V c) (darr V c))
    (fun n hn h0 i => by rw [acc_reset V c n hn h0, pay2_blk, pay1_eq_zero, zero_add])
    (fun n hn hs i => by rw [acc_step V c n hn hs, pay2_blk])
    t.val t.isLt ht q (by have : q.val = t.val / 100 + z.val := hk0; have := z.isLt; omega) _ _]
  rfl

theorem flushed4_eq (c : Dev nD) (t : Fin cfg4.N) (hf : (cfg4.win 3).flush t = true) :
    (dat4 V c).flushed 3 t = ((cfg4.win 3).blk t).view.read (Elt Ideal) (Cert.Spec.partPool (xarr V c) (larr V c) (darr V c)) := by
  have ht : t.val % 100 = 99 := (flush4_3 t).mp hf
  obtain ⟨-, -, -, -, -, -, e0, e1, e2⟩ := idx_facts4 t
  show (cfg4.win 3).cut (grid4.coords t) ((dat4 V c).after 3 t) = _
  rw [after4_3, outsAt4_fst_C V c t ht]
  funext y
  rw [View.read_apply]
  refine out_read V c t ht y _ ?_ ?_ ?_
  · show win4_3.index t (0 : Fin 3) * 1 + 1 * (y 0).val = t.val / 100 + (y 0).val; omega
  · show win4_3.index t (1 : Fin 3) * 1024 + 1 * (y 1).val = (y 1).val; omega
  · show win4_3.index t (2 : Fin 3) * 16 + 1 * (y 2).val = (y 2).val; omega

theorem cover4 (i : S2x1024x16.Idx) : ∃ t : Fin cfg4.N, (cfg4.win 3).flush t = true ∧ i ∈ ((cfg4.win 3).blk t).view.set := by
  have hN : cfg4.N = 200 := N_4
  have hi0 : (i 0).val < 2 := (i 0).isLt
  have hi1 : (i 1).val < 1024 := (i 1).isLt
  have hi2 : (i 2).val < 16 := (i 2).isLt
  obtain ⟨t, hv⟩ : ∃ t : Fin cfg4.N, t.val = (i 0).val * 100 + 99 := ⟨⟨_, by omega⟩, rfl⟩
  obtain ⟨-, -, -, -, -, -, e0, e1, e2⟩ := idx_facts4 t
  refine ⟨t, (flush4_3 t).mpr (by omega), ?_⟩
  show i ∈ ((View.whole main_v51).slice (win4_3.rect t)).set
  rw [View.set_slice_whole, Rect.mem_set_unit]
  intro a
  match a with
  | ⟨0, _⟩ => show win4_3.index t (0 : Fin 3) * 1 ≤ (i 0).val ∧ (i 0).val < win4_3.index t (0 : Fin 3) * 1 + 1; omega
  | ⟨1, _⟩ => show win4_3.index t (1 : Fin 3) * 1024 ≤ (i 1).val ∧ (i 1).val < win4_3.index t (1 : Fin 3) * 1024 + 1024; omega
  | ⟨2, _⟩ => show win4_3.index t (2 : Fin 3) * 16 ≤ (i 2).val ∧ (i 2).val < win4_3.index t (2 : Fin 3) * 16 + 16; omega

end Region

end P4

theorem arrAt4_out (V : (c : Dev nD) → (b : Ref sig .tc) → Buf (Elt Ideal) ((c : Thread nD τ).loc b)) (c : Dev nD) :
    (dat4 V c).arrAt 3 cfg4.N
      = Cert.Spec.partPool (V c (Pipeline.arrRef spec4 0)) (V c (Pipeline.arrRef spec4 1)) (V c (Pipeline.arrRef spec4 2)) :=
  (dat4 V c).arrAt_eq_of_cover 3 (Cert.Spec.partPool (P4.xarr V c) (P4.larr V c) (P4.darr V c)) (fun t hf => P4.flushed4_eq V c t hf) P4.cover4

end Cert.KernelIdeal.Val

end
-- ==== Proof.KernelIdeal.Pay5.lean ====
import proofs.«430393_j3504693313561_3_alg».proof.Proof.KernelIdeal.Pay3

noncomputable section

namespace Cert.KernelIdeal.Val

open Idealize.ShloMosaic Idealize.ShloMosaic.TcCoe Idealize.ShloMosaic.ValueIdx Idealize.SL.Sem
open Cert.KernelIdeal Cert.KernelIdeal.Gen

open P3

-- The product plus the bias row repeated down the rows is the affine layer.
theorem P5.affine_eq {n : ℕ} (d : DotDims S1024x16 ⟨2, ![16, n]⟩ ⟨2, ![1024, n]⟩) (hd : d = DotDims.plain 1024 16 n)
    (A : FVec Ideal S1024x16 .f32) (W : FVec Ideal ⟨2, ![16, n]⟩ .f32) (b : FVec Ideal ⟨1, ![n]⟩ .f32)
    (hb : FTy.bits .bf16 < FTy.bits .f32) (hc : (⟨1, ![n]⟩ : Shape).ShapeCasts ⟨2, ![1, n]⟩)
    (hr : (⟨2, ![1, n]⟩ : Shape).Broadcasts ⟨2, ![1024, n]⟩) :
    addf (matmul d none (truncf .bf16 A hb) (truncf .bf16 W hb) (constant (F := Ideal) ⟨2, ![1024, n]⟩ .f32 0x00000000#32))
        (broadcastTo ⟨2, ![1024, n]⟩ (shapeCast ⟨2, ![1, n]⟩ b hc) hr) = Cert.Spec.affine A W b := by
  funext j
  obtain ⟨p, q, rfl⟩ : ∃ (p : Fin 1024) (q : Fin n), j = ix2 p q := ⟨j 0, j 1, eq_ix2 j⟩
  rw [addf_apply, mm_plain_apply d hd, broadcastTo_1b_ab_apply, shapeCast_a_1a_apply]
  rfl

-- A hidden layer is the affine layer under a maximum against zero.
theorem P5.hidden_eq (A : FVec Ideal S1024x16 .f32) (W : FVec Ideal S16x16 .f32) (b : FVec Ideal S16 .f32) :
    maximumf (Cert.Spec.affine A W b) (broadcast S1024x16 (Scalar.ofBits (F := Ideal) .f32 0x00000000#32)) = Cert.Spec.dense A W b := by
  funext j
  rw [maximumf_apply, broadcast_apply]
  show max _ (Ideal.ofBits .f32 0x00000000#32) = _
  rw [Ideal.ofBits_zero_f32]
  rfl

theorem pay5_eq (v0 : Vec Ideal S1024x16 .f32) (v3 : Vec Ideal S16x16 .f32) (v6 : Vec Ideal S16 .f32)
    (v13 : Vec Ideal S16x16 .f32) (v16 : Vec Ideal S16 .f32) (v23 : Vec Ideal S16x1 .f32) (v26 : Vec Ideal S1 .f32) :
    k5_pay1 (F := Ideal) v0 v3 v6 v13 v16 v23 v26 = Cert.Spec.mlp v0 v3 v6 v13 v16 v23 v26 := by
  unfold Gen.k5_pay1
  simp only [shapeCast_self]
  rw [P5.affine_eq dot_S1024x16_S16x16_S1024x16_1_0_0_1_n_n rfl, P5.hidden_eq, P5.affine_eq dot_S1024x16_S16x16_S1024x16_1_0_0_1_n_n rfl, P5.hidden_eq, P5.affine_eq dot_S1024x16_S16x1_S1024x1_1_0_0_1_n_n rfl]
  rfl

end Cert.KernelIdeal.Val

end
-- ==== Proof.KernelIdeal.Val5.lean ====
import proofs.«430393_j3504693313561_3_alg».proof.Proof.KernelIdeal.R5
import proofs.«430393_j3504693313561_3_alg».proof.Proof.KernelIdeal.Pay5

noncomputable section

namespace Cert.KernelIdeal.Val

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

namespace P5

theorem zeros2 : (![0, 0] : Fin 2 → Nat) = fun _ => 0 := funext fun a => by fin_cases a <;> rfl
theorem zeros1 : (![0] : Fin 1 → Nat) = fun _ => 0 := funext fun a => by fin_cases a <;> rfl

theorem idx_facts : ∀ t : Fin cfg5.N, (∀ a, win5_0.index t a = 0) ∧ (∀ a, win5_1.index t a = 0) ∧ (∀ a, win5_2.index t a = 0)
    ∧ (∀ a, win5_3.index t a = 0) ∧ (∀ a, win5_4.index t a = 0) ∧ (∀ a, win5_5.index t a = 0) ∧ (∀ a, win5_6.index t a = 0)
    ∧ (∀ a, win5_7.index t a = 0) :=
  (by decide +kernel : ∀ t : Fin grid5.N, _)

theorem iblk_0 (c : Dev nD) (t : Fin cfg5.N) : (iblk5 V c 0 t : Vec Ideal S1024x16 .f32) = V c (Pipeline.arrRef spec5 0) :=
  funext fun j => congrArg (V c (Pipeline.arrRef spec5 0)) (funext fun a => Fin.ext (win5_0.rect_emb_val_of_index_zero t a ((idx_facts t).1 a) j))
theorem iblk_1 (c : Dev nD) (t : Fin cfg5.N) : (iblk5 V c 1 t : Vec Ideal S16x16 .f32) = V c (Pipeline.arrRef spec5 1) :=
  funext fun j => congrArg (V c (Pipeline.arrRef spec5 1)) (funext fun a => Fin.ext (win5_1.rect_emb_val_of_index_zero t a ((idx_facts t).2.1 a) j))
theorem iblk_2 (c : Dev nD) (t : Fin cfg5.N) : (iblk5 V c 2 t : Vec Ideal S16 .f32) = V c (Pipeline.arrRef spec5 2) :=
  funext fun j => congrArg (V c (Pipeline.arrRef spec5 2)) (funext fun a => Fin.ext (win5_2.rect_emb_val_of_index_zero t a ((idx_facts t).2.2.1 a) j))
theorem iblk_3 (c : Dev nD) (t : Fin cfg5.N) : (iblk5 V c 3 t : Vec Ideal S16x16 .f32) = V c (Pipeline.arrRef spec5 3) :=
  funext fun j => congrArg (V c (Pipeline.arrRef spec5 3)) (funext fun a => Fin.ext (win5_3.rect_emb_val_of_index_zero t a ((idx_facts t).2.2.2.1 a) j))
theorem iblk_4 (c : Dev nD) (t : Fin cfg5.N) : (iblk5 V c 4 t : Vec Ideal S16 .f32) = V c (Pipeline.arrRef spec5 4) :=
  funext fun j => congrArg (V c (Pipeline.arrRef spec5 4)) (funext fun a => Fin.ext (win5_4.rect_emb_val_of_index_zero t a ((idx_facts t).2.2.2.2.1 a) j))
theorem iblk_5 (c : Dev nD) (t : Fin cfg5.N) : (iblk5 V c 5 t : Vec Ideal S16x1 .f32) = V c (Pipeline.arrRef spec5 5) :=
  funext fun j => congrArg (V c (Pipeline.arrRef spec5 5)) (funext fun a => Fin.ext (win5_5.rect_emb_val_of_index_zero t a ((idx_facts t).2.2.2.2.2.1 a) j))
theorem iblk_6 (c : Dev nD) (t : Fin cfg5.N) : (iblk5 V c 6 t : Vec Ideal S1 .f32) = V c (Pipeline.arrRef spec5 6) :=
  funext fun j => congrArg (V c (Pipeline.arrRef spec5 6)) (funext fun a => Fin.ext (win5_6.rect_emb_val_of_index_zero t a ((idx_facts t).2.2.2.2.2.2.1 a) j))

def tgt (c : Dev nD) : Cert.Spec.Mat 1024 1 :=
  Cert.Spec.mlp (V c (Pipeline.arrRef spec5 0)) (V c (Pipeline.arrRef spec5 1)) (V c (Pipeline.arrRef spec5 2))
    (V c (Pipeline.arrRef spec5 3)) (V c (Pipeline.arrRef spec5 4)) (V c (Pipeline.arrRef spec5 5)) (V c (Pipeline.arrRef spec5 6))

theorem pay_blocks (c : Dev nD) (t : Fin cfg5.N) :
    k5_pay1 (F := Ideal) (iblk5 V c 0 t) (iblk5 V c 1 t) (iblk5 V c 2 t) (iblk5 V c 3 t) (iblk5 V c 4 t) (iblk5 V c 5 t) (iblk5 V c 6 t)
      = tgt V c := by
  rw [pay5_eq, iblk_0, iblk_1, iblk_2, iblk_3, iblk_4, iblk_5, iblk_6]
  rfl

theorem flushed_7 (c : Dev nD) (t : Fin cfg5.N) :
    (dat5 V c).flushed 7 t = ((cfg5.win 7).blk t).view.read (Elt Ideal) (tgt V c) := by
  show (cfg5.win 7).cut (grid5.coords t) ((dat5 V c).after 7 t) = _
  rw [after5_7]
  unfold out5_7
  rw [View.canon_unit_zero zeros2]
  simp only [View.ld_unit_zero (S := S1024x16) zeros2, View.ld_unit_zero (S := S16x16) zeros2,
    View.ld_unit_zero (S := S16x1) zeros2, View.ld_unit_zero (S := S16) zeros1, View.ld_unit_zero (S := S1) zeros1]
  rw [pay_blocks]
  funext j
  rw [View.read_apply]
  exact congrArg (tgt V c) (funext fun a => Fin.ext (win5_7.rect_emb_val_of_index_zero t a ((idx_facts t).2.2.2.2.2.2.2 a) j).symm)

theorem cover_7 (i : S1024x1.Idx) :
    ∃ t : Fin cfg5.N, (cfg5.win 7).flush t = true ∧ i ∈ ((cfg5.win 7).blk t).view.set := by
  refine ⟨t5_0, flush5_7 t5_0, ?_⟩
  show i ∈ ((View.whole main_v57).slice (win5_7.rect t5_0)).set
  rw [View.set_slice_whole, Rect.mem_set_unit]
  intro a
  show win5_7.index t5_0 a * S1024x1.size a ≤ (i a).val ∧ (i a).val < win5_7.index t5_0 a * S1024x1.size a + S1024x1.size a
  rw [(idx_facts t5_0).2.2.2.2.2.2.2 a, Nat.zero_mul, Nat.zero_add]
  exact ⟨Nat.zero_le _, (i a).isLt⟩

end P5

theorem arrAt5_out (c : Dev nD) :
    (dat5 V c).arrAt 7 cfg5.N = Cert.Spec.mlp (V c (Pipeline.arrRef spec5 0)) (V c (Pipeline.arrRef spec5 1)) (V c (Pipeline.arrRef spec5 2))
      (V c (Pipeline.arrRef spec5 3)) (V c (Pipeline.arrRef spec5 4)) (V c (Pipeline.arrRef spec5 5)) (V c (Pipeline.arrRef spec5 6)) :=
  (dat5 V c).arrAt_eq_of_cover 7 (P5.tgt V c) (fun t _ => P5.flushed_7 V c t) P5.cover_7

end Cert.KernelIdeal.Val

end
-- ==== Proof.Ref.Layers.lean ====
import proofs.«430393_j3504693313561_3_alg».proof.Proof.Gen.ReferenceIdeal.Read
import proofs.«430393_j3504693313561_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.TcCoe Idealize.ShloMosaic.ValueIdx Idealize.SL.Sem Idealize.ShloMosaic.StableHlo

local macro "idx2" : tactic =>
  `(tactic| exact funext fun a => Fin.ext (by match a with | ⟨0, _⟩ => rfl | ⟨1, _⟩ => rfl))
local macro "idx1" : tactic =>
  `(tactic| exact funext fun a => Fin.ext (by match a with | ⟨0, _⟩ => rfl))

variable (x0 : (⟨S200000x1, .f32⟩ : BufTy).Contents (Elt Ideal)) (x1 : (⟨S2x5000000, .i32⟩ : BufTy).Contents (Elt Ideal))
  (x3 : (⟨S1x16, .f32⟩ : BufTy).Contents (Elt Ideal)) (x4 : (⟨S16, .f32⟩ : BufTy).Contents (Elt Ideal))
  (x5 : (⟨S1x16, .f32⟩ : BufTy).Contents (Elt Ideal)) (x6 : (⟨S16x16, .f32⟩ : BufTy).Contents (Elt Ideal))
  (x7 : (⟨S16, .f32⟩ : BufTy).Contents (Elt Ideal))
  (x8 : (⟨S16x16, .f32⟩ : BufTy).Contents (Elt Ideal)) (x9 : (⟨S16, .f32⟩ : BufTy).Contents (Elt Ideal))
  (x10 x11 : (⟨S16x16, .f32⟩ : BufTy).Contents (Elt Ideal)) (x12 : (⟨S16, .f32⟩ : BufTy).Contents (Elt Ideal))
  (x13 : (⟨S16x16, .f32⟩ : BufTy).Contents (Elt Ideal)) (x14 : (⟨S16, .f32⟩ : BufTy).Contents (Elt Ideal))
  (x15 x16 : (⟨S16x16, .f32⟩ : BufTy).Contents (Elt Ideal)) (x17 : (⟨S16, .f32⟩ : BufTy).Contents (Elt Ideal))

theorem layer0 :
    val_main_v32 (F := Ideal) x0 x1 x3 x4 x5 x6 x7
      = Cert.Spec.sage (d := 1) (val_main_v13 (F := Ideal) x0 x1) (val_main_v20 (F := Ideal) x1) x0 x3 x4 x5 x6 x7 := by
  funext i
  obtain ⟨n, j, rfl⟩ : ∃ (n : Fin 200000) (j : Fin 16), i = ix2 n j := ⟨i 0, i 1, eq_ix2 i⟩
  have e29l : ∀ k : Fin 16, lidx_main_v29 (ix2 n j) k = ix2 n k := fun k => by idx2
  have e29r : ∀ k : Fin 16, ridx_main_v29 (ix2 n j) k = ix2 k j := fun k => by idx2
  have e30 : idx_main_v30 (idx_main_v31 (ix2 n j)) = ix1 j := by idx1
  have e22l : ∀ (k : Fin 16) (a : Fin 1), lidx_main_v22 (ix2 n k) a = ix2 n a := fun k a => by idx2
  have e22r : ∀ (k : Fin 16) (a : Fin 1), ridx_main_v22 (ix2 n k) a = ix2 a k := fun k a => by idx2
  have e26l : ∀ (k : Fin 16) (a : Fin 1), lidx_main_v26 (ix2 n k) a = ix2 n a := fun k a => by idx2
  have e26r : ∀ (k : Fin 16) (a : Fin 1), ridx_main_v26 (ix2 n k) a = ix2 a k := fun k a => by idx2
  have e23 : ∀ k : Fin 16, idx_main_v23 (idx_main_v24 (ix2 n k)) = ix1 k := fun k => by idx1
  have h28 := @val_main_v28_apply Ideal _
  have h27 := @val_main_v27_apply Ideal _
  have h25 := @val_main_v25_apply Ideal _
  have h21 := @val_main_v21_apply Ideal _
  have hc := @val_main_call0_cst_apply Ideal _
  rw [val_main_v32_apply, val_main_v29_apply, val_main_v31_apply, val_main_v30_apply, Cert.Spec.sage, Cert.Spec.mat_ix2]
  simp only [e29l, e29r, e30, h28, h27, h25, val_main_v22_apply, val_main_v24_apply, val_main_v23_apply,
    val_main_v26_apply, h21, val_main_call0_v0_apply, hc, e22l, e22r, e26l, e26r, e23, Ideal.addf_def, Ideal.maximumf_def, Ideal.hostDivf_def, Ideal.ofBits_def, Ideal.ofBits_zero_f32, Fin.sum_univ_one]

theorem summed1_eq :
    val_main_v42 (F := Ideal) x0 x1 x3 x4 x5 x6 x7
      = Host.scatterAdd (F := Ideal) (φ := .f32) scatter_S200000x16_S5000000x1_S5000000x16_1_0_0_1 (val_main_v40 (F := Ideal)) (val_main_v41 (F := Ideal) x1)
          (Host.gather gather_S200000x16_S5000000x1_S5000000x16_1_0_n_n_0_1_116 (val_main_v32 (F := Ideal) x0 x1 x3 x4 x5 x6 x7) (val_main_v38 (F := Ideal) x1)) := rfl

theorem layer1 :
    val_main_v62 (F := Ideal) x0 x1 x3 x4 x5 x6 x7 x8 x9 x10 x11 x12
      = Cert.Spec.sage (d := 16) (val_main_v42 (F := Ideal) x0 x1 x3 x4 x5 x6 x7) (val_main_v49 (F := Ideal) x1)
          (val_main_v32 (F := Ideal) x0 x1 x3 x4 x5 x6 x7) x8 x9 x10 x11 x12 := by
  funext i
  obtain ⟨n, j, rfl⟩ : ∃ (n : Fin 200000) (j : Fin 16), i = ix2 n j := ⟨i 0, i 1, eq_ix2 i⟩
  have eOl : ∀ k : Fin 16, lidx_main_v59 (ix2 n j) k = ix2 n k := fun k => by idx2
  have eOr : ∀ k : Fin 16, ridx_main_v59 (ix2 n j) k = ix2 k j := fun k => by idx2
  have eO1 : idx_main_v60 (idx_main_v61 (ix2 n j)) = ix1 j := by idx1
  have eLl : ∀ (k a : Fin 16), lidx_main_v52 (ix2 n k) a = ix2 n a := fun k a => by idx2
  have eLr : ∀ (k a : Fin 16), ridx_main_v52 (ix2 n k) a = ix2 a k := fun k a => by idx2
  have eRl : ∀ (k a : Fin 16), lidx_main_v56 (ix2 n k) a = ix2 n a := fun k a => by idx2
  have eRr : ∀ (k a : Fin 16), ridx_main_v56 (ix2 n k) a = ix2 a k := fun k a => by idx2
  have eB1 : ∀ k : Fin 16, idx_main_v53 (idx_main_v54 (ix2 n k)) = ix1 k := fun k => by idx1
  have eD : ∀ a : Fin 16, idx_main_v50 (ix2 n a) = ix2 n (0 : Fin 1) := fun a => by idx2
  have hrelu := @val_main_v58_apply Ideal _
  have hadd2 := @val_main_v57_apply Ideal _
  have hadd1 := @val_main_v55_apply Ideal _
  have hmean := @val_main_v51_apply Ideal _
  have hc := @val_main_call1_cst_apply Ideal _
  rw [val_main_v62_apply, val_main_v59_apply, val_main_v61_apply, val_main_v60_apply, Cert.Spec.sage, Cert.Spec.mat_ix2]
  simp only [eOl, eOr, eO1, hrelu, hadd2, hadd1, val_main_v52_apply, val_main_v54_apply, val_main_v53_apply,
    val_main_v56_apply, hmean, val_main_v50_apply, val_main_call1_v0_apply, hc, eLl, eLr, eRl, eRr, eB1, eD,
    Ideal.addf_def, Ideal.maximumf_def, Ideal.hostDivf_def, Ideal.ofBits_def, Ideal.ofBits_zero_f32]

theorem layer2 :
    val_main_v92 (F := Ideal) x0 x1 x3 x4 x5 x6 x7 x8 x9 x10 x11 x12 x13 x14 x15 x16 x17
      = Cert.Spec.sage (d := 16) (val_main_v72 (F := Ideal) x0 x1 x3 x4 x5 x6 x7 x8 x9 x10 x11 x12) (val_main_v79 (F := Ideal) x1)
          (val_main_v62 (F := Ideal) x0 x1 x3 x4 x5 x6 x7 x8 x9 x10 x11 x12) x13 x14 x15 x16 x17 := by
  funext i
  obtain ⟨n, j, rfl⟩ : ∃ (n : Fin 200000) (j : Fin 16), i = ix2 n j := ⟨i 0, i 1, eq_ix2 i⟩
  have eOl : ∀ k : Fin 16, lidx_main_v89 (ix2 n j) k = ix2 n k := fun k => by idx2
  have eOr : ∀ k : Fin 16, ridx_main_v89 (ix2 n j) k = ix2 k j := fun k => by idx2
  have eO1 : idx_main_v90 (idx_main_v91 (ix2 n j)) = ix1 j := by idx1
  have eLl : ∀ (k a : Fin 16), lidx_main_v82 (ix2 n k) a = ix2 n a := fun k a => by idx2
  have eLr : ∀ (k a : Fin 16), ridx_main_v82 (ix2 n k) a = ix2 a k := fun k a => by idx2
  have eRl : ∀ (k a : Fin 16), lidx_main_v86 (ix2 n k) a = ix2 n a := fun k a => by idx2
  have eRr : ∀ (k a : Fin 16), ridx_main_v86 (ix2 n k) a = ix2 a k := fun k a => by idx2
  have eB1 : ∀ k : Fin 16, idx_main_v83 (idx_main_v84 (ix2 n k)) = ix1 k := fun k => by idx1
  have eD : ∀ a : Fin 16, idx_main_v80 (ix2 n a) = ix2 n (0 : Fin 1) := fun a => by idx2
  have hrelu := @val_main_v88_apply Ideal _
  have hadd2 := @val_main_v87_apply Ideal _
  have hadd1 := @val_main_v85_apply Ideal _
  have hmean := @val_main_v81_apply Ideal _
  have hc := @val_main_call2_cst_apply Ideal _
  rw [val_main_v92_apply, val_main_v89_apply, val_main_v91_apply, val_main_v90_apply, Cert.Spec.sage, Cert.Spec.mat_ix2]
  simp only [eOl, eOr, eO1, hrelu, hadd2, hadd1, val_main_v82_apply, val_main_v84_apply, val_main_v83_apply,
    val_main_v86_apply, hmean, val_main_v80_apply, val_main_call2_v0_apply, hc, eLl, eLr, eRl, eRr, eB1, eD,
    Ideal.addf_def, Ideal.maximumf_def, Ideal.hostDivf_def, Ideal.ofBits_def, Ideal.ofBits_zero_f32]

end Cert.ReferenceIdeal.RefValue

end
-- ==== Proof.SpecLaws.lean ====
import proofs.«430393_j3504693313561_3_alg».proof.Proof.Spec
import Idealize.ShloMosaic.Lib.ValueIdx
import Mathlib.Algebra.BigOperators.Fin
import Mathlib.Data.Fintype.BigOperators
import Mathlib.Data.EReal.Basic

noncomputable section

namespace Cert.Spec

open Idealize.ShloMosaic Idealize.ShloMosaic.ValueIdx

-- n = (c * 100 + b) * 1000 + r for exactly one c = n / 100000, b = n / 1000 % 100, r = n % 1000
def rowEquiv : Fin 2 × Fin 100 × Fin 1000 ≃ Fin 200000 where
  toFun p := rowOf p.1 p.2.1 p.2.2
  invFun n := (⟨n.val / 100000, by omega⟩, ⟨n.val / 1000 % 100, by omega⟩, ⟨n.val % 1000, by omega⟩)
  left_inv := fun ⟨c, b, r⟩ => by
    refine Prod.ext (Fin.ext ?_) (Prod.ext (Fin.ext ?_) (Fin.ext ?_)) <;> simp only [rowOf] <;> omega
  right_inv n := Fin.ext (by simp only [rowOf]; omega)

-- re-index the sum over the nodes through the bijection, then split the product and the two halves
theorem sum_halves {M : Type} [AddCommMonoid M] (f : Fin 200000 → M) :
    (∑ b : Fin 100, ∑ r : Fin 1000, f (rowOf 0 b r)) + ∑ b : Fin 100, ∑ r : Fin 1000, f (rowOf 1 b r)
      = ∑ n : Fin 200000, f n := by
  rw [← rowEquiv.sum_comp f, Fintype.sum_prod_type, Fin.sum_univ_two]
  simp only [Fintype.sum_prod_type]
  rfl

theorem partDenom_add (X : Mat 200000 16) (B : Lab 200000) (g : Fin 1024) (h : Fin 16) :
    partDenom X B (ix3 0 g h) + partDenom X B (ix3 1 g h) = denom X B (ix2 g h) :=
  sum_halves fun n => hot B n g * score X (ix2 n h)

theorem partPool_add (X : Mat 200000 16) (B : Lab 200000) (Dn : Mat 1024 16) (g : Fin 1024) (h : Fin 16) :
    partPool X B Dn (ix3 0 g h) + partPool X B Dn (ix3 1 g h) = pool X B Dn (ix2 g h) :=
  sum_halves fun n =>
    hot B n g * (X (ix2 n h) * Ideal.div (score X (ix2 n h)) (∑ g' : Fin 1024, hot B n g' * Dn (ix2 g' h)))

theorem hot_of_ne {B : Lab 200000} {n : Fin 200000} {g : Fin 1024}
    (hB : B (ix2 n 0) ≠ BitVec.ofNat 32 g.val) : hot B n g = 0 := if_neg hB

-- graph numbers are below 1024, so their words are distinct: only the node's own graph has a nonzero term
theorem hot_sum_of_eq (B : Lab 200000) (n : Fin 200000) (g : Fin 1024) (hB : B (ix2 n 0) = BitVec.ofNat 32 g.val)
    (D : Mat 1024 16) (h : Fin 16) : ∑ g' : Fin 1024, hot B n g' * D (ix2 g' h) = D (ix2 g h) := by
  rw [Fintype.sum_eq_single g fun g' hne => ?_, hot, if_pos hB, one_mul]
  rw [hot_of_ne fun heq => hne (Fin.ext ?_), zero_mul]
  have hv := congrArg BitVec.toNat (hB.symm.trans heq)
  rw [BitVec.toNat_ofNat, BitVec.toNat_ofNat] at hv
  omega

-- split an entry into node and column; the column sum keeps the one term at h
theorem sum_filter_hot (B : Lab 200000) (g : Fin 1024) (h : Fin 16) (u : Mat 200000 16) :
    ∑ j ∈ Finset.univ.filter (fun j : (⟨2, ![200000, 16]⟩ : Shape).Idx =>
        (j 1).val = h.val ∧ B (ix2 (j 0) 0) = BitVec.ofNat 32 g.val), u j
      = ∑ n : Fin 200000, hot B n g * u (ix2 n h) := by
  rw [Finset.sum_filter, sum_idx2]
  refine Finset.sum_congr rfl fun n _ => ?_
  rw [Fintype.sum_eq_single h fun b hne => if_neg fun hc => hne (Fin.ext hc.1), hot]
  by_cases hB : B (ix2 n 0) = BitVec.ofNat 32 g.val
  · rw [if_pos hB, one_mul]
    exact if_pos ⟨rfl, hB⟩
  · rw [if_neg hB, zero_mul]
    exact if_neg fun hc => hB hc.2

end Cert.Spec

end
-- ==== Proof.Ref.Pool.lean ====
import proofs.«430393_j3504693313561_3_alg».proof.Proof.Gen.ReferenceIdeal.Read
import proofs.«430393_j3504693313561_3_alg».proof.Proof.Spec
import proofs.«430393_j3504693313561_3_alg».proof.Proof.SpecLaws
import Idealize.ShloMosaic.Lib.ValueIdx
import Idealize.ShloMosaic.Lib.WordArith
import Idealize.ShloMosaic.Lib.ValueLayout
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.TcCoe Idealize.ShloMosaic.ValueIdx Idealize.SL.Sem Idealize.ShloMosaic.StableHlo

variable (x0 : (⟨S200000x1, .f32⟩ : BufTy).Contents (Elt Ideal)) (x1 : (⟨S2x5000000, .i32⟩ : BufTy).Contents (Elt Ideal))
  (x2 : (⟨S200000, .i32⟩ : BufTy).Contents (Elt Ideal))
  (x3 : (⟨S1x16, .f32⟩ : BufTy).Contents (Elt Ideal)) (x4 : (⟨S16, .f32⟩ : BufTy).Contents (Elt Ideal))
  (x5 : (⟨S1x16, .f32⟩ : BufTy).Contents (Elt Ideal)) (x6 : (⟨S16x16, .f32⟩ : BufTy).Contents (Elt Ideal))
  (x7 : (⟨S16, .f32⟩ : BufTy).Contents (Elt Ideal)) (x8 : (⟨S16x16, .f32⟩ : BufTy).Contents (Elt Ideal))
  (x9 : (⟨S16, .f32⟩ : BufTy).Contents (Elt Ideal)) (x10 x11 : (⟨S16x16, .f32⟩ : BufTy).Contents (Elt Ideal))
  (x12 : (⟨S16, .f32⟩ : BufTy).Contents (Elt Ideal)) (x13 : (⟨S16x16, .f32⟩ : BufTy).Contents (Elt Ideal))
  (x14 : (⟨S16, .f32⟩ : BufTy).Contents (Elt Ideal)) (x15 x16 : (⟨S16x16, .f32⟩ : BufTy).Contents (Elt Ideal))
  (x17 : (⟨S16, .f32⟩ : BufTy).Contents (Elt Ideal))
  (x18 : (⟨S16x16, .f32⟩ : BufTy).Contents (Elt Ideal)) (x19 : (⟨S16, .f32⟩ : BufTy).Contents (Elt Ideal))
  (x20 : (⟨S16x16, .f32⟩ : BufTy).Contents (Elt Ideal)) (x21 : (⟨S16, .f32⟩ : BufTy).Contents (Elt Ideal))
  (x22 : (⟨S16x1, .f32⟩ : BufTy).Contents (Elt Ideal)) (x23 : (⟨S1, .f32⟩ : BufTy).Contents (Elt Ideal))

theorem scatter_start_row {w : Nat} (j : S200000x16.Idx) (idx : IVec S200000x1 w) :
    scatter_S1024x16_S200000x1_S200000x16_1_0_0_1.start j idx 0 = (idx (ix2 (j 0) 0)).toInt := by
  unfold ScatterDims.start
  exact (dif_pos (by decide)).trans (congrArg (fun v => (idx v).toInt) (funext fun | ⟨0, _⟩ => rfl | ⟨1, _⟩ => rfl))

theorem scatter_start_col {w : Nat} (j : S200000x16.Idx) (idx : IVec S200000x1 w) :
    scatter_S1024x16_S200000x1_S200000x16_1_0_0_1.start j idx 1 = 0 := by
  unfold ScatterDims.start
  exact dif_neg (by decide)

theorem scatter_window_row (j : S200000x16.Idx) :
    scatter_S1024x16_S200000x1_S200000x16_1_0_0_1.window j 0 = 0 := by
  unfold ScatterDims.window
  exact dif_neg (by decide)

theorem scatter_window_col (j : S200000x16.Idx) :
    scatter_S1024x16_S200000x1_S200000x16_1_0_0_1.window j 1 = (j 1).val := by
  unfold ScatterDims.window
  exact (dif_pos (by decide)).trans rfl

theorem toInt_eq_graph_iff (b : BitVec 32) (g : Fin 1024) : b.toInt = (g.val : Int) ↔ b = BitVec.ofNat 32 g.val := by
  constructor
  · intro h
    rw [← BitVec.ofInt_toInt (x := b), h, BitVec.ofInt_natCast]
  · rintro rfl
    exact WordArith.toInt_ofNat_small _ (by omega)

-- an update lands on entry i exactly when on every axis its start plus its window coordinate is i's coordinate
theorem resultIdx_eq_some_iff {s si u : Shape} (d : ScatterDims s si u) {w : Nat} (j : u.Idx) (idx : IVec si w)
    (i : s.Idx) : d.resultIdx? j idx = some i ↔ ∀ a, d.start j idx a + d.window j a = (i a).val := by
  unfold ScatterDims.resultIdx?
  split
  · rename_i hin
    rw [Option.some.injEq]
    constructor
    · rintro rfl a
      have := hin a
      show _ = (((d.start j idx a + d.window j a).toNat : Nat) : Int)
      omega
    · intro h
      funext a
      refine Fin.ext ?_
      have := h a
      show (d.start j idx a + d.window j a).toNat = (i a).val
      omega
  · rename_i hout
    refine ⟨fun he => absurd he (by simp), fun h => absurd (fun a => ?_) hout⟩
    have := h a
    have := (i a).isLt
    omega

theorem scatter_resultIdx_iff (j : S200000x16.Idx) (idx : IVec S200000x1 32) (g : Fin 1024) (h : Fin 16) :
    scatter_S1024x16_S200000x1_S200000x16_1_0_0_1.resultIdx? j idx = some (ix2 g h)
      ↔ ((j 1).val = h.val ∧ idx (ix2 (j 0) 0) = BitVec.ofNat 32 g.val) := by
  rw [resultIdx_eq_some_iff, ← toInt_eq_graph_iff]
  have r0 := scatter_start_row j idx
  have r1 := scatter_start_col j idx
  have w0 := scatter_window_row j
  have w1 := scatter_window_col j
  constructor
  · intro hh
    have h0 : _ = (g.val : Int) := hh 0
    have h1 : _ = (h.val : Int) := hh 1
    omega
  · rintro ⟨e1, e0⟩
    refine Fin.forall_fin_two.2 ⟨?_, ?_⟩
    · show _ = (g.val : Int)
      omega
    · show _ = (h.val : Int)
      omega

theorem gather_start_row (idx : IVec S200000x1 32) (n : Fin 200000) (h : Fin 16) :
    gather_S1024x16_S200000x1_S200000x16_1_0_n_n_0_1_116.start (ix2 n h) idx 0 = min (idx (ix2 n 0)).toInt.toNat 1023 := by
  unfold GatherDims.start
  exact (dif_pos (by decide)).trans (congrArg (fun v => min (idx v).toInt.toNat 1023) (funext fun | ⟨0, _⟩ => rfl | ⟨1, _⟩ => rfl))

theorem gather_start_col (idx : IVec S200000x1 32) (j : S200000x16.Idx) :
    gather_S1024x16_S200000x1_S200000x16_1_0_n_n_0_1_116.start j idx 1 = 0 := by
  unfold GatherDims.start
  exact dif_neg (by decide)

theorem gather_offCoord_col (j : S200000x16.Idx) :
    gather_S1024x16_S200000x1_S200000x16_1_0_n_n_0_1_116.offCoord j 1 = (j 1).val := by
  unfold GatherDims.offCoord
  exact (dif_pos (by decide)).trans rfl

-- the gather reads the operand where, on every axis, start plus batching plus offset coordinate points
theorem gather_eq_of {s si t : Shape} (d : GatherDims s si t) {α : Type} {w : Nat} (x : s.Idx → α) (idx : IVec si w)
    (j : t.Idx) (i : s.Idx) (h : ∀ a, d.start j idx a + d.batchCoord j a + d.offCoord j a = (i a).val) :
    Host.gather d x idx j = x i := by
  unfold Host.gather
  exact congrArg x (funext fun a => Fin.ext (h a))

theorem scatterAdd_zero_apply (z : (⟨S1024x16, .f32⟩ : BufTy).Contents (Elt Ideal)) (hz : ∀ i, z i = 0)
    (B : (⟨S200000x1, .i32⟩ : BufTy).Contents (Elt Ideal)) (u : (⟨S200000x16, .f32⟩ : BufTy).Contents (Elt Ideal))
    (g : Fin 1024) (h : Fin 16) :
    Host.scatterAdd (F := Ideal) (φ := .f32) scatter_S1024x16_S200000x1_S200000x16_1_0_0_1 z B u (ix2 g h)
      = ∑ n : Fin 200000, Cert.Spec.hot B n g * u (ix2 n h) := by
  simp only [Host.scatterAdd, Ideal.hostScatterAdd_def]
  unfold Ideal.hostScatterAdd
  rw [hz, zero_add, ← Cert.Spec.sum_filter_hot B g h u]
  refine Finset.sum_congr ?_ fun _ _ => rfl
  refine Finset.filter_congr fun j _ => ?_
  exact scatter_resultIdx_iff j B g h

theorem zeros_apply (i : S1024x16.Idx) : val_main_v96 (F := Ideal) i = 0 := by
  rw [val_main_v96_apply, val_main_cst_17_apply]
  exact Ideal.ofBits_zero_f32

theorem zeros'_apply (i : S1024x16.Idx) : val_main_v108 (F := Ideal) i = 0 := by
  rw [val_main_v108_apply, val_main_cst_20_apply]
  exact Ideal.ofBits_zero_f32

theorem scores_apply (i : S200000x16.Idx) :
    val_main_v95 (F := Ideal) x0 x1 x3 x4 x5 x6 x7 x8 x9 x10 x11 x12 x13 x14 x15 x16 x17 i
      = Cert.Spec.score (val_main_v92 (F := Ideal) x0 x1 x3 x4 x5 x6 x7 x8 x9 x10 x11 x12 x13 x14 x15 x16 x17) i := by
  unfold Cert.Spec.score Cert.Spec.alpha
  rw [val_main_v95_apply, val_main_v94_apply, val_main_v93_apply, val_main_cst_16_apply,
    Ideal.hostUnary_exp_def, Ideal.mulf_def, Ideal.ofBits_def]

theorem denom_eq :
    val_main_v98 (F := Ideal) x0 x1 x2 x3 x4 x5 x6 x7 x8 x9 x10 x11 x12 x13 x14 x15 x16 x17
      = Cert.Spec.denom (val_main_v92 (F := Ideal) x0 x1 x3 x4 x5 x6 x7 x8 x9 x10 x11 x12 x13 x14 x15 x16 x17)
          (val_main_v97 (F := Ideal) x2) := by
  funext i
  obtain ⟨g, h, rfl⟩ : ∃ (g : Fin 1024) (h : Fin 16), i = ix2 g h := ⟨i 0, i 1, eq_ix2 i⟩
  unfold val_main_v98
  rw [scatterAdd_zero_apply _ zeros_apply]
  unfold Cert.Spec.denom
  rw [Cert.Spec.mat_ix2]
  refine Finset.sum_congr rfl fun n _ => ?_
  rw [scores_apply]

theorem graph_word_not_neg (g : Fin 1024) : IntOp.cmpi .slt (BitVec.ofNat 32 g.val) 0#32 = 0#1 := by
  have hlt : ¬((BitVec.ofNat 32 g.val).toInt < (0#32 : BitVec 32).toInt) := by
    rw [(toInt_eq_graph_iff _ g).mpr rfl, BitVec.toInt_zero]
    omega
  show BitVec.ofBool (decide ((BitVec.ofNat 32 g.val).toInt < (0#32 : BitVec 32).toInt)) = 0#1
  rw [decide_eq_false hlt]
  rfl

theorem norm_label_of_graph (n : Fin 200000) (g : Fin 1024)
    (hB : val_main_v97 (F := Ideal) x2 (ix2 n 0) = BitVec.ofNat 32 g.val) :
    val_main_v104 (F := Ideal) x2 (ix2 n 0) = BitVec.ofNat 32 g.val := by
  have hx : x2 (idx_main_v104 (ix2 n 0)) = BitVec.ofNat 32 g.val := by
    rw [← hB, val_main_v97_apply]
  rw [val_main_v104_apply, val_main_v103_apply, val_main_v100_apply, val_main_v102_apply, val_main_v99_apply,
    val_main_c_18_apply, hx, graph_word_not_neg, select_zero]

-- a node whose label word is g reads row g: the label is not negative and g ≤ 1023 is not clamped
theorem gather_of_graph {α : Type} (Dn : S1024x16.Idx → α) (n : Fin 200000) (g : Fin 1024) (h : Fin 16)
    (hB : val_main_v97 (F := Ideal) x2 (ix2 n 0) = BitVec.ofNat 32 g.val) :
    Host.gather gather_S1024x16_S200000x1_S200000x16_1_0_n_n_0_1_116 Dn (val_main_v104 (F := Ideal) x2) (ix2 n h)
      = Dn (ix2 g h) := by
  refine gather_eq_of _ _ _ _ _ (Fin.forall_fin_two.2 ⟨?_, ?_⟩)
  · have s0 := gather_start_row (val_main_v104 (F := Ideal) x2) n h
    rw [norm_label_of_graph x2 n g hB, (toInt_eq_graph_iff _ g).mpr rfl] at s0
    have b0 := gather_S1024x16_S200000x1_S200000x16_1_0_n_n_0_1_116.batchCoord_eq_zero (ix2 n h) 0 (by decide)
    have o0 := gather_S1024x16_S200000x1_S200000x16_1_0_n_n_0_1_116.offCoord_eq_zero (ix2 n h) 0 (by decide)
    show _ = g.val
    omega
  · have s1 := gather_start_col (val_main_v104 (F := Ideal) x2) (ix2 n h)
    have b1 := gather_S1024x16_S200000x1_S200000x16_1_0_n_n_0_1_116.batchCoord_eq_zero (ix2 n h) 1 (by decide)
    have o1 : _ = h.val := gather_offCoord_col (ix2 n h)
    show _ = h.val
    omega

theorem pool_eq :
    val_main_v110 (F := Ideal) x0 x1 x2 x3 x4 x5 x6 x7 x8 x9 x10 x11 x12 x13 x14 x15 x16 x17
      = Cert.Spec.pool (val_main_v92 (F := Ideal) x0 x1 x3 x4 x5 x6 x7 x8 x9 x10 x11 x12 x13 x14 x15 x16 x17)
          (val_main_v97 (F := Ideal) x2) (val_main_v98 (F := Ideal) x0 x1 x2 x3 x4 x5 x6 x7 x8 x9 x10 x11 x12 x13 x14 x15 x16 x17) := by
  funext i
  obtain ⟨g, h, rfl⟩ : ∃ (g : Fin 1024) (h : Fin 16), i = ix2 g h := ⟨i 0, i 1, eq_ix2 i⟩
  unfold val_main_v110
  show Host.scatterAdd (F := Ideal) (φ := .f32) scatter_S1024x16_S200000x1_S200000x16_1_0_0_1 (val_main_v108 (F := Ideal))
      (val_main_v97 (F := Ideal) x2) (val_main_v107 (F := Ideal) x0 x1 x2 x3 x4 x5 x6 x7 x8 x9 x10 x11 x12 x13 x14 x15 x16 x17) (ix2 g h) = _
  rw [scatterAdd_zero_apply _ zeros'_apply]
  unfold Cert.Spec.pool
  rw [Cert.Spec.mat_ix2]
  refine Finset.sum_congr rfl fun n _ => ?_
  by_cases hB : val_main_v97 (F := Ideal) x2 (ix2 n 0) = BitVec.ofNat 32 g.val
  · rw [val_main_v107_apply, val_main_v106_apply, scores_apply]
    unfold val_main_v105
    rw [gather_of_graph x2 _ n g h hB, Cert.Spec.hot_sum_of_eq _ n g hB]
    rfl
  · rw [Cert.Spec.hot_of_ne hB, zero_mul, zero_mul]

theorem lidx111 (r : Fin 1024) (c k : Fin 16) : lidx_main_v111 (ix2 r c) k = ix2 r k :=
  funext fun | ⟨0, _⟩ => rfl | ⟨1, _⟩ => rfl
theorem ridx111 (r : Fin 1024) (c k : Fin 16) : ridx_main_v111 (ix2 r c) k = ix2 k c :=
  funext fun | ⟨0, _⟩ => rfl | ⟨1, _⟩ => rfl
theorem lidx116 (r : Fin 1024) (c k : Fin 16) : lidx_main_v116 (ix2 r c) k = ix2 r k :=
  funext fun | ⟨0, _⟩ => rfl | ⟨1, _⟩ => rfl
theorem ridx116 (r : Fin 1024) (c k : Fin 16) : ridx_main_v116 (ix2 r c) k = ix2 k c :=
  funext fun | ⟨0, _⟩ => rfl | ⟨1, _⟩ => rfl
theorem lidx121 (r : Fin 1024) (c : Fin 1) (k : Fin 16) : lidx_main_v121 (ix2 r c) k = ix2 r k :=
  funext fun | ⟨0, _⟩ => rfl | ⟨1, _⟩ => rfl
theorem ridx121 (r : Fin 1024) (c : Fin 1) (k : Fin 16) : ridx_main_v121 (ix2 r c) k = ix2 k c :=
  funext fun | ⟨0, _⟩ => rfl | ⟨1, _⟩ => rfl
theorem bidx113 (r : Fin 1024) (c : Fin 16) : idx_main_v112 (idx_main_v113 (ix2 r c)) = ix1 c :=
  funext fun | ⟨0, _⟩ => rfl
theorem bidx118 (r : Fin 1024) (c : Fin 16) : idx_main_v117 (idx_main_v118 (ix2 r c)) = ix1 c :=
  funext fun | ⟨0, _⟩ => rfl
theorem bidx123 (r : Fin 1024) (c : Fin 1) : idx_main_v122 (idx_main_v123 (ix2 r c)) = ix1 c :=
  funext fun | ⟨0, _⟩ => Fin.ext (by show 0 = c.val; omega)

theorem mlp_eq :
    val_main_v124 (F := Ideal) x0 x1 x2 x3 x4 x5 x6 x7 x8 x9 x10 x11 x12 x13 x14 x15 x16 x17 x18 x19 x20 x21 x22 x23
      = Cert.Spec.mlp (val_main_v110 (F := Ideal) x0 x1 x2 x3 x4 x5 x6 x7 x8 x9 x10 x11 x12 x13 x14 x15 x16 x17) x18 x19 x20 x21 x22 x23 := by
  funext i
  obtain ⟨r, c, rfl⟩ : ∃ (r : Fin 1024) (c : Fin 1), i = ix2 r c := ⟨i 0, i 1, eq_ix2 i⟩
  unfold Cert.Spec.mlp Cert.Spec.affine Cert.Spec.dense
  simp only [Cert.Spec.mat_ix2, val_main_v124_apply, val_main_v121_apply, val_main_v123_apply, val_main_v122_apply,
    val_main_v120_apply, val_main_v119_apply, val_main_v118_apply, val_main_v117_apply, val_main_v116_apply,
    val_main_v115_apply, val_main_v114_apply, val_main_v113_apply, val_main_v112_apply, val_main_v111_apply,
    val_main_call3_v0_apply, val_main_call3_cst_apply, val_main_call4_v0_apply, val_main_call4_cst_apply,
    lidx111, ridx111, lidx116, ridx116, lidx121, ridx121, bidx113, bidx118, bidx123,
    Ideal.addf_def, Ideal.maximumf_def, Ideal.ofBits_def, Ideal.ofBits_zero_f32]

end Cert.ReferenceIdeal.RefValue

end
-- ==== Proof.Bridge.lean ====
import proofs.«430393_j3504693313561_3_alg».proof.Proof.KernelIdeal.HostRead
import proofs.«430393_j3504693313561_3_alg».proof.Proof.KernelIdeal.Run
import proofs.«430393_j3504693313561_3_alg».proof.Proof.KernelIdeal.Val0
import proofs.«430393_j3504693313561_3_alg».proof.Proof.KernelIdeal.Val1
import proofs.«430393_j3504693313561_3_alg».proof.Proof.KernelIdeal.Val2
import proofs.«430393_j3504693313561_3_alg».proof.Proof.KernelIdeal.Val3
import proofs.«430393_j3504693313561_3_alg».proof.Proof.KernelIdeal.Val4
import proofs.«430393_j3504693313561_3_alg».proof.Proof.KernelIdeal.Val5
import proofs.«430393_j3504693313561_3_alg».proof.Proof.Ref.Layers
import proofs.«430393_j3504693313561_3_alg».proof.Proof.Ref.Pool

noncomputable section

namespace Cert.Bridge

open Idealize.ShloMosaic Idealize.ShloMosaic.ValueIdx
open Cert.KernelIdeal Cert.KernelIdeal.Gen
open Cert.ReferenceIdeal.Read Cert.ReferenceIdeal.RefValue

-- An array whose two halves add up entrywise to D has D as the sum of its halves.
theorem addHalves_eq {P : (⟨S2x1024x16, .f32⟩ : BufTy).Contents (Elt Ideal)} {D : Cert.Spec.Mat 1024 16}
    (hadd : ∀ g h, P (ix3 0 g h) + P (ix3 1 g h) = D (ix2 g h)) : addHalves (F := Ideal) P = D := by
  funext i
  rw [eq_ix2 i]
  refine Eq.trans ?_ (hadd _ _)
  unfold addHalves
  show FloatOps.addf _ _ = _
  rw [Ideal.addf_def]
  congr 1 <;>
    exact (shapeCast_dropUnit_apply _ _ _ _).trans (extractStridedSlice_apply _ P _ _ _ fun a => match a with
      | ⟨0, _⟩ => rfl
      | ⟨1, _⟩ => (Nat.zero_add _).symm
      | ⟨2, _⟩ => (Nat.zero_add _).symm)

theorem labelCol_eq (b : (⟨S200000, .i32⟩ : BufTy).Contents (Elt Ideal)) :
    labelCol (F := Ideal) b = val_main_v97 (F := Ideal) b := by
  funext i
  have h1 : (i 1).val < 1 := (i 1).isLt
  rw [val_main_v97_apply]
  exact shapeCast_apply b _ i _
    (by rw [Shape.rowMajor_val_two, Shape.rowMajor_val_one]; show (i 0).val = (i 0).val * 1 + (i 1).val; omega)

section Chase

variable (m : (ℓ : Loc nD τ sig) → Buf (Elt Ideal) ℓ) (ρ : Dev nD → PrngReg) (c : Dev nD) (r : Ref sig .tc)

abbrev A := W0 m ρ c (Proc.devRef .tc r)

abbrev K3 : Prop := r ∉ hostOps0_W ∧ (∀ w, Pipeline.arrRef spec0 w ≠ r) ∧ r ∉ hostOps1_W
abbrev K5 : Prop := K3 r ∧ (∀ w, Pipeline.arrRef spec1 w ≠ r) ∧ r ∉ hostOps2_W
abbrev K6 : Prop := K5 r ∧ ∀ w, Pipeline.arrRef spec2 w ≠ r
abbrev K11 : Prop := K6 r ∧ r ∉ hostOps3_W ∧ (∀ w, Pipeline.arrRef spec3 w ≠ r) ∧ r ∉ hostOps4_W ∧
  (∀ w, Pipeline.arrRef spec4 w ≠ r) ∧ r ∉ hostOps5_W

-- A buffer that no line and no region up to a boundary writes still holds its launch contents there.
theorem keep3 (h : K3 r) : W3 m ρ c (Proc.devRef .tc r) = A m ρ c r :=
  (W3_keep m ρ c r h.2.2).trans ((W2_of_ne m ρ c r h.2.1).trans (W1_keep m ρ c r h.1))
theorem keep5 (h : K5 r) : W5 m ρ c (Proc.devRef .tc r) = A m ρ c r :=
  (W5_keep m ρ c r h.2.2).trans ((W4_of_ne m ρ c r h.2.1).trans (keep3 m ρ c r h.1))
theorem keep6 (h : K6 r) : W6 m ρ c (Proc.devRef .tc r) = A m ρ c r :=
  (W6_of_ne m ρ c r h.2).trans (keep5 m ρ c r h.1)
theorem keep11 (h : K11 r) : W11 m ρ c (Proc.devRef .tc r) = A m ρ c r :=
  (W11_keep m ρ c r h.2.2.2.2.2).trans <| (W10_of_ne m ρ c r h.2.2.2.2.1).trans <| (W9_keep m ρ c r h.2.2.2.1).trans <|
    (W8_of_ne m ρ c r h.2.2.1).trans <| (W7_keep m ρ c r h.2.1).trans (keep6 m ρ c r h.1)

-- Boundary by boundary, each buffer a later stage reads holds the reference's array of the launch arguments.
theorem out_eq : W12 m ρ c (Proc.devRef .tc main_v57) =
    val_main_v124 (F := Ideal) (A m ρ c main_arg0) (A m ρ c main_arg1) (A m ρ c main_arg2) (A m ρ c main_arg3) (A m ρ c main_arg4) (A m ρ c main_arg5)
    (A m ρ c main_arg6) (A m ρ c main_arg7) (A m ρ c main_arg8) (A m ρ c main_arg9) (A m ρ c main_arg10) (A m ρ c main_arg11)
    (A m ρ c main_arg12) (A m ρ c main_arg13) (A m ρ c main_arg14) (A m ρ c main_arg15) (A m ρ c main_arg16) (A m ρ c main_arg17)
    (A m ρ c main_arg18) (A m ρ c main_arg19) (A m ρ c main_arg20) (A m ρ c main_arg21) (A m ρ c main_arg22) (A m ρ c main_arg23) := by
  have d := host0_main_v10 (W0 m ρ c)
  have s := (W2_of_ne m ρ c main_v1 (by decide)).trans (host0_main_v1 (W0 m ρ c))
  have t := (W2_of_ne m ρ c main_v3 (by decide)).trans (host0_main_v3 (W0 m ρ c))
  have k1 := (W2_arr m ρ c 8).trans <| (Val.arrAt0_out (VT1 m ρ) c).trans <|
    (congr (congr (congr (congr (congr (congr (congr (congrArg (Spec.sage (d := 1)) (host0_main_v20 (W0 m ρ c))) d) (W1_keep m ρ c main_arg0 (by decide)))
      (W1_keep m ρ c main_arg3 (by decide))) (W1_keep m ρ c main_arg4 (by decide)))
      (W1_keep m ρ c main_arg5 (by decide))) (W1_keep m ρ c main_arg6 (by decide)))
      (W1_keep m ρ c main_arg7 (by decide))).trans
      (layer0 _ _ _ _ _ _ _).symm
  have d := (W3_keep m ρ c main_v10 (by decide)).trans ((W2_in m ρ c 1 rfl).trans d)
  have k2 := (W4_arr m ρ c 8).trans <| (Val.arrAt1_out (VT3 m ρ) c).trans <|
    (congr (congr (congr (congr (congr (congr (congr (congrArg (Spec.sage (d := 16))
      ((host1_main_v31 (W2 m ρ c)).trans (congr (congrArg₂ (summed16 (F := Ideal)) k1 s) t))) d)
      ((W3_keep m ρ c main_v21 (by decide)).trans k1)) (keep3 m ρ c main_arg8 (by decide))) (keep3 m ρ c main_arg9 (by decide)))
      (keep3 m ρ c main_arg10 (by decide))) (keep3 m ρ c main_arg11 (by decide))) (keep3 m ρ c main_arg12 (by decide))).trans
      (layer1 _ _ _ _ _ _ _ _ _ _ _ _).symm
  have s := (W4_of_ne m ρ c main_v1 (by decide)).trans ((W3_keep m ρ c main_v1 (by decide)).trans s)
  have t := (W4_of_ne m ρ c main_v3 (by decide)).trans ((W3_keep m ρ c main_v3 (by decide)).trans t)
  have d := (W5_keep m ρ c main_v10 (by decide)).trans ((W4_in m ρ c 1 rfl).trans d)
  have k3 := (W6_arr m ρ c 8).trans <| (Val.arrAt2_out (VT5 m ρ) c).trans <|
    (congr (congr (congr (congr (congr (congr (congr (congrArg (Spec.sage (d := 16))
      ((host2_main_v42 (W4 m ρ c)).trans (congr (congrArg₂ (summed16 (F := Ideal)) k2 s) t))) d)
      ((W5_keep m ρ c main_v32 (by decide)).trans k2))
      (keep5 m ρ c main_arg13 (by decide))) (keep5 m ρ c main_arg14 (by decide)))
      (keep5 m ρ c main_arg15 (by decide))) (keep5 m ρ c main_arg16 (by decide)))
      (keep5 m ρ c main_arg17 (by decide))).trans
      (layer2 _ _ _ _ _ _ _ _ _ _ _ _ _ _ _ _ _).symm
  have l := (host3_main_v44 (W6 m ρ c)).trans
    ((congrArg (labelCol (F := Ideal)) (keep6 m ρ c main_arg2 (by decide))).trans (labelCol_eq _))
  have k3 := (W7_keep m ρ c main_v43 (by decide)).trans k3
  have p := (W8_arr m ρ c 2).trans <| (Val.arrAt3_out (VT7 m ρ) c).trans (congrArg₂ Spec.partDenom k3 l)
  have dn := (host4_main_v50 (W8 m ρ c)).trans <| (congrArg (addHalves (F := Ideal)) p).trans <|
    (addHalves_eq (Spec.partDenom_add _ _)).trans (denom_eq _ _ _ _ _ _ _ _ _ _ _ _ _ _ _ _ _ _).symm
  have k3 := (W9_keep m ρ c main_v43 (by decide)).trans ((W8_in m ρ c 0 rfl).trans k3)
  have l := (W9_keep m ρ c main_v44 (by decide)).trans ((W8_in m ρ c 1 rfl).trans l)
  have e := congr (congrArg₂ Spec.partPool k3 l) dn
  have q := (W10_arr m ρ c 3).trans <| (Val.arrAt4_out (VT9 m ρ) c).trans e
  have pl := (host5_main_v56 (W10 m ρ c)).trans <| (congrArg (addHalves (F := Ideal)) q).trans <|
    (addHalves_eq (Spec.partPool_add _ _ _)).trans (pool_eq _ _ _ _ _ _ _ _ _ _ _ _ _ _ _ _ _ _).symm
  exact (W12_arr m ρ c 7).trans <| (Val.arrAt5_out (VT11 m ρ) c).trans <|
    (congr (congr (congr (congr (congr (congr (congrArg Spec.mlp pl) (keep11 m ρ c main_arg18 (by decide))) (keep11 m ρ c main_arg19 (by decide)))
      (keep11 m ρ c main_arg20 (by decide))) (keep11 m ρ c main_arg21 (by decide)))
      (keep11 m ρ c main_arg22 (by decide))) (keep11 m ρ c main_arg23 (by decide))).trans
      (mlp_eq _ _ _ _ _ _ _ _ _ _ _ _ _ _ _ _ _ _ _ _ _ _ _ _).symm

end Chase

theorem result_eq (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23))
    (c : Dev Cert.KernelIdeal.nD) :
    Cert.KernelIdeal.Gen.W12 (F := Ideal) m ρ c (Proc.devRef .tc Cert.KernelIdeal.main_v57)
      = Cert.ReferenceIdeal.Value.res_main_v124 (F := Ideal) m' c := by
  refine (out_eq m ρ c).trans ?_
  simp only [val_main_v124_eq, hagree c] <;> rfl

end Cert.Bridge

end
-- ==== Proof.lean ====
import proofs.«430393_j3504693313561_3_alg».proof.Defs
import proofs.«430393_j3504693313561_3_alg».proof.Proof.Gen.Kernel
import proofs.«430393_j3504693313561_3_alg».proof.Proof.Gen.KernelIdeal
import proofs.«430393_j3504693313561_3_alg».proof.Proof.Gen.ReferenceIdeal
import proofs.«430393_j3504693313561_3_alg».proof.Proof.Gen.ReferenceIdeal.Run
import proofs.«430393_j3504693313561_3_alg».proof.Proof.Gen.Pre_finite_inputs
import proofs.«430393_j3504693313561_3_alg».proof.Proof.Kernel.Run
import proofs.«430393_j3504693313561_3_alg».proof.Proof.KernelIdeal.Run
import proofs.«430393_j3504693313561_3_alg».proof.Proof.Bridge

noncomputable section

namespace Cert.Proof

open Idealize.ShloMosaic Idealize.ShloMosaic.TcCoe Idealize.SL.Sem

-- A kernel program's frame is its run read at the 24 arguments, none of which a host stretch or a region writes; the
-- reference's is its run with the result dropped; the idealization rewrote nothing; the two results are one array.
theorem claim : Cert.Claim :=
  ⟨Cert.Kernel.Gen.facts, Cert.KernelIdeal.Gen.facts, Cert.ReferenceIdeal.Gen.facts, Cert.Pre_finite_inputs.Gen.facts,
    fun m ρ _ => (θ_run Cert.Kernel.defs _ _).mono (fun r h c => by
      repeat' apply And.intro
      all_goals exact (h c).2 _ (by decide)) (Cert.Kernel.Gen.run_args (F := Bits) m ρ),
    fun m ρ _ => (θ_run Cert.KernelIdeal.defs _ _).mono (fun r h c => by
      repeat' apply And.intro
      all_goals exact (h c).2 _ (by decide)) (Cert.KernelIdeal.Gen.run_args (F := Ideal) m ρ),
    fun m ρ _ => (θ_run Cert.ReferenceIdeal.defs _ _).mono (fun _ h c => (h c).2) (Cert.ReferenceIdeal.Value.run (F := Ideal) m ρ),
    trivial,
    fun m ρ m' ρ' _ hagree =>
      ⟨fun c => Cert.KernelIdeal.Gen.W12 (F := Ideal) m ρ c (Proc.devRef .tc Cert.KernelIdeal.main_v57),
        (θ_run Cert.KernelIdeal.defs _ _).mono (fun r h c => ⟨(h c).1, by
          repeat' apply And.intro
          all_goals exact (h c).2 _ (by decide)⟩) (Cert.KernelIdeal.Gen.run_args (F := Ideal) m ρ),
        (θ_run Cert.ReferenceIdeal.defs _ _).mono
          (fun _ h c => ⟨(h c).1.trans (Cert.Bridge.result_eq m ρ m' hagree c).symm, (h c).2⟩)
          (Cert.ReferenceIdeal.Value.run (F := Ideal) m' ρ')⟩⟩

end Cert.Proof

end
